-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S3072x1024 .f32) (main_arg2 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S8192x1024 : Shape := ⟨2, ![8192, 1024]⟩
abbrev S1024x3072 : Shape := ⟨2, ![1024, 3072]⟩
abbrev S4x2048x16x64 : Shape := ⟨4, ![4, 2048, 16, 64]⟩
abbrev S1x512x16x64 : Shape := ⟨4, ![1, 512, 16, 64]⟩
abbrev S1x512x1024 : Shape := ⟨3, ![1, 512, 1024]⟩
abbrev S16x512x1 : Shape := ⟨3, ![16, 512, 1]⟩
abbrev S16x512x64 : Shape := ⟨3, ![16, 512, 64]⟩
abbrev S512x16x64 : Shape := ⟨3, ![512, 16, 64]⟩
abbrev S512x512 : Shape := ⟨2, ![512, 512]⟩
abbrev S512x1x64 : Shape := ⟨3, ![512, 1, 64]⟩
abbrev S512x64 : Shape := ⟨2, ![512, 64]⟩
abbrev S64x512 : Shape := ⟨2, ![64, 512]⟩
abbrev S1x512x1 : Shape := ⟨3, ![1, 512, 1]⟩
abbrev S512x1 : Shape := ⟨2, ![512, 1]⟩
abbrev S512 : Shape := ⟨1, ![512]⟩
abbrev S1x512x64 : Shape := ⟨3, ![1, 512, 64]⟩
abbrev S512x1024 : Shape := ⟨2, ![512, 1024]⟩

abbrev nBuf : Space → Nat
  | .hbm => 19
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S8192x1024, .f32⟩
  | .hbm, ⟨4, _⟩ => ⟨S8192x1024, .bf16⟩
  | .hbm, ⟨5, _⟩ => ⟨S1024x3072, .f32⟩
  | .hbm, ⟨6, _⟩ => ⟨S1024x3072, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S4x2048x16x64, .bf16⟩
  | .hbm, ⟨16, _⟩ => ⟨S4x2048x16x64, .bf16⟩
  | .hbm, ⟨17, _⟩ => ⟨S4x2048x16x64, .bf16⟩
  | .hbm, ⟨18, _⟩ => ⟨S4x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x512x16x64, .bf16⟩
  | .local _ .vmem, ⟨12, _⟩ => ⟨S1x512x16x64, .bf16⟩
  | .local _ .vmem, ⟨13, _⟩ => ⟨S1x512x16x64, .bf16⟩
  | .local _ .vmem, ⟨14, _⟩ => ⟨S1x512x16x64, .bf16⟩
  | .local _ .vmem, ⟨15, _⟩ => ⟨S1x512x16x64, .bf16⟩
  | .local _ .vmem, ⟨16, _⟩ => ⟨S1x512x16x64, .bf16⟩
  | .local _ .vmem, ⟨17, _⟩ => ⟨S1024x1024, .bf16⟩
  | .local _ .vmem, ⟨18, _⟩ => ⟨S1x512x1024, .f32⟩
  | .local _ .vmem, ⟨19, _⟩ => ⟨S1x512x1024, .f32⟩
  | .local _ .vmem, ⟨20, _⟩ => ⟨S16x512x1, .f32⟩
  | .local _ .vmem, ⟨21, _⟩ => ⟨S16x512x1, .f32⟩
  | .local _ .vmem, ⟨22, _⟩ => ⟨S16x512x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  let c0_i32_1 : BitVec 32 := 0#32
  ![arg0.toNat, v0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  let c0_i32_1 : BitVec 32 := 0#32
  ![arg0.toNat, v0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x16x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x16x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x16x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S4x2048x1024_S8192x1024 : S4x2048x1024.ShapeCasts S8192x1024
  bitsLt_bf16_f32 : FTy.bits .bf16 < FTy.bits .f32
  transposes_S3072x1024_S1024x3072_1_0 : S3072x1024.Transposes [1, 0] S1024x3072
  slices_S1024x3072_S1024x1024_0_0 : S1024x3072.Slices ![0, 0] S1024x1024
  slices_S1024x3072_S1024x1024_0_1024 : S1024x3072.Slices ![0, 1024] S1024x1024
  slices_S1024x3072_S1024x1024_0_2048 : S1024x3072.Slices ![0, 2048] S1024x1024
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x16x64 : S8192x1024.ShapeCasts S4x2048x16x64
  inb_S16x512x1_S16x512x1_0_0_0 : ∀ a, (![0, 0, 0] : Fin 3 → Nat) a + S16x512x1.size a ≤ S16x512x1.size a
  h_S16x512x1 : 0 < S16x512x1.numel
  shapeCasts_S16x512x1_S16x512x1 : S16x512x1.ShapeCasts S16x512x1
  inb_S16x512x64_S16x512x64_0_0_0 : ∀ a, (![0, 0, 0] : Fin 3 → Nat) a + S16x512x64.size a ≤ S16x512x64.size a
  h_S16x512x64 : 0 < S16x512x64.numel
  shapeCasts_S16x512x64_S16x512x64 : S16x512x64.ShapeCasts S16x512x64
  inb_S1x512x16x64_S1x512x16x64_0_0_0_0 : ∀ a, (![0, 0, 0, 0] : Fin 4 → Nat) a + S1x512x16x64.size a ≤ S1x512x16x64.size a
  h_S1x512x16x64 : 0 < S1x512x16x64.numel
  shapeCasts_S1x512x16x64_S512x16x64 : S1x512x16x64.ShapeCasts S512x16x64
  iota_S512x512_d0_w32 : S512x512.Iotas .tc 32 [0]
  iota_S512x512_d1_w32 : S512x512.Iotas .tc 32 [1]
  slices_S512x16x64_o0_0_0_S512x1x64 : S512x16x64.Slices ![0, 0, 0] S512x1x64
  shapeCasts_S512x1x64_S512x64 : S512x1x64.ShapeCasts S512x64
  transposes_S512x64_p1_0_S64x512 : S512x64.Transposes [1, 0] S64x512
  inb_S16x512x1_S1x512x1_0_0_0 : ∀ a, (![0, 0, 0] : Fin 3 → Nat) a + S1x512x1.size a ≤ S16x512x1.size a
  h_S1x512x1 : 0 < S1x512x1.numel
  shapeCasts_S1x512x1_S512x1 : S1x512x1.ShapeCasts S512x1
  reduces_S512x512_S512 : S512x512.Reduces [1] S512
  shapeCasts_S512_S512x1 : S512.ShapeCasts S512x1
  broadcasts_S512x1_S512x512 : S512x1.Broadcasts S512x512
  inb_S16x512x64_S1x512x64_0_0_0 : ∀ a, (![0, 0, 0] : Fin 3 → Nat) a + S1x512x64.size a ≤ S16x512x64.size a
  h_S1x512x64 : 0 < S1x512x64.numel
  shapeCasts_S1x512x64_S512x64 : S1x512x64.ShapeCasts S512x64
  broadcasts_S512x1_S512x64 : S512x1.Broadcasts S512x64
  shapeCasts_S512x1_S1x512x1 : S512x1.ShapeCasts S1x512x1
  shapeCasts_S512x64_S1x512x64 : S512x64.ShapeCasts S1x512x64
  slices_S512x16x64_o0_1_0_S512x1x64 : S512x16x64.Slices ![0, 1, 0] S512x1x64
  inb_S16x512x1_S1x512x1_1_0_0 : ∀ a, (![1, 0, 0] : Fin 3 → Nat) a + S1x512x1.size a ≤ S16x512x1.size a
  inb_S16x512x64_S1x512x64_1_0_0 : ∀ a, (![1, 0, 0] : Fin 3 → Nat) a + S1x512x64.size a ≤ S16x512x64.size a
  slices_S512x16x64_o0_2_0_S512x1x64 : S512x16x64.Slices ![0, 2, 0] S512x1x64
  inb_S16x512x1_S1x512x1_2_0_0 : ∀ a, (![2, 0, 0] : Fin 3 → Nat) a + S1x512x1.size a ≤ S16x512x1.size a
  inb_S16x512x64_S1x512x64_2_0_0 : ∀ a, (![2, 0, 0] : Fin 3 → Nat) a + S1x512x64.size a ≤ S16x512x64.size a
  slices_S512x16x64_o0_3_0_S512x1x64 : S512x16x64.Slices ![0, 3, 0] S512x1x64
  inb_S16x512x1_S1x512x1_3_0_0 : ∀ a, (![3, 0, 0] : Fin 3 → Nat) a + S1x512x1.size a ≤ S16x512x1.size a
  inb_S16x512x64_S1x512x64_3_0_0 : ∀ a, (![3, 0, 0] : Fin 3 → Nat) a + S1x512x64.size a ≤ S16x512x64.size a
  slices_S512x16x64_o0_4_0_S512x1x64 : S512x16x64.Slices ![0, 4, 0] S512x1x64
  inb_S16x512x1_S1x512x1_4_0_0 : ∀ a, (![4, 0, 0] : Fin 3 → Nat) a + S1x512x1.size a ≤ S16x512x1.size a
  inb_S16x512x64_S1x512x64_4_0_0 : ∀ a, (![4, 0, 0] : Fin 3 → Nat) a + S1x512x64.size a ≤ S16x512x64.size a
  slices_S512x16x64_o0_5_0_S512x1x64 : S512x16x64.Slices ![0, 5, 0] S512x1x64
  inb_S16x512x1_S1x512x1_5_0_0 : ∀ a, (![5, 0, 0] : Fin 3 → Nat) a + S1x512x1.size a ≤ S16x512x1.size a
  inb_S16x512x64_S1x512x64_5_0_0 : ∀ a, (![5, 0, 0] : Fin 3 → Nat) a + S1x512x64.size a ≤ S16x512x64.size a
  slices_S512x16x64_o0_6_0_S512x1x64 : S512x16x64.Slices ![0, 6, 0] S512x1x64
  inb_S16x512x1_S1x512x1_6_0_0 : ∀ a, (![6, 0, 0] : Fin 3 → Nat) a + S1x512x1.size a ≤ S16x512x1.size a
  inb_S16x512x64_S1x512x64_6_0_0 : ∀ a, (![6, 0, 0] : Fin 3 → Nat) a + S1x512x64.size a ≤ S16x512x64.size a
  slices_S512x16x64_o0_7_0_S512x1x64 : S512x16x64.Slices ![0, 7, 0] S512x1x64
  inb_S16x512x1_S1x512x1_7_0_0 : ∀ a, (![7, 0, 0] : Fin 3 → Nat) a + S1x512x1.size a ≤ S16x512x1.size a
  inb_S16x512x64_S1x512x64_7_0_0 : ∀ a, (![7, 0, 0] : Fin 3 → Nat) a + S1x512x64.size a ≤ S16x512x64.size a
  slices_S512x16x64_o0_8_0_S512x1x64 : S512x16x64.Slices ![0, 8, 0] S512x1x64
  inb_S16x512x1_S1x512x1_8_0_0 : ∀ a, (![8, 0, 0] : Fin 3 → Nat) a + S1x512x1.size a ≤ S16x512x1.size a
  inb_S16x512x64_S1x512x64_8_0_0 : ∀ a, (![8, 0, 0] : Fin 3 → Nat) a + S1x512x64.size a ≤ S16x512x64.size a
  slices_S512x16x64_o0_9_0_S512x1x64 : S512x16x64.Slices ![0, 9, 0] S512x1x64
  inb_S16x512x1_S1x512x1_9_0_0 : ∀ a, (![9, 0, 0] : Fin 3 → Nat) a + S1x512x1.size a ≤ S16x512x1.size a
  inb_S16x512x64_S1x512x64_9_0_0 : ∀ a, (![9, 0, 0] : Fin 3 → Nat) a + S1x512x64.size a ≤ S16x512x64.size a
  slices_S512x16x64_o0_10_0_S512x1x64 : S512x16x64.Slices ![0, 10, 0] S512x1x64
  inb_S16x512x1_S1x512x1_10_0_0 : ∀ a, (![10, 0, 0] : Fin 3 → Nat) a + S1x512x1.size a ≤ S16x512x1.size a
  inb_S16x512x64_S1x512x64_10_0_0 : ∀ a, (![10, 0, 0] : Fin 3 → Nat) a + S1x512x64.size a ≤ S16x512x64.size a
  slices_S512x16x64_o0_11_0_S512x1x64 : S512x16x64.Slices ![0, 11, 0] S512x1x64
  inb_S16x512x1_S1x512x1_11_0_0 : ∀ a, (![11, 0, 0] : Fin 3 → Nat) a + S1x512x1.size a ≤ S16x512x1.size a
  inb_S16x512x64_S1x512x64_11_0_0 : ∀ a, (![11, 0, 0] : Fin 3 → Nat) a + S1x512x64.size a ≤ S16x512x64.size a
  slices_S512x16x64_o0_12_0_S512x1x64 : S512x16x64.Slices ![0, 12, 0] S512x1x64
  inb_S16x512x1_S1x512x1_12_0_0 : ∀ a, (![12, 0, 0] : Fin 3 → Nat) a + S1x512x1.size a ≤ S16x512x1.size a
  inb_S16x512x64_S1x512x64_12_0_0 : ∀ a, (![12, 0, 0] : Fin 3 → Nat) a + S1x512x64.size a ≤ S16x512x64.size a
  slices_S512x16x64_o0_13_0_S512x1x64 : S512x16x64.Slices ![0, 13, 0] S512x1x64
  inb_S16x512x1_S1x512x1_13_0_0 : ∀ a, (![13, 0, 0] : Fin 3 → Nat) a + S1x512x1.size a ≤ S16x512x1.size a
  inb_S16x512x64_S1x512x64_13_0_0 : ∀ a, (![13, 0, 0] : Fin 3 → Nat) a + S1x512x64.size a ≤ S16x512x64.size a
  slices_S512x16x64_o0_14_0_S512x1x64 : S512x16x64.Slices ![0, 14, 0] S512x1x64
  inb_S16x512x1_S1x512x1_14_0_0 : ∀ a, (![14, 0, 0] : Fin 3 → Nat) a + S1x512x1.size a ≤ S16x512x1.size a
  inb_S16x512x64_S1x512x64_14_0_0 : ∀ a, (![14, 0, 0] : Fin 3 → Nat) a + S1x512x64.size a ≤ S16x512x64.size a
  slices_S512x16x64_o0_15_0_S512x1x64 : S512x16x64.Slices ![0, 15, 0] S512x1x64
  inb_S16x512x1_S1x512x1_15_0_0 : ∀ a, (![15, 0, 0] : Fin 3 → Nat) a + S1x512x1.size a ≤ S16x512x1.size a
  inb_S16x512x64_S1x512x64_15_0_0 : ∀ a, (![15, 0, 0] : Fin 3 → Nat) a + S1x512x64.size a ≤ S16x512x64.size a
  broadcasts_S16x512x1_S16x512x64 : S16x512x1.Broadcasts S16x512x64
  transposes_S16x512x64_p1_0_2_S512x16x64 : S16x512x64.Transposes [1, 0, 2] S512x16x64
  shapeCasts_S512x16x64_S512x1024 : S512x16x64.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x1024.size a
  hwx0_6 : ∀ i : grid0.Coords, EltTy.bits .bf16 = 32 ∨ (Rect.block (s := S8192x1024) S1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x16x64.size a ≤ S4x2048x16x64.size a
  hwx1_0 : ∀ i : grid1.Coords, EltTy.bits .bf16 = 32 ∨ (Rect.block (s := S4x2048x16x64) S1x512x16x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x16x64.size a ≤ S4x2048x16x64.size a
  hwx1_1 : ∀ i : grid1.Coords, EltTy.bits .bf16 = 32 ∨ (Rect.block (s := S4x2048x16x64) S1x512x16x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x16x64.size a ≤ S4x2048x16x64.size a
  hwx1_2 : ∀ i : grid1.Coords, EltTy.bits .bf16 = 32 ∨ (Rect.block (s := S4x2048x16x64) S1x512x16x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x2048x1024.size a
  hwx1_4 : ∀ i : grid1.Coords, EltTy.bits .f32 = 32 ∨ (Rect.block (s := S4x2048x1024) S1x512x1024.size (cc1_transform_4 i) (hinb1_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_2) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10) S1x512x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x512x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x512x16x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond3 i == 1#1) | ⟨_ + 5, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S4x2048x3072 : Shape := ⟨3, ![4, 2048, 3072]⟩
abbrev S4x2048x16x64 : Shape := ⟨4, ![4, 2048, 16, 64]⟩
abbrev S4x16x2048x64 : Shape := ⟨4, ![4, 16, 2048, 64]⟩
abbrev S_ : Shape := ⟨0, ![]⟩
abbrev S4x16x2048x2048 : Shape := ⟨4, ![4, 16, 2048, 2048]⟩
abbrev S2048x2048 : Shape := ⟨2, ![2048, 2048]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S4x2048x3072, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x16x64, .f32⟩
  | .hbm, ⟨8, _⟩ => ⟨S4x16x2048x64, .f32⟩
  | .hbm, ⟨9, _⟩ => ⟨S4x2048x16x64, .f32⟩
  | .hbm, ⟨10, _⟩ => ⟨S4x16x2048x64, .f32⟩
  | .hbm, ⟨11, _⟩ => ⟨S4x2048x16x64, .f32⟩
  | .hbm, ⟨12, _⟩ => ⟨S4x16x2048x64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4x16x2048x2048, .f32⟩
  | .hbm, ⟨18, _⟩ => ⟨S4x16x2048x2048, .f32⟩
  | .hbm, ⟨19, _⟩ => ⟨S4x16x2048x2048, .f32⟩
  | .hbm, ⟨20, _⟩ => ⟨S_, .i1⟩
  | .hbm, ⟨21, _⟩ => ⟨S2048x2048, .i1⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .i1⟩
  | .hbm, ⟨29, _⟩ => ⟨S2048x2048, .i1⟩
  | .hbm, ⟨30, _⟩ => ⟨S2048x2048, .i1⟩
  | .hbm, ⟨31, _⟩ => ⟨S1x1x2048x2048, .i1⟩
  | .hbm, ⟨32, _⟩ => ⟨S_, .f32⟩
  | .hbm, ⟨33, _⟩ => ⟨S_, .f32⟩
  | .hbm, ⟨34, _⟩ => ⟨S4x16x2048x2048, .i1⟩
  | .hbm, ⟨35, _⟩ => ⟨S4x16x2048x2048, .f32⟩
  | .hbm, ⟨36, _⟩ => ⟨S4x16x2048x2048, .f32⟩
  | .hbm, ⟨37, _⟩ => ⟨S_, .f32⟩
  | .hbm, ⟨38, _⟩ => ⟨S4x16x2048, .f32⟩
  | .hbm, ⟨39, _⟩ => ⟨S_, .f32⟩
  | .hbm, ⟨40, _⟩ => ⟨S4x16x2048, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x16x2048x2048, .f32⟩
  | .hbm, ⟨46, _⟩ => ⟨S_, .f32⟩
  | .hbm, ⟨47, _⟩ => ⟨S4x16x2048, .f32⟩
  | .hbm, ⟨48, _⟩ => ⟨S4x16x2048x1, .f32⟩
  | .hbm, ⟨49, _⟩ => ⟨S4x16x2048x2048, .f32⟩
  | .hbm, ⟨50, _⟩ => ⟨S4x16x2048x2048, .f32⟩
  | .hbm, ⟨51, _⟩ => ⟨S4x16x2048x64, .f32⟩
  | .hbm, ⟨52, _⟩ => ⟨S4x2048x16x64, .f32⟩
  | .hbm, ⟨53, _⟩ => ⟨S4x2048x1024, .f32⟩
  | .hbm, ⟨54, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S4x16x2048x2048_0_1_2_3 : S1x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.Reg0.lean ====
import proofs.«404193_j6768868458990_3_alg».proof.Proof.Gen.KernelIdeal.Launch
import proofs.«404193_j6768868458990_3_alg».proof.Proof.Gen.KernelIdeal.Skeleton
import proofs.«404193_j6768868458990_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

section Inputs

variable {c : Dev nD} (dat : Dat τ (Elt F) Unit ℕ (UR sig nD τ) ℕ cfg0 c)

theorem before0_0_of (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

theorem before0_1_of (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

theorem before0_2_of (hA : dat.A 2 = V c (Pipeline.arrRef spec0 2)) (hafter : ∀ t, dat.after 2 t = iblk0 V c 2 t)
    (t : Fin cfg0.N) (d) : dat.before 2 t d = iblk0 V c 2 t := by
  have hkeep : ∀ t, (cfg0.win 2).cut (cfg0.grid.coords t) (dat.after 2 t) = dat.blockOf 2 t := fun t => by
    rw [hafter]; unfold Dat.blockOf iblk0; rw [hA]; try rfl
  rw [dat.before_in_eq_fetched 2 rfl (fun _ => rfl) (fun _ _ _ => rfl) hkeep t d]
  unfold Dat.fetched Dat.blockOf iblk0; rw [hA]; try rfl

theorem before0_3_of (hA : dat.A 3 = V c (Pipeline.arrRef spec0 3)) (hafter : ∀ t, dat.after 3 t = iblk0 V c 3 t)
    (t : Fin cfg0.N) (d) : dat.before 3 t d = iblk0 V c 3 t := by
  have hkeep : ∀ t, (cfg0.win 3).cut (cfg0.grid.coords t) (dat.after 3 t) = dat.blockOf 3 t := fun t => by
    rw [hafter]; unfold Dat.blockOf iblk0; rw [hA]; try rfl
  rw [dat.before_in_eq_fetched 3 rfl (fun _ => rfl) (fun _ _ _ => rfl) hkeep t d]
  unfold Dat.fetched Dat.blockOf iblk0; rw [hA]; try rfl

end Inputs

abbrev r0_0 : Rect S1024x1024 := Rect.unit (s := S1024x1024) ![0, 0] S1024x1024.size inb_S1024x1024_S1024x1024_0_0

def out0_4 (x0 x1 : Vec F S1024x1024 .bf16) : Vec F S1024x1024 .bf16 :=
  View.canon [⟨r0_0, k0_pay2 (View.ld x0 r0_0) (View.ld x1 r0_0)⟩]

def out0_5 (x0 x2 : Vec F S1024x1024 .bf16) : Vec F S1024x1024 .bf16 :=
  View.canon [⟨r0_0, k0_pay3 (View.ld x0 r0_0) (View.ld x2 r0_0)⟩]

def out0_6 (x0 x3 : Vec F S1024x1024 .bf16) : Vec F S1024x1024 .bf16 :=
  View.canon [⟨r0_0, k0_pay4 (View.ld x0 r0_0) (View.ld x3 r0_0)⟩]

theorem cover0 (p : Vec F S1024x1024 .bf16) (y : S1024x1024.Idx) :
    ∃ pc ∈ ([⟨r0_0, p⟩] : List (View.Piece (Elt F) S1024x1024 .bf16)), y ∈ pc.1.set :=
  View.cover_of_tiled [⟨r0_0, p⟩] S1024x1024.size (by rfl) y

set_option maxHeartbeats 4000000 in

theorem sound_kernel0 (c : Dev nD) (E : Set ℕ) (i : grid0.Coords)
    (a1 : Memref sig .tc .vmem S1024x1024 .bf16) (h1 : a1.IsWhole) (a2 : Memref sig .tc .vmem S1024x1024 .bf16) (h2 : a2.IsWhole)
    (a3 : Memref sig .tc .vmem S1024x1024 .bf16) (h3 : a3.IsWhole) (a4 : Memref sig .tc .vmem S1024x1024 .bf16) (h4 : a4.IsWhole)
    (a5 : Memref sig .tc .vmem S1024x1024 .bf16) (h5 : a5.IsWhole) (a6 : Memref sig .tc .vmem S1024x1024 .bf16) (h6 : a6.IsWhole)
    (a7 : Memref sig .tc .vmem S1024x1024 .bf16) (h7 : a7.IsWhole)
    (x0 x1 x2 x3 : Vec F S1024x1024 .bf16) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d) ∗ (∃ d, owns (c : Thread nD τ) a6 fullShare d)
        ∗ (∃ d, owns (c : Thread nD τ) a7 fullShare d)
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare (out0_4 x0 x1) ∗ owns (c : Thread nD τ) a6 fullShare (out0_5 x0 x2)
            ∗ owns (c : Thread nD τ) a7 fullShare (out0_6 x0 x3)) -∗ K ⟨⟩))
      ⊢ wp frame (wpE (defs₀ (F := F)) Variants.none c none) E (cc0__qkv_kernel i a1 h1 a2 h2 a3 h3 a4 h4 a5 h5 a6 h6 a7 h7) K := by
  simp only [cc0__qkv_kernel_eq_skeleton]; unfold cc0__qkv_kernel_skel
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, Hk⟩
  subst e1 e2 e3 e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) := by dsimp only [dat0]
theorem after0_5 (c : Dev nD) (t : Fin cfg0.N) :
    (dat0 V c).after 5 t = out0_5 (iblk0 V c 0 t) (iblk0 V c 2 t) := by dsimp only [dat0]
theorem after0_6 (c : Dev nD) (t : Fin cfg0.N) :
    (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) _)
  iframe H0 H1 H2 H3
  isplitl [H4]; · iexists _; iexact H4
  isplitl [H5]; · iexists _; iexact H5
  isplitl [H6]; · iexists _; iexact H6
  iintro ⟨H0, H1, H2, H3, H4, H5, H6⟩
  isplitl [HΦ]; · iexact HΦ
  iframe

theorem body_obligation0 (c : Dev nD) :
    BodyObligation (dat0 (F := F) V c) (defs₀ (F := F)) Variants.none () Set.univ := fun t => by
  rw [bigSep_W0, bigSep_W0]
  exact sound_body0 V c t

end Region0

end Cert.KernelIdeal.Hand

end
-- ==== Proof.R1Runs.lean ====
import proofs.«404193_j6768868458990_3_alg».proof.Proof.Gen.KernelIdeal.Launch
import proofs.«404193_j6768868458990_3_alg».proof.Proof.Gen.KernelIdeal.Skeleton
import proofs.«404193_j6768868458990_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

section InputBlocks
variable {V}
variable {c : Dev nD} (dat : Dat τ (Elt F) Unit ℕ (UR sig nD τ) ℕ cfg1 c)

theorem before1_0_of (hA : dat.A 0 = V c (Pipeline.arrRef spec1 0)) (hafter : ∀ t, dat.after 0 t = iblk1 V c 0 t)
    (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  refine (dat.before_in_eq_fetched 0 rfl (fun _ => rfl) (fun _ _ _ => rfl) hkeep t d).trans ?_
  unfold Dat.fetched Dat.blockOf iblk1; rw [hA]; try rfl

theorem before1_1_of (hA : dat.A 1 = V c (Pipeline.arrRef spec1 1)) (hafter : ∀ t, dat.after 1 t = iblk1 V c 1 t)
    (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  refine (dat.before_in_eq_fetched 1 rfl (fun _ => rfl) (fun _ _ _ => rfl) hkeep t d).trans ?_
  unfold Dat.fetched Dat.blockOf iblk1; rw [hA]; try rfl

theorem before1_2_of (hA : dat.A 2 = V c (Pipeline.arrRef spec1 2)) (hafter : ∀ t, dat.after 2 t = iblk1 V c 2 t)
    (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  refine (dat.before_in_eq_fetched 2 rfl (fun _ => rfl) (fun _ _ _ => rfl) hkeep t d).trans ?_
  unfold Dat.fetched Dat.blockOf iblk1; rw [hA]; try rfl

theorem before1_3_of (hA : dat.A 3 = V c (Pipeline.arrRef spec1 3)) (hafter : ∀ t, dat.after 3 t = iblk1 V c 3 t)
    (t : Fin cfg1.N) (d) : dat.before 3 t d = iblk1 V c 3 t := by
  have hkeep : ∀ t, (cfg1.win 3).cut (cfg1.grid.coords t) (dat.after 3 t) = dat.blockOf 3 t := fun t => by
    rw [hafter]; unfold Dat.blockOf iblk1; rw [hA]; try rfl
  refine (dat.before_in_eq_fetched 3 rfl (fun _ => rfl) (fun _ _ _ => rfl) hkeep t d).trans ?_
  unfold Dat.fetched Dat.blockOf iblk1; rw [hA]; try rfl

end InputBlocks

abbrev cond1_0 (i : grid1.Coords) : Prop :=
  (Scalar.cmpi .ne (Scalar.extui (Scalar.cmpi .eq (BitVec.ofNat 32 (i 2).val) 0#32)) 0#32) = 1#1

abbrev cond1_1 (i : grid1.Coords) : Prop :=
  (Scalar.cmpi .ne (Scalar.extui (Scalar.cmpi .sle (BitVec.ofNat 32 (i 2).val) (BitVec.ofNat 32 (i 1).val))) 0#32) = 1#1

abbrev cond1_2 (i : grid1.Coords) : Prop := k1_cond3 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)
theorem hcond1_2 : ∀ t : Fin cfg1.N, cond1_2 (grid1.coords t) ↔ t.val % 4 = 3 :=
  (by decide +kernel : ∀ t : Fin grid1.N, cond1_2 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

theorem idleAt1_4 : ∀ t : Fin cfg1.N, ¬cond1_2 (grid1.coords t) → cfg1.idle 4 (grid1.coords t) = true := by decide +kernel

theorem noFlush1_4 : ∀ t : Fin cfg1.N, ¬cond1_2 (grid1.coords t) → (cfg1.win 4).flush t = false := by decide +kernel

theorem liveAt1_4 : ∀ t : Fin cfg1.N, cond1_2 (grid1.coords t) → cfg1.idle 4 (grid1.coords t) = false := by decide +kernel

abbrev VO1_4 : View sig .tc .vmem S1x512x1024 .f32 := (Memref.whole cc1_stg4_0 : Memref sig .tc .vmem S1x512x1024 .f32).view

abbrev ms1_0 (t : Fin cfg1.N) : Memref sig .tc .vmem S1x512x16x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x16x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x16x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .f32 := win1_4.stage (cfg1.slots t 4)
abbrev hs1_4 (t : Fin cfg1.N) : (ms1_4 t).IsWhole := hstage1_4 ((cfg1.slots t 4).cast nbuf1_4)

abbrev scM1_0 : Memref sig .tc .vmem S16x512x1 .f32 := Memref.whole cc1_scratch0

abbrev scM1_1 : Memref sig .tc .vmem S16x512x1 .f32 := Memref.whole cc1_scratch1

abbrev scM1_2 : Memref sig .tc .vmem S16x512x64 .f32 := Memref.whole cc1_scratch2
abbrev VS1_0 : View sig .tc .vmem S16x512x1 .f32 := scM1_0.view
abbrev VS1_1 : View sig .tc .vmem S16x512x1 .f32 := scM1_1.view
abbrev VS1_2 : View sig .tc .vmem S16x512x64 .f32 := scM1_2.view

def elsewhere1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ S)

theorem elsewhere1_mono (c : Dev nD) {S T : sProp 𝕄} (h : S ⊢ T) : elsewhere1 (F := F) c S ⊢ elsewhere1 (F := F) c T := by
  unfold elsewhere1
  iintro ⟨R0, R1, R2, R3, R4, R5, R6, R7, R8, R9, R10, HS⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iapply h; iexact HS

theorem elsewhere1_out (c : Dev nD) (S : sProp 𝕄) : elsewhere1 (F := F) c S ⊢ iprop(elsewhere1 (F := F) c iprop(emp) ∗ S) := by
  unfold elsewhere1
  iintro ⟨R0, R1, R2, R3, R4, R5, R6, R7, R8, R9, R10, HS⟩
  isplitr [HS]; swap; · iexact HS
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iempintro

theorem elsewhere1_in (c : Dev nD) (S : sProp 𝕄) : iprop(elsewhere1 (F := F) c iprop(emp) ∗ S) ⊢ elsewhere1 (F := F) c S := by
  unfold elsewhere1
  iintro ⟨⟨R0, R1, R2, R3, R4, R5, R6, R7, R8, R9, R10, -⟩, HS⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact HS

theorem PhiA1_eq (c : Dev nD) :
    (Pipeline.ΦA spec1 c : sProp 𝕄)
      = iprop(elsewhere1 (F := F) c iprop((∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA elsewhere1; rw [scopedRest1_eq]; simp only [scM1_0, scM1_1, scM1_2, owns_whole]; try rfl

end Cert.KernelIdeal.Hand

end
-- ==== Proof.R1RunA.lean ====
import proofs.«404193_j6768868458990_3_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in

noncomputable def kernelRun1_A (c : Dev nD) (i : grid1.Coords) (arg3 : Memref sig .tc .vmem S1x512x16x64 .bf16) (harg3 : arg3.IsWhole) (arg4 : Memref sig .tc .vmem S1x512x16x64 .bf16) (harg4 : arg4.IsWhole) (arg5 : Memref sig .tc .vmem S1x512x16x64 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole)
    (hc0 : cond1_0 i) (hc1 : cond1_1 i) (hc2 : ¬cond1_2 i)
    (x0 x1 x2 : Vec F S1x512x16x64 .bf16) (x3 : Vec F S1024x1024 .bf16) :
    Σ' (LS0 : List (View.Piece (Elt F) S16x512x1 .f32)) (LS1 : List (View.Piece (Elt F) S16x512x1 .f32)), { LS2 : List (View.Piece (Elt F) S16x512x64 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%e0, %g0, -, HS0⟩, ⟨%e1, %g1, -, HS1⟩, ⟨%e2, %g2, -, HS2⟩, Hk⟩
    obtain rfl := harg3.eq_unread hf0; obtain rfl := harg4.eq_unread hf1; obtain rfl := harg5.eq_unread hf2
    obtain rfl := harg6.eq_unread hf3
    obtain rfl := harg7.eq_unread hf4
    sl_exec_parts (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Hand

end
-- ==== Proof.R1RunB.lean ====
import proofs.«404193_j6768868458990_3_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in

noncomputable def kernelRun1_B (c : Dev nD) (i : grid1.Coords) (arg3 : Memref sig .tc .vmem S1x512x16x64 .bf16) (harg3 : arg3.IsWhole) (arg4 : Memref sig .tc .vmem S1x512x16x64 .bf16) (harg4 : arg4.IsWhole) (arg5 : Memref sig .tc .vmem S1x512x16x64 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole)
    (hc0 : ¬cond1_0 i) (hc1 : cond1_1 i) (hc2 : ¬cond1_2 i)
    (x0 x1 x2 : Vec F S1x512x16x64 .bf16) (x3 : Vec F S1024x1024 .bf16) (xs0 xs1 : Vec F S16x512x1 .f32) (xs2 : Vec F S16x512x64 .f32) :
    Σ' (LS0 : List (View.Piece (Elt F) S16x512x1 .f32)) (LS1 : List (View.Piece (Elt F) S16x512x1 .f32)), { LS2 : List (View.Piece (Elt F) S16x512x64 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, Hk⟩
    obtain rfl := harg3.eq_unread hf0; obtain rfl := harg4.eq_unread hf1; obtain rfl := harg5.eq_unread hf2
    obtain rfl := harg6.eq_unread hf3
    obtain rfl := harg7.eq_unread hf4
    obtain rfl := harg8.eq_unread hg0; obtain rfl := harg9.eq_unread hg1; obtain rfl := harg10.eq_unread hg2
    sl_exec_parts (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Hand

end
-- ==== Proof.R1RunC.lean ====
import proofs.«404193_j6768868458990_3_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem kernelRun1_C (c : Dev nD) (i : grid1.Coords) (arg3 : Memref sig .tc .vmem S1x512x16x64 .bf16) (harg3 : arg3.IsWhole) (arg4 : Memref sig .tc .vmem S1x512x16x64 .bf16) (harg4 : arg4.IsWhole) (arg5 : Memref sig .tc .vmem S1x512x16x64 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole)
    (hc0 : ¬cond1_0 i) (hc1 : ¬cond1_1 i) (hc2 : ¬cond1_2 i)
    (x0 x1 x2 : Vec F S1x512x16x64 .bf16) (x3 : Vec F S1024x1024 .bf16) (xi4 : Vec F S1x512x1024 .f32) (xs0 xs1 : Vec F S16x512x1 .f32) (xs2 : Vec F S16x512x64 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
        ∗ owns (c : Thread nD τ) arg8 fullShare xs0 ∗ owns (c : Thread nD τ) arg9 fullShare xs1 ∗ owns (c : Thread nD τ) arg10 fullShare xs2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  iintro ⟨H0, H1, H2, H3, H4, HS0, HS1, HS2, Hk⟩
  sl_exec (disch := first | exact hc0 | exact hc1 | exact hc2)
  sl_step
  iapply Hk
  iframe

end Cert.KernelIdeal.Hand

end
-- ==== Proof.R1RunD.lean ====
import proofs.«404193_j6768868458990_3_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in

noncomputable def kernelRun1_D (c : Dev nD) (i : grid1.Coords) (arg3 : Memref sig .tc .vmem S1x512x16x64 .bf16) (harg3 : arg3.IsWhole) (arg4 : Memref sig .tc .vmem S1x512x16x64 .bf16) (harg4 : arg4.IsWhole) (arg5 : Memref sig .tc .vmem S1x512x16x64 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole)
    (hc0 : ¬cond1_0 i) (hc1 : ¬cond1_1 i) (hc2 : cond1_2 i)
    (x0 x1 x2 : Vec F S1x512x16x64 .bf16) (x3 : Vec F S1024x1024 .bf16) (xs0 xs1 : Vec F S16x512x1 .f32) (xs2 : Vec F S16x512x64 .f32) :
    { L4 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ owns (c : Thread nD τ) arg8 fullShare xs0 ∗ owns (c : Thread nD τ) arg9 fullShare xs1 ∗ owns (c : Thread nD τ) arg10 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%g0, %hg0, HS0⟩, ⟨%g1, %hg1, HS1⟩, ⟨%g2, %hg2, HS2⟩, Hk⟩
    obtain rfl := harg3.eq_unread hf0; obtain rfl := harg4.eq_unread hf1; obtain rfl := harg5.eq_unread hf2
    obtain rfl := harg6.eq_unread hf3
    obtain rfl := harg8.eq_unread hg0; obtain rfl := harg9.eq_unread hg1; obtain rfl := harg10.eq_unread hg2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _; isplitr; · ipureintro; exact harg8.read_unread _
      iexact HS0
    isplitl [HS1]
    · iexists _; isplitr; · ipureintro; exact harg9.read_unread _
      iexact HS1
    iexists _; isplitr; · ipureintro; exact harg10.read_unread _
    iexact HS2

end Cert.KernelIdeal.Hand

end
-- ==== Proof.R1RunE.lean ====
import proofs.«404193_j6768868458990_3_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in

noncomputable def kernelRun1_E (c : Dev nD) (i : grid1.Coords) (arg3 : Memref sig .tc .vmem S1x512x16x64 .bf16) (harg3 : arg3.IsWhole) (arg4 : Memref sig .tc .vmem S1x512x16x64 .bf16) (harg4 : arg4.IsWhole) (arg5 : Memref sig .tc .vmem S1x512x16x64 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole)
    (hc0 : ¬cond1_0 i) (hc1 : cond1_1 i) (hc2 : cond1_2 i)
    (x0 x1 x2 : Vec F S1x512x16x64 .bf16) (x3 : Vec F S1024x1024 .bf16) (xs0 xs1 : Vec F S16x512x1 .f32) (xs2 : Vec F S16x512x64 .f32) :
    Σ' (L4 : List (View.Piece (Elt F) S1x512x1024 .f32)) (LS0 : List (View.Piece (Elt F) S16x512x1 .f32)) (LS1 : List (View.Piece (Elt F) S16x512x1 .f32)), { LS2 : List (View.Piece (Elt F) S16x512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%g0, %hg0, HS0⟩, ⟨%g1, %hg1, HS1⟩, ⟨%g2, %hg2, HS2⟩, Hk⟩
    obtain rfl := harg3.eq_unread hf0; obtain rfl := harg4.eq_unread hf1; obtain rfl := harg5.eq_unread hf2
    obtain rfl := harg6.eq_unread hf3
    obtain rfl := harg8.eq_unread hg0; obtain rfl := harg9.eq_unread hg1; obtain rfl := harg10.eq_unread hg2
    sl_exec_parts (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.R1Dat.lean ====
import proofs.«404193_j6768868458990_3_alg».proof.Proof.R1RunA
import proofs.«404193_j6768868458990_3_alg».proof.Proof.R1RunB
import proofs.«404193_j6768868458990_3_alg».proof.Proof.R1RunC
import proofs.«404193_j6768868458990_3_alg».proof.Proof.R1RunD
import proofs.«404193_j6768868458990_3_alg».proof.Proof.R1RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

section Cases

variable (c : Dev nD) (i : grid1.Coords) (arg3 : Memref sig .tc .vmem S1x512x16x64 .bf16) (harg3 : arg3.IsWhole) (arg4 : Memref sig .tc .vmem S1x512x16x64 .bf16) (harg4 : arg4.IsWhole) (arg5 : Memref sig .tc .vmem S1x512x16x64 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole)

section A
variable (hc0 : cond1_0 i) (hc1 : cond1_1 i) (hc2 : ¬cond1_2 i) (x0 x1 x2 : Vec F S1x512x16x64 .bf16) (x3 : Vec F S1024x1024 .bf16)

theorem scover1_A_0 (y : S16x512x1.Idx) :
    ∃ pc ∈ (kernelRun1_A c i arg3 harg3 arg4 harg4 arg5 harg5 arg6 harg6 arg7 harg7 arg8 harg8 arg9 harg9 arg10 harg10 hc0 hc1 hc2 x0 x1 x2 x3).1, y ∈ pc.1.set :=
  View.cover_of_tiledL (kernelRun1_A c i arg3 harg3 arg4 harg4 arg5 harg5 arg6 harg6 arg7 harg7 arg8 harg8 arg9 harg9 arg10 harg10 hc0 hc1 hc2 x0 x1 x2 x3).1 S1x512x1.size (by sl_kernel_rfl) y

def sout1_A_0 : Vec F S16x512x1 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 hc2 x0 x1 x2 x3).1)

theorem scover1_A_1 (y : S16x512x1.Idx) :
    ∃ pc ∈ (kernelRun1_A c i arg3 harg3 arg4 harg4 arg5 harg5 arg6 harg6 arg7 harg7 arg8 harg8 arg9 harg9 arg10 harg10 hc0 hc1 hc2 x0 x1 x2 x3).2.1, y ∈ pc.1.set :=
  View.cover_of_tiledL (kernelRun1_A c i arg3 harg3 arg4 harg4 arg5 harg5 arg6 harg6 arg7 harg7 arg8 harg8 arg9 harg9 arg10 harg10 hc0 hc1 hc2 x0 x1 x2 x3).2.1 S1x512x1.size (by sl_kernel_rfl) y

def sout1_A_1 : Vec F S16x512x1 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 hc2 x0 x1 x2 x3).2.1)

theorem scover1_A_2 (y : S16x512x64.Idx) :
    ∃ pc ∈ (kernelRun1_A c i arg3 harg3 arg4 harg4 arg5 harg5 arg6 harg6 arg7 harg7 arg8 harg8 arg9 harg9 arg10 harg10 hc0 hc1 hc2 x0 x1 x2 x3).2.2.1, y ∈ pc.1.set :=
  View.cover_of_tiledL (kernelRun1_A c i arg3 harg3 arg4 harg4 arg5 harg5 arg6 harg6 arg7 harg7 arg8 harg8 arg9 harg9 arg10 harg10 hc0 hc1 hc2 x0 x1 x2 x3).2.2.1 S1x512x64.size (by sl_kernel_rfl) y

def sout1_A_2 : Vec F S16x512x64 .f32 :=
  VS1_2.read (Elt F) (VS1_2.writes (Elt F) VS1_2.junk (kernelRun1_A c i arg3 harg3 arg4 harg4 arg5 harg5 arg6 harg6 arg7 harg7 arg8 harg8 arg9 harg9 arg10 harg10 hc0 hc1 hc2 x0 x1 x2 x3).2.2.1)

end A

section B
variable (hc0 : ¬cond1_0 i) (hc1 : cond1_1 i) (hc2 : ¬cond1_2 i) (x0 x1 x2 : Vec F S1x512x16x64 .bf16) (x3 : Vec F S1024x1024 .bf16) (xs0 xs1 : Vec F S16x512x1 .f32) (xs2 : Vec F S16x512x64 .f32)

theorem scover1_B_0 (y : S16x512x1.Idx) :
    ∃ pc ∈ (kernelRun1_B c i arg3 harg3 arg4 harg4 arg5 harg5 arg6 harg6 arg7 harg7 arg8 harg8 arg9 harg9 arg10 harg10 hc0 hc1 hc2 x0 x1 x2 x3 xs0 xs1 xs2).1, y ∈ pc.1.set :=
  View.cover_of_tiledL (kernelRun1_B c i arg3 harg3 arg4 harg4 arg5 harg5 arg6 harg6 arg7 harg7 arg8 harg8 arg9 harg9 arg10 harg10 hc0 hc1 hc2 x0 x1 x2 x3 xs0 xs1 xs2).1 S1x512x1.size (by sl_kernel_rfl) y

def sout1_B_0 : Vec F S16x512x1 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 hc2 x0 x1 x2 x3 xs0 xs1 xs2).1)

theorem scover1_B_1 (y : S16x512x1.Idx) :
    ∃ pc ∈ (kernelRun1_B c i arg3 harg3 arg4 harg4 arg5 harg5 arg6 harg6 arg7 harg7 arg8 harg8 arg9 harg9 arg10 harg10 hc0 hc1 hc2 x0 x1 x2 x3 xs0 xs1 xs2).2.1, y ∈ pc.1.set :=
  View.cover_of_tiledL (kernelRun1_B c i arg3 harg3 arg4 harg4 arg5 harg5 arg6 harg6 arg7 harg7 arg8 harg8 arg9 harg9 arg10 harg10 hc0 hc1 hc2 x0 x1 x2 x3 xs0 xs1 xs2).2.1 S1x512x1.size (by sl_kernel_rfl) y

def sout1_B_1 : Vec F S16x512x1 .f32 :=
  VS1_1.read (Elt F) (VS1_1.writes (Elt F) VS1_1.junk (kernelRun1_B c i arg3 harg3 arg4 harg4 arg5 harg5 arg6 harg6 arg7 harg7 arg8 harg8 arg9 harg9 arg10 harg10 hc0 hc1 hc2 x0 x1 x2 x3 xs0 xs1 xs2).2.1)

theorem scover1_B_2 (y : S16x512x64.Idx) :
    ∃ pc ∈ (kernelRun1_B c i arg3 harg3 arg4 harg4 arg5 harg5 arg6 harg6 arg7 harg7 arg8 harg8 arg9 harg9 arg10 harg10 hc0 hc1 hc2 x0 x1 x2 x3 xs0 xs1 xs2).2.2.1, y ∈ pc.1.set :=
  View.cover_of_tiledL (kernelRun1_B c i arg3 harg3 arg4 harg4 arg5 harg5 arg6 harg6 arg7 harg7 arg8 harg8 arg9 harg9 arg10 harg10 hc0 hc1 hc2 x0 x1 x2 x3 xs0 xs1 xs2).2.2.1 S1x512x64.size (by sl_kernel_rfl) y

def sout1_B_2 : Vec F S16x512x64 .f32 :=
  VS1_2.read (Elt F) (VS1_2.writes (Elt F) VS1_2.junk (kernelRun1_B c i arg3 harg3 arg4 harg4 arg5 harg5 arg6 harg6 arg7 harg7 arg8 harg8 arg9 harg9 arg10 harg10 hc0 hc1 hc2 x0 x1 x2 x3 xs0 xs1 xs2).2.2.1)

end B

section E
variable (hc0 : ¬cond1_0 i) (hc1 : cond1_1 i) (hc2 : cond1_2 i) (x0 x1 x2 : Vec F S1x512x16x64 .bf16) (x3 : Vec F S1024x1024 .bf16) (xs0 xs1 : Vec F S16x512x1 .f32) (xs2 : Vec F S16x512x64 .f32)

theorem scover1_E_0 (y : S16x512x1.Idx) :
    ∃ pc ∈ (kernelRun1_E c i arg3 harg3 arg4 harg4 arg5 harg5 arg6 harg6 arg7 harg7 arg8 harg8 arg9 harg9 arg10 harg10 hc0 hc1 hc2 x0 x1 x2 x3 xs0 xs1 xs2).2.1, y ∈ pc.1.set :=
  View.cover_of_tiledL (kernelRun1_E c i arg3 harg3 arg4 harg4 arg5 harg5 arg6 harg6 arg7 harg7 arg8 harg8 arg9 harg9 arg10 harg10 hc0 hc1 hc2 x0 x1 x2 x3 xs0 xs1 xs2).2.1 S1x512x1.size (by sl_kernel_rfl) y

def sout1_E_0 : Vec F S16x512x1 .f32 :=
  VS1_0.read (Elt F) (VS1_0.writes (Elt F) VS1_0.junk (kernelRun1_E c i arg3 harg3 arg4 harg4 arg5 harg5 arg6 harg6 arg7 harg7 arg8 harg8 arg9 harg9 arg10 harg10 hc0 hc1 hc2 x0 x1 x2 x3 xs0 xs1 xs2).2.1)

theorem scover1_E_1 (y : S16x512x1.Idx) :
    ∃ pc ∈ (kernelRun1_E c i arg3 harg3 arg4 harg4 arg5 harg5 arg6 harg6 arg7 harg7 arg8 harg8 arg9 harg9 arg10 harg10 hc0 hc1 hc2 x0 x1 x2 x3 xs0 xs1 xs2).2.2.1, y ∈ pc.1.set :=
  View.cover_of_tiledL (kernelRun1_E c i arg3 harg3 arg4 harg4 arg5 harg5 arg6 harg6 arg7 harg7 arg8 harg8 arg9 harg9 arg10 harg10 hc0 hc1 hc2 x0 x1 x2 x3 xs0 xs1 xs2).2.2.1 S1x512x1.size (by sl_kernel_rfl) y

def sout1_E_1 : Vec F S16x512x1 .f32 :=
  VS1_1.read (Elt F) (VS1_1.writes (Elt F) VS1_1.junk (kernelRun1_E c i arg3 harg3 arg4 harg4 arg5 harg5 arg6 harg6 arg7 harg7 arg8 harg8 arg9 harg9 arg10 harg10 hc0 hc1 hc2 x0 x1 x2 x3 xs0 xs1 xs2).2.2.1)

theorem scover1_E_2 (y : S16x512x64.Idx) :
    ∃ pc ∈ (kernelRun1_E c i arg3 harg3 arg4 harg4 arg5 harg5 arg6 harg6 arg7 harg7 arg8 harg8 arg9 harg9 arg10 harg10 hc0 hc1 hc2 x0 x1 x2 x3 xs0 xs1 xs2).2.2.2.1, y ∈ pc.1.set :=
  View.cover_of_tiledL (kernelRun1_E c i arg3 harg3 arg4 harg4 arg5 harg5 arg6 harg6 arg7 harg7 arg8 harg8 arg9 harg9 arg10 harg10 hc0 hc1 hc2 x0 x1 x2 x3 xs0 xs1 xs2).2.2.2.1 S1x512x64.size (by sl_kernel_rfl) y

def sout1_E_2 : Vec F S16x512x64 .f32 :=
  VS1_2.read (Elt F) (VS1_2.writes (Elt F) VS1_2.junk (kernelRun1_E c i arg3 harg3 arg4 harg4 arg5 harg5 arg6 harg6 arg7 harg7 arg8 harg8 arg9 harg9 arg10 harg10 hc0 hc1 hc2 x0 x1 x2 x3 xs0 xs1 xs2).2.2.2.1)

theorem cover1_E_4 (y : S1x512x1024.Idx) :
    ∃ pc ∈ (kernelRun1_E c i arg3 harg3 arg4 harg4 arg5 harg5 arg6 harg6 arg7 harg7 arg8 harg8 arg9 harg9 arg10 harg10 hc0 hc1 hc2 x0 x1 x2 x3 xs0 xs1 xs2).1, y ∈ pc.1.set :=
  View.cover_of_tiledL (kernelRun1_E c i arg3 harg3 arg4 harg4 arg5 harg5 arg6 harg6 arg7 harg7 arg8 harg8 arg9 harg9 arg10 harg10 hc0 hc1 hc2 x0 x1 x2 x3 xs0 xs1 xs2).1 S1x512x1024.size (by sl_kernel_rfl) y

def out1_E_4 : Vec F S1x512x1024 .f32 :=
  VO1_4.read (Elt F) (VO1_4.writes (Elt F) VO1_4.junk (kernelRun1_E c i arg3 harg3 arg4 harg4 arg5 harg5 arg6 harg6 arg7 harg7 arg8 harg8 arg9 harg9 arg10 harg10 hc0 hc1 hc2 x0 x1 x2 x3 xs0 xs1 xs2).1)

end E

section D
variable (hc0 : ¬cond1_0 i) (hc1 : ¬cond1_1 i) (hc2 : cond1_2 i) (x0 x1 x2 : Vec F S1x512x16x64 .bf16) (x3 : Vec F S1024x1024 .bf16) (xs0 xs1 : Vec F S16x512x1 .f32) (xs2 : Vec F S16x512x64 .f32)

theorem cover1_D_4 (y : S1x512x1024.Idx) :
    ∃ pc ∈ (kernelRun1_D c i arg3 harg3 arg4 harg4 arg5 harg5 arg6 harg6 arg7 harg7 arg8 harg8 arg9 harg9 arg10 harg10 hc0 hc1 hc2 x0 x1 x2 x3 xs0 xs1 xs2).1, y ∈ pc.1.set :=
  View.cover_of_tiledL (kernelRun1_D c i arg3 harg3 arg4 harg4 arg5 harg5 arg6 harg6 arg7 harg7 arg8 harg8 arg9 harg9 arg10 harg10 hc0 hc1 hc2 x0 x1 x2 x3 xs0 xs1 xs2).1 S1x512x1024.size (by sl_kernel_rfl) y

def out1_D_4 : Vec F S1x512x1024 .f32 :=
  VO1_4.read (Elt F) (VO1_4.writes (Elt F) VO1_4.junk (kernelRun1_D c i arg3 harg3 arg4 harg4 arg5 harg5 arg6 harg6 arg7 harg7 arg8 harg8 arg9 harg9 arg10 harg10 hc0 hc1 hc2 x0 x1 x2 x3 xs0 xs1 xs2).1)

end D

end Cases

abbrev Left1 (F : FTy → Type) : Type :=
  Vec F S1x512x1024 .f32 × Vec F S16x512x1 .f32 × Vec F S16x512x1 .f32 × Vec F S16x512x64 .f32

def out1_idle_4 : Vec F S1x512x1024 .f32 := VO1_4.read (Elt F) VO1_4.junk
abbrev out1_A_4 : Vec F S1x512x1024 .f32 := out1_idle_4
abbrev out1_B_4 : Vec F S1x512x1024 .f32 := out1_idle_4
abbrev out1_C_4 : Vec F S1x512x1024 .f32 := out1_idle_4

section Conditions
variable (t : Fin cfg1.N)

theorem cA0 (h0 : t.val % 4 = 0) : cond1_0 (grid1.coords t) := (hcond1_0 t).mpr h0
theorem cA1 (h0 : t.val % 4 = 0) : cond1_1 (grid1.coords t) := (hcond1_1 t).mpr (by omega)
theorem cA2 (h0 : t.val % 4 = 0) : ¬cond1_2 (grid1.coords t) := fun h => by have := (hcond1_2 t).mp h; omega

theorem cN0 (h0 : ¬t.val % 4 = 0) : ¬cond1_0 (grid1.coords t) := fun h => h0 ((hcond1_0 t).mp h)
theorem cY1 (h1 : t.val % 4 ≤ t.val / 4 % 4) : cond1_1 (grid1.coords t) := (hcond1_1 t).mpr h1
theorem cN1 (h1 : ¬t.val % 4 ≤ t.val / 4 % 4) : ¬cond1_1 (grid1.coords t) := fun h => h1 ((hcond1_1 t).mp h)
theorem cY2 (h2 : t.val % 4 = 3) : cond1_2 (grid1.coords t) := (hcond1_2 t).mpr h2
theorem cN2 (h2 : ¬t.val % 4 = 3) : ¬cond1_2 (grid1.coords t) := fun h => h2 ((hcond1_2 t).mp h)
end Conditions

abbrev stepA (c : Dev nD) (t : Fin cfg1.N) (h0 : t.val % 4 = 0) : Left1 F :=
  (out1_A_4,
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cA0 t h0) (cA1 t h0) (cA2 t h0) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cA0 t h0) (cA1 t h0) (cA2 t h0) (iblk1 V c 0 t) (iblk1 V c 1 t) (iblk1 V c 2 t) (iblk1 V c 3 t),
   sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cA0 t h0) (cA1 t h0) (cA2 t h0) (iblk1 V c 0 t) (iblk1 V c 1 t) (iblk1 V c 2 t) (iblk1 V c 3 t))

abbrev stepB (c : Dev nD) (t : Fin cfg1.N) (h0 : ¬t.val % 4 = 0) (h1 : t.val % 4 ≤ t.val / 4 % 4) (h2 : ¬t.val % 4 = 3) (p : Left1 F) : Left1 F :=
  (out1_B_4,
   sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cN0 t h0) (cY1 t h1) (cN2 t h2) (iblk1 V c 0 t) (iblk1 V c 1 t) (iblk1 V c 2 t) (iblk1 V c 3 t) p.2.1 p.2.2.1 p.2.2.2,
   sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cN0 t h0) (cY1 t h1) (cN2 t h2) (iblk1 V c 0 t) (iblk1 V c 1 t) (iblk1 V c 2 t) (iblk1 V c 3 t) p.2.1 p.2.2.1 p.2.2.2,
   sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cN0 t h0) (cY1 t h1) (cN2 t h2) (iblk1 V c 0 t) (iblk1 V c 1 t) (iblk1 V c 2 t) (iblk1 V c 3 t) p.2.1 p.2.2.1 p.2.2.2)

abbrev stepC (c : Dev nD) (t : Fin cfg1.N) (h0 : ¬t.val % 4 = 0) (h1 : ¬t.val % 4 ≤ t.val / 4 % 4) (h2 : ¬t.val % 4 = 3) (p : Left1 F) : Left1 F :=
  (out1_C_4, p.2.1, p.2.2.1, p.2.2.2)

abbrev stepD (c : Dev nD) (t : Fin cfg1.N) (h0 : ¬t.val % 4 = 0) (h1 : ¬t.val % 4 ≤ t.val / 4 % 4) (h2 : t.val % 4 = 3) (p : Left1 F) : Left1 F :=
  (out1_D_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cN0 t h0) (cN1 t h1) (cY2 t h2) (iblk1 V c 0 t) (iblk1 V c 1 t) (iblk1 V c 2 t) (iblk1 V c 3 t) p.2.1 p.2.2.1 p.2.2.2, p.2.1, p.2.2.1, p.2.2.2)

abbrev stepE (c : Dev nD) (t : Fin cfg1.N) (h0 : ¬t.val % 4 = 0) (h1 : t.val % 4 ≤ t.val / 4 % 4) (h2 : t.val % 4 = 3) (p : Left1 F) : Left1 F :=
  (out1_E_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cN0 t h0) (cY1 t h1) (cY2 t h2) (iblk1 V c 0 t) (iblk1 V c 1 t) (iblk1 V c 2 t) (iblk1 V c 3 t) p.2.1 p.2.2.1 p.2.2.2,
   sout1_E_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cN0 t h0) (cY1 t h1) (cY2 t h2) (iblk1 V c 0 t) (iblk1 V c 1 t) (iblk1 V c 2 t) (iblk1 V c 3 t) p.2.1 p.2.2.1 p.2.2.2,
   sout1_E_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cN0 t h0) (cY1 t h1) (cY2 t h2) (iblk1 V c 0 t) (iblk1 V c 1 t) (iblk1 V c 2 t) (iblk1 V c 3 t) p.2.1 p.2.2.1 p.2.2.2,
   sout1_E_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cN0 t h0) (cY1 t h1) (cY2 t h2) (iblk1 V c 0 t) (iblk1 V c 1 t) (iblk1 V c 2 t) (iblk1 V c 3 t) p.2.1 p.2.2.1 p.2.2.2)

/-- After position n: the case its closed forms select, run on the point's blocks and on the scratch position n - 1 left. -/
def outsAt1 (c : Dev nD) : (n : ℕ) → n < cfg1.N → Left1 F
  | 0, hn => stepA V c ⟨0, hn⟩ (Nat.zero_mod _)
  | n + 1, hn =>
    if h0 : (n + 1) % 4 = 0 then stepA V c ⟨n + 1, hn⟩ h0
    else if h1 : (n + 1) % 4 ≤ (n + 1) / 4 % 4 then
      if h2 : (n + 1) % 4 = 3 then stepE V c ⟨n + 1, hn⟩ h0 h1 h2 (outsAt1 c n (Nat.lt_of_succ_lt hn))
      else stepB V c ⟨n + 1, hn⟩ h0 h1 h2 (outsAt1 c n (Nat.lt_of_succ_lt hn))
    else
      if h2 : (n + 1) % 4 = 3 then stepD V c ⟨n + 1, hn⟩ h0 h1 h2 (outsAt1 c n (Nat.lt_of_succ_lt hn))
      else stepC c ⟨n + 1, hn⟩ h0 h1 h2 (outsAt1 c n (Nat.lt_of_succ_lt hn))

theorem outsAt1_A (c : Dev nD) (t : Fin cfg1.N) (h0 : t.val % 4 = 0) :
    outsAt1 V c t.val t.isLt = stepA V c t h0 := by
  obtain ⟨n, hn⟩ := t
  cases n with
  | zero => rfl
  | succ n => exact dif_pos h0

theorem outsAt1_B (c : Dev nD) (t : Fin cfg1.N) (h0 : ¬t.val % 4 = 0) (h1 : t.val % 4 ≤ t.val / 4 % 4) (h2 : ¬t.val % 4 = 3) :
    outsAt1 V c t.val t.isLt = stepB V c t h0 h1 h2 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans ((dif_neg h2).trans rfl))

theorem outsAt1_C (c : Dev nD) (t : Fin cfg1.N) (h0 : ¬t.val % 4 = 0) (h1 : ¬t.val % 4 ≤ t.val / 4 % 4) (h2 : ¬t.val % 4 = 3) :
    outsAt1 V c t.val t.isLt = stepC c t h0 h1 h2 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans ((dif_neg h2).trans rfl))

theorem outsAt1_D (c : Dev nD) (t : Fin cfg1.N) (h0 : ¬t.val % 4 = 0) (h1 : ¬t.val % 4 ≤ t.val / 4 % 4) (h2 : t.val % 4 = 3) :
    outsAt1 V c t.val t.isLt = stepD V c t h0 h1 h2 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans ((dif_pos h2).trans rfl))

theorem outsAt1_E (c : Dev nD) (t : Fin cfg1.N) (h0 : ¬t.val % 4 = 0) (h1 : t.val % 4 ≤ t.val / 4 % 4) (h2 : t.val % 4 = 3) :
    outsAt1 V c t.val t.isLt = stepE V c t h0 h1 h2 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans ((dif_pos h2).trans rfl))

def PhiS1 (c : Dev nD) : (n : ℕ) → n ≤ cfg1.N → sProp 𝕄
  | 0, _ => Pipeline.ΦA spec1 c
  | n + 1, hn => iprop(elsewhere1 (F := F) c iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(elsewhere1 (F := F) c iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS1_pos (c : Dev nD) (n : ℕ) (h : n ≤ cfg1.N) (hz : n ≠ 0) :
    PhiS1 V c n h = iprop(elsewhere1 (F := F) c iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of (dat1 V c) (A_eq1 V c 0) (after1_0 V c) t d
theorem before1_1 (c : Dev nD) (t : Fin cfg1.N) (d) : (dat1 V c).before 1 t d = iblk1 V c 1 t :=
  before1_1_of (dat1 V c) (A_eq1 V c 1) (after1_1 V c) t d
theorem before1_2 (c : Dev nD) (t : Fin cfg1.N) (d) : (dat1 V c).before 2 t d = iblk1 V c 2 t :=
  before1_2_of (dat1 V c) (A_eq1 V c 2) (after1_2 V c) t d
theorem before1_3 (c : Dev nD) (t : Fin cfg1.N) (d) : (dat1 V c).before 3 t d = iblk1 V c 3 t :=
  before1_3_of (dat1 V c) (A_eq1 V c 3) (after1_3 V c) t d

theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves1_3 (c : Dev nD) (t : Fin cfg1.N) :
    (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]

theorem leaves1_4_live (c : Dev nD) (t : Fin cfg1.N) (h2 : cond1_2 (grid1.coords t)) :
    (dat1 V c).leavesExact 4 t = owns (c : Thread nD τ) (ms1_4 t) fullShare (outsAt1 V c t.val t.isLt).1 := by
  rw [show (dat1 V c).leavesExact 4 t = owns (c : Thread nD τ) (ms1_4 t) fullShare ((dat1 V c).after 4 t) from by
    unfold Dat.leavesExact; rw [liveAt1_4 t h2], after1_4]

theorem leaves1_4_idle (c : Dev nD) (t : Fin cfg1.N) (h2 : ¬cond1_2 (grid1.coords t)) :
    (dat1 V c).leavesExact 4 t = iprop(∃ d, owns (c : Thread nD τ) (ms1_4 t) fullShare ((dat1 V c).before 4 t d)) :=
  Dat.leavesExact_idle (dat1 V c) 4 t (idleAt1_4 t h2) (noFlush1_4 t h2)

theorem owns_of_written (c : Dev nD) {sp sp' : Space} {s : Shape} {e : EltTy} (m : Memref sig .tc sp s e)
    (v' : View sig .tc sp' s e) (L : List (View.Piece (Elt F) s e)) (hL : ∀ y : s.Idx, ∃ p ∈ L, y ∈ p.1.set) :
    iprop(∃ f, m.view.loc (c : Thread nD τ) ↦[m.view.set]{fullShare} m.view.writes (Elt F) f L)
      ⊢ (owns (c : Thread nD τ) m fullShare (v'.read (Elt F) (v'.writes (Elt F) v'.junk L)) : sProp 𝕄) := by
  unfold owns
  iintro ⟨%f, H⟩
  iexists _; isplitr
  swap; · iexact H
  ipureintro; exact View.read_writes_of_cover _ _ _ _ _ hL

theorem Phi_open_pos (c : Dev nD) (t : Fin cfg1.N) (hz : t.val ≠ 0) :
    (dat1 V c).Φ t.castSucc ⊢ iprop(elsewhere1 (F := F) c iprop(emp) ∗ owns (c : Thread nD τ) scM1_0 fullShare (outsAt1 V c (t.val - 1) (Nat.lt_of_le_of_lt (Nat.sub_le _ _) t.isLt)).2.1 ∗ owns (c : Thread nD τ) scM1_1 fullShare (outsAt1 V c (t.val - 1) (Nat.lt_of_le_of_lt (Nat.sub_le _ _) t.isLt)).2.2.1 ∗ owns (c : Thread nD τ) scM1_2 fullShare (outsAt1 V c (t.val - 1) (Nat.lt_of_le_of_lt (Nat.sub_le _ _) t.isLt)).2.2.2 ∗ (∃ r, prngReg c r)) := by
  rw [PhiS1_castSucc V c t, PhiS1_pos V c _ _ hz]
  iintro ⟨HR, Hg⟩
  icases (elsewhere1_out c _) $$ HR with ⟨HR, HS0, HS1, HS2⟩
  iframe

theorem Phi_open_any (c : Dev nD) (t : Fin cfg1.N) :
    (dat1 V c).Φ t.castSucc ⊢ iprop(elsewhere1 (F := F) c iprop(emp) ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  by_cases hz : t.val = 0
  · rw [PhiS1_castSucc V c t, PhiS1_zero V c _ _ hz, PhiA1_eq]
    iintro ⟨HR, Hg⟩
    icases (elsewhere1_out c _) $$ HR with ⟨HR, HS0, HS1, HS2⟩
    iframe
  · refine (Phi_open_pos V c t hz).trans ?_
    iintro ⟨HR, HS0, HS1, HS2, Hg⟩
    isplitl [HR]; · iexact HR
    isplitl [HS0]; · iexists _; iexact HS0
    isplitl [HS1]; · iexists _; iexact HS1
    isplitl [HS2]; · iexists _; iexact HS2
    iexact Hg

theorem Phi_close (c : Dev nD) (t : Fin cfg1.N) (o : Left1 F) (ho : outsAt1 V c t.val t.isLt = o) :
    iprop(elsewhere1 (F := F) c iprop(emp) ∗ owns (c : Thread nD τ) scM1_0 fullShare o.2.1 ∗ owns (c : Thread nD τ) scM1_1 fullShare o.2.2.1 ∗ owns (c : Thread nD τ) scM1_2 fullShare o.2.2.2 ∗ (∃ r, prngReg c r)) ⊢ (dat1 V c).Φ t.succ := by
  subst ho
  rw [show (dat1 V c).Φ t.succ = PhiS1 V c (t.val + 1) t.isLt from rfl, PhiS1_succ]
  iintro ⟨HR, HS0, HS1, HS2, Hg⟩
  isplitr [Hg]; swap; · iexact Hg
  iapply elsewhere1_in c _
  iframe

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 2000000 in

theorem sound_body1_A (c : Dev nD) (t : Fin cfg1.N) (h0 : t.val % 4 = 0) : bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [leaves1_0, leaves1_1, leaves1_2, leaves1_3, leaves1_4_idle V c t (cA2 t h0)]
  iintro ⟨HΦ, Ho, ⟨%d0, H0⟩, ⟨%d1, H1⟩, ⟨%d2, H2⟩, ⟨%d3, H3⟩, ⟨%d4, H4⟩⟩
  icases (Phi_open_any V c t) $$ HΦ with ⟨HR, HS0, HS1, HS2, Hg⟩
  iapply ((kernelRun1_A c (grid1.coords t) _ _ _ _ _ _ _ _ _ _ _ _ _ _ _ _ (cA0 t h0) (cA1 t h0) (cA2 t h0) (iblk1 V c 0 t) (iblk1 V c 1 t) (iblk1 V c 2 t) (iblk1 V c 3 t)).2.2.2 _ Set.univ _)
  iframe H0 H1 H2 H3 H4 HS0 HS1 HS2
  iintro ⟨H0, H1, H2, H3, H4, HS0, HS1, HS2⟩
  isplitl [HR HS0 HS1 HS2 Hg]
  · iapply Phi_close V c t _ (outsAt1_A V c t h0)
    isplitl [HR]; · iexact HR
    isplitl [HS0]; · iapply owns_of_written c _ VS1_0 _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cA0 t h0) (cA1 t h0) (cA2 t h0) (iblk1 V c 0 t) (iblk1 V c 1 t) (iblk1 V c 2 t) (iblk1 V c 3 t)); iexact HS0
    isplitl [HS1]; · iapply owns_of_written c _ VS1_1 _ (scover1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cA0 t h0) (cA1 t h0) (cA2 t h0) (iblk1 V c 0 t) (iblk1 V c 1 t) (iblk1 V c 2 t) (iblk1 V c 3 t)); iexact HS1
    isplitl [HS2]; · iapply owns_of_written c _ VS1_2 _ (scover1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cA0 t h0) (cA1 t h0) (cA2 t h0) (iblk1 V c 0 t) (iblk1 V c 1 t) (iblk1 V c 2 t) (iblk1 V c 3 t)); iexact HS2
    iexact Hg
  iframe Ho H0 H1 H2 H3
  iexists _; iexact H4

set_option maxHeartbeats 2000000 in

theorem sound_body1_B (c : Dev nD) (t : Fin cfg1.N) (h0 : ¬t.val % 4 = 0) (h1 : t.val % 4 ≤ t.val / 4 % 4) (h2 : ¬t.val % 4 = 3) :
    bodyPre1 V c t ⊢ wp frame (wpE (defs₀ (F := F)) Variants.none c none) Set.univ (bodyAt1 t) (fun _ => bodyPost1 V c t) := by
  have hz : t.val ≠ 0 := fun e => h0 (by rw [e])
  unfold bodyPre1 bodyPost1 bodyAt1
  simp only [before1_0, before1_1, before1_2, before1_3]
  rw [show (dat1 V c).owesAt () t.succ = (dat1 V c).owesAt () t.castSucc from rfl]
  rw [leaves1_0, leaves1_1, leaves1_2, leaves1_3, leaves1_4_idle V c t (cN2 t h2)]
  iintro ⟨HΦ, Ho, ⟨%d0, H0⟩, ⟨%d1, H1⟩, ⟨%d2, H2⟩, ⟨%d3, H3⟩, ⟨%d4, H4⟩⟩
  icases (Phi_open_pos V c t hz) $$ HΦ with ⟨HR, HS0, HS1, HS2, Hg⟩
  iapply ((kernelRun1_B c (grid1.coords t) _ _ _ _ _ _ _ _ _ _ _ _ _ _ _ _ (cN0 t h0) (cY1 t h1) (cN2 t h2) (iblk1 V c 0 t) (iblk1 V c 1 t) (iblk1 V c 2 t) (iblk1 V c 3 t) _ _ _).2.2.2 _ Set.univ _)
  iframe H0 H1 H2 H3 H4 HS0 HS1 HS2
  iintro ⟨H0, H1, H2, H3, H4, HS0, HS1, HS2⟩
  isplitl [HR HS0 HS1 HS2 Hg]
  · iapply Phi_close V c t _ (outsAt1_B V c t h0 h1 h2)
    isplitl [HR]; · iexact HR
    isplitl [HS0]; · iapply owns_of_written c _ VS1_0 _ (scover1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cN0 t h0) (cY1 t h1) (cN2 t h2) (iblk1 V c 0 t) (iblk1 V c 1 t) (iblk1 V c 2 t) (iblk1 V c 3 t) _ _ _); iexact HS0
    isplitl [HS1]; · iapply owns_of_written c _ VS1_1 _ (scover1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cN0 t h0) (cY1 t h1) (cN2 t h2) (iblk1 V c 0 t) (iblk1 V c 1 t) (iblk1 V c 2 t) (iblk1 V c 3 t) _ _ _); iexact HS1
    isplitl [HS2]; · iapply owns_of_written c _ VS1_2 _ (scover1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cN0 t h0) (cY1 t h1) (cN2 t h2) (iblk1 V c 0 t) (iblk1 V c 1 t) (iblk1 V c 2 t) (iblk1 V c 3 t) _ _ _); iexact HS2
    iexact Hg
  iframe Ho H0 H1 H2 H3
  iexists _; iexact H4

set_option maxHeartbeats 2000000 in

theorem sound_body1_C (c : Dev nD) (t : Fin cfg1.N) (h0 : ¬t.val % 4 = 0) (h1 : ¬t.val % 4 ≤ t.val / 4 % 4) (h2 : ¬t.val % 4 = 3) :
    bodyPre1 V c t ⊢ wp frame (wpE (defs₀ (F := F)) Variants.none c none) Set.univ (bodyAt1 t) (fun _ => bodyPost1 V c t) := by
  have hz : t.val ≠ 0 := fun e => h0 (by rw [e])
  unfold bodyPre1 bodyPost1 bodyAt1
  simp only [before1_0, before1_1, before1_2, before1_3]
  rw [show (dat1 V c).owesAt () t.succ = (dat1 V c).owesAt () t.castSucc from rfl]
  rw [leaves1_0, leaves1_1, leaves1_2, leaves1_3, leaves1_4_idle V c t (cN2 t h2)]
  iintro ⟨HΦ, Ho, ⟨%d0, H0⟩, ⟨%d1, H1⟩, ⟨%d2, H2⟩, ⟨%d3, H3⟩, ⟨%d4, H4⟩⟩
  icases (Phi_open_pos V c t hz) $$ HΦ with ⟨HR, HS0, HS1, HS2, Hg⟩
  iapply (kernelRun1_C c (grid1.coords t) _ _ _ _ _ _ _ _ _ _ _ _ _ _ _ _ (cN0 t h0) (cN1 t h1) (cN2 t h2) (iblk1 V c 0 t) (iblk1 V c 1 t) (iblk1 V c 2 t) (iblk1 V c 3 t) _ _ _ _ Set.univ _)
  iframe H0 H1 H2 H3 H4 HS0 HS1 HS2
  iintro ⟨H0, H1, H2, H3, H4, HS0, HS1, HS2⟩
  isplitl [HR HS0 HS1 HS2 Hg]
  · iapply Phi_close V c t _ (outsAt1_C V c t h0 h1 h2)
    iframe
  iframe Ho H0 H1 H2 H3
  iexists _; iexact H4

set_option maxHeartbeats 2000000 in

theorem sound_body1_D (c : Dev nD) (t : Fin cfg1.N) (h0 : ¬t.val % 4 = 0) (h1 : ¬t.val % 4 ≤ t.val / 4 % 4) (h2 : t.val % 4 = 3) :
    bodyPre1 V c t ⊢ wp frame (wpE (defs₀ (F := F)) Variants.none c none) Set.univ (bodyAt1 t) (fun _ => bodyPost1 V c t) := by
  have hz : t.val ≠ 0 := fun e => h0 (by rw [e])
  unfold bodyPre1 bodyPost1 bodyAt1
  simp only [before1_0, before1_1, before1_2, before1_3]
  rw [show (dat1 V c).owesAt () t.succ = (dat1 V c).owesAt () t.castSucc from rfl]
  rw [leaves1_0, leaves1_1, leaves1_2, leaves1_3, leaves1_4_live V c t (cY2 t h2), outsAt1_D V c t h0 h1 h2]
  iintro ⟨HΦ, Ho, ⟨%d0, H0⟩, ⟨%d1, H1⟩, ⟨%d2, H2⟩, ⟨%d3, H3⟩, ⟨%d4, H4⟩⟩
  icases (Phi_open_pos V c t hz) $$ HΦ with ⟨HR, HS0, HS1, HS2, Hg⟩
  iapply ((kernelRun1_D c (grid1.coords t) _ _ _ _ _ _ _ _ _ _ _ _ _ _ _ _ (cN0 t h0) (cN1 t h1) (cY2 t h2) (iblk1 V c 0 t) (iblk1 V c 1 t) (iblk1 V c 2 t) (iblk1 V c 3 t) _ _ _).2 Set.univ _)
  iframe H0 H1 H2 H3
  isplitl [H4]; · iexists _; iexact H4
  iframe HS0 HS1 HS2
  iintro ⟨H0, H1, H2, H3, H4, HS0, HS1, HS2⟩
  isplitl [HR HS0 HS1 HS2 Hg]
  · iapply Phi_close V c t _ (outsAt1_D V c t h0 h1 h2)
    iframe
  iframe Ho H0 H1 H2 H3
  iapply owns_of_written c _ VO1_4 _ (cover1_D_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cN0 t h0) (cN1 t h1) (cY2 t h2) (iblk1 V c 0 t) (iblk1 V c 1 t) (iblk1 V c 2 t) (iblk1 V c 3 t) _ _ _); iexact H4

set_option maxHeartbeats 2000000 in

theorem sound_body1_E (c : Dev nD) (t : Fin cfg1.N) (h0 : ¬t.val % 4 = 0) (h1 : t.val % 4 ≤ t.val / 4 % 4) (h2 : t.val % 4 = 3) :
    bodyPre1 V c t ⊢ wp frame (wpE (defs₀ (F := F)) Variants.none c none) Set.univ (bodyAt1 t) (fun _ => bodyPost1 V c t) := by
  have hz : t.val ≠ 0 := fun e => h0 (by rw [e])
  unfold bodyPre1 bodyPost1 bodyAt1
  simp only [before1_0, before1_1, before1_2, before1_3]
  rw [show (dat1 V c).owesAt () t.succ = (dat1 V c).owesAt () t.castSucc from rfl]
  rw [leaves1_0, leaves1_1, leaves1_2, leaves1_3, leaves1_4_live V c t (cY2 t h2), outsAt1_E V c t h0 h1 h2]
  iintro ⟨HΦ, Ho, ⟨%d0, H0⟩, ⟨%d1, H1⟩, ⟨%d2, H2⟩, ⟨%d3, H3⟩, ⟨%d4, H4⟩⟩
  icases (Phi_open_pos V c t hz) $$ HΦ with ⟨HR, HS0, HS1, HS2, Hg⟩
  iapply ((kernelRun1_E c (grid1.coords t) _ _ _ _ _ _ _ _ _ _ _ _ _ _ _ _ (cN0 t h0) (cY1 t h1) (cY2 t h2) (iblk1 V c 0 t) (iblk1 V c 1 t) (iblk1 V c 2 t) (iblk1 V c 3 t) _ _ _).2.2.2.2 Set.univ _)
  iframe H0 H1 H2 H3
  isplitl [H4]; · iexists _; iexact H4
  iframe HS0 HS1 HS2
  iintro ⟨H0, H1, H2, H3, H4, HS0, HS1, HS2⟩
  isplitl [HR HS0 HS1 HS2 Hg]
  · iapply Phi_close V c t _ (outsAt1_E V c t h0 h1 h2)
    isplitl [HR]; · iexact HR
    isplitl [HS0]; · iapply owns_of_written c _ VS1_0 _ (scover1_E_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cN0 t h0) (cY1 t h1) (cY2 t h2) (iblk1 V c 0 t) (iblk1 V c 1 t) (iblk1 V c 2 t) (iblk1 V c 3 t) _ _ _); iexact HS0
    isplitl [HS1]; · iapply owns_of_written c _ VS1_1 _ (scover1_E_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cN0 t h0) (cY1 t h1) (cY2 t h2) (iblk1 V c 0 t) (iblk1 V c 1 t) (iblk1 V c 2 t) (iblk1 V c 3 t) _ _ _); iexact HS1
    isplitl [HS2]; · iapply owns_of_written c _ VS1_2 _ (scover1_E_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cN0 t h0) (cY1 t h1) (cY2 t h2) (iblk1 V c 0 t) (iblk1 V c 1 t) (iblk1 V c 2 t) (iblk1 V c 3 t) _ _ _); iexact HS2
    iexact Hg
  iframe Ho H0 H1 H2 H3
  iapply owns_of_written c _ VO1_4 _ (cover1_E_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cN0 t h0) (cY1 t h1) (cY2 t h2) (iblk1 V c 0 t) (iblk1 V c 1 t) (iblk1 V c 2 t) (iblk1 V c 3 t) _ _ _); iexact H4

/-- The body at a point is in one of five cases, told apart by ki = 0, ki ≤ qi and ki = 3. -/
theorem sound_body1 (c : Dev nD) (t : Fin cfg1.N) : bodyPre1 V c t ⊢ wp frame (wpE (defs₀ (F := F)) Variants.none c none) Set.univ (bodyAt1 t) (fun _ => bodyPost1 V c t) := by
  by_cases h0 : t.val % 4 = 0
  · exact sound_body1_A V c t h0
  · by_cases h1 : t.val % 4 ≤ t.val / 4 % 4
    · by_cases h2 : t.val % 4 = 3
      · exact sound_body1_E V c t h0 h1 h2
      · exact sound_body1_B V c t h0 h1 h2
    · by_cases h2 : t.val % 4 = 3
      · exact sound_body1_D V c t h0 h1 h2
      · exact sound_body1_C V c t h0 h1 h2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  refine sep_mono_l (elsewhere1_mono c ?_)
  iintro ⟨HS0, HS1, HS2⟩
  isplitl [HS0]; · iexists _; iexact HS0
  isplitl [HS1]; · iexists _; iexact HS1
  iexists _; iexact HS2

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.RunIdeal.lean ====
import proofs.«404193_j6768868458990_3_alg».proof.Proof.RunCondIdeal
import proofs.«404193_j6768868458990_3_alg».proof.Proof.Reg0
import proofs.«404193_j6768868458990_3_alg».proof.Proof.R1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev Vr1 : (c : Dev nD) → (b : Ref sig .tc) → Buf (Elt F) ((c : Thread nD τ).loc b) := fun c b => Gen.V1 m c b

def W2 (c : Dev nD) : Valuation τ sig (Elt F) :=
  Pipeline.withArrays spec0 c (Gen.V1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w

def outsA : Gen.Outs (F := F) := fun _ r c => W2 m c r

abbrev Vr3 : (c : Dev nD) → (b : Ref sig .tc) → Buf (Elt F) ((c : Thread nD τ).loc b) := fun c b => Gen.V3 m (outsA m) c b

def W4 (c : Dev nD) : Valuation τ sig (Elt F) :=
  Pipeline.withArrays spec1 c (Gen.V3 m (outsA m) c) fun w => (dat1 (Vr3 m) c).arrAt w cfg1.N
theorem W4_arr (c : Dev nD) (w : Fin cfg1.W) :
    W4 m c (Proc.devRef .tc (Pipeline.arrRef spec1 w)) = (dat1 (Vr3 m) c).arrAt w cfg1.N := by
  unfold W4; exact Pipeline.withArrays_arr spec1 launch1.win.arr_inj c _ _ w

def outsH : Gen.Outs (F := F) := fun j r c => match j with
  | 2 => W2 m c r
  | _ => W4 m c r

theorem V3_outs (c : Dev nD) : Gen.V3 m (outsH m) c = Gen.V3 m (outsA m) c := rfl

theorem hF0 (c : Dev nD) (w : Fin cfg0.W) :
    (dat0 (Vr1 m) c).arrAt w cfg0.N = (fun b : Ref sig .tc => Gen.V2 m (outsH m) c b) (Pipeline.arrRef spec0 w) := by
  have h01 : (Proc.devRef .tc main_v9_0 : DevRef τ sig) ≠ Proc.devRef .tc main_v9_1 := StableHlo.devRef_ne_of_ne (by decide)
  have h02 : (Proc.devRef .tc main_v9_0 : DevRef τ sig) ≠ Proc.devRef .tc main_v9_2 := StableHlo.devRef_ne_of_ne (by decide)
  have h12 : (Proc.devRef .tc main_v9_1 : DevRef τ sig) ≠ Proc.devRef .tc main_v9_2 := StableHlo.devRef_ne_of_ne (by decide)
  fin_cases w
  · exact ((dat0 (Vr1 m) c).arrAt_in 0 rfl _).trans ((A_eq0 (Vr1 m) c 0).trans (Gen.V2_of m (outsH m) c (Pipeline.arrRef spec0 0) (by decide)).symm)
  · exact ((dat0 (Vr1 m) c).arrAt_in 1 rfl _).trans ((A_eq0 (Vr1 m) c 1).trans (Gen.V2_of m (outsH m) c (Pipeline.arrRef spec0 1) (by decide)).symm)
  · exact ((dat0 (Vr1 m) c).arrAt_in 2 rfl _).trans ((A_eq0 (Vr1 m) c 2).trans (Gen.V2_of m (outsH m) c (Pipeline.arrRef spec0 2) (by decide)).symm)
  · exact ((dat0 (Vr1 m) c).arrAt_in 3 rfl _).trans ((A_eq0 (Vr1 m) c 3).trans (Gen.V2_of m (outsH m) c (Pipeline.arrRef spec0 3) (by decide)).symm)
  · refine (W2_arr m c 4).symm.trans ?_
    show W2 m c (Proc.devRef .tc main_v9_0) = Gen.V2 m (outsH m) c (Proc.devRef .tc main_v9_0)
    simp only [Gen.V2, Function.update_of_ne h02, Function.update_of_ne h01, Function.update_self]
    rfl
  · refine (W2_arr m c 5).symm.trans ?_
    show W2 m c (Proc.devRef .tc main_v9_1) = Gen.V2 m (outsH m) c (Proc.devRef .tc main_v9_1)
    simp only [Gen.V2, Function.update_of_ne h12, Function.update_self]
    rfl
  · refine (W2_arr m c 6).symm.trans ?_
    show W2 m c (Proc.devRef .tc main_v9_2) = Gen.V2 m (outsH m) c (Proc.devRef .tc main_v9_2)
    simp only [Gen.V2, Function.update_self]
    rfl

theorem hrest0 (c : Dev nD) : ∀ b : Ref sig .tc, b ∉ Finset.univ.image (Pipeline.arrRef spec0) →
    (fun b : Ref sig .tc => Gen.V2 m (outsH m) c b) b = Vr1 m c b := by
  intro b hb
  exact Gen.V2_of m (outsH m) c b (by
    intro hmem
    simp only [List.mem_cons, List.mem_nil_iff, or_false] at hmem
    rcases hmem with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩))
theorem hF1 (c : Dev nD) (w : Fin cfg1.W) :
    (dat1 (Vr3 m) c).arrAt w cfg1.N = (fun b : Ref sig .tc => Gen.V4 m (outsH m) c b) (Pipeline.arrRef spec1 w) := by
  fin_cases w
  · exact ((dat1 (Vr3 m) c).arrAt_in 0 rfl _).trans ((A_eq1 (Vr3 m) c 0).trans (Gen.V4_of m (outsH m) c (Pipeline.arrRef spec1 0) (by decide)).symm)
  · exact ((dat1 (Vr3 m) c).arrAt_in 1 rfl _).trans ((A_eq1 (Vr3 m) c 1).trans (Gen.V4_of m (outsH m) c (Pipeline.arrRef spec1 1) (by decide)).symm)
  · exact ((dat1 (Vr3 m) c).arrAt_in 2 rfl _).trans ((A_eq1 (Vr3 m) c 2).trans (Gen.V4_of m (outsH m) c (Pipeline.arrRef spec1 2) (by decide)).symm)
  · exact ((dat1 (Vr3 m) c).arrAt_in 3 rfl _).trans ((A_eq1 (Vr3 m) c 3).trans (Gen.V4_of m (outsH m) c (Pipeline.arrRef spec1 3) (by decide)).symm)
  · refine (W4_arr m c 4).symm.trans ?_
    show W4 m c (Proc.devRef .tc main_v13) = Gen.V4 m (outsH m) c (Proc.devRef .tc main_v13)
    simp only [Gen.V4, Function.update_self]
    rfl
theorem hrest1 (c : Dev nD) : ∀ b : Ref sig .tc, b ∉ Finset.univ.image (Pipeline.arrRef spec1) →
    (fun b : Ref sig .tc => Gen.V4 m (outsH m) c b) b = Vr3 m c b := by
  intro b hb
  exact Gen.V4_of m (outsH m) c b (by
    intro hmem
    simp only [List.mem_cons, List.mem_nil_iff, or_false] at hmem
    subst hmem
    exact hb (Finset.mem_image.mpr ⟨4, Finset.mem_univ _, rfl⟩))

abbrev adm : (p : Fin 2) → (pcfgs (F := F) p).Adm := fun p => (cfgs p).toPCfg_adm

def pdats : (p : Fin 2) → (c : Dev nD) → Dat τ (Elt F) Unit ℕ (UR sig nD τ) ℕ (cfgs p) c
  | ⟨0, _⟩ => fun c => dat0 (Vr1 m) c
  | ⟨1, _⟩ => fun c => dat1 (Vr3 m) c
abbrev 𝒱ₙ : Variants := Variants.none
abbrev Lz : GSem nD τ sig → Finset Unit := fun _ => ∅
abbrev lvz : GSem nD τ sig → Unit → ℕ := fun _ _ => 0

abbrev Rr (c : Dev nD) : sProp 𝕄 := iprop((∃ r, prngReg c r) ∗ ∃ W, owes (c : Thread nD τ) (0 : CellTallies nD τ sig Unit) W)

set_option backward.isDefEq.respectTransparency.types false in

def reg0 : Pipeline.RegionSeg (pcfgs (F := F)) adm (pdats m) () defs₀ 𝒱ₙ Lz lvz 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ Lz lvz 0 fun _ _ => rfl
  pre c := iprop(StableHlo.held (c : Thread nD τ) (Pipeline.ucRefs τ sig) (Gen.V1 m c) ∗ Rr c)
  post c := iprop(StableHlo.held (c : Thread nD τ) (Pipeline.ucRefs τ sig) (Gen.V2 m (outsH m) c) ∗ Rr c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m 0 c).Φ 0 = Pipeline.ΦA spec0 c from rfl]; unfold Pipeline.ΦA
    iintro ⟨Hp, -, Hr⟩
    iframe
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (fun b : Ref sig .tc => Gen.V2 m (outsH m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱ₙ Lz lvz 1 where
  win := launch1.win.to₀
  block_pos := launch1.block_pos
  stage_whole := launch1.stage_whole
  K := PEmpty
  osem k := k.elim
  ho := Pipeline.OwnSemFacts.none _
  hbody c := (body_obligation1 (Vr3 m) c).loose
  hwaits := Pipeline.hwaits_of_owed_zero _ _ _ _ Lz lvz 1 fun _ _ => rfl
  pre c := iprop(StableHlo.held (c : Thread nD τ) (Pipeline.ucRefs τ sig) (Gen.V3 m (outsA m) c) ∗ Rr c)
  post c := iprop(StableHlo.held (c : Thread nD τ) (Pipeline.ucRefs τ sig) (Gen.V4 m (outsH m) c) ∗ Rr c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    refine BIBase.Entails.trans ?_ (show Pipeline.ΦA spec1 c ⊢ (pdats m 1 c).Φ 0 from hin1 (Vr3 m) c)
    unfold Pipeline.ΦA
    iintro ⟨Hp, -, Hr⟩
    iframe
  hout c := by
    rw [Pipeline.ownSems0_none]
    refine BIBase.Entails.trans (show (pdats m 1 c).Φ (Fin.last _) ⊢ Pipeline.ΦA spec1 c from hout1 (Vr3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr3 m c) (fun b : Ref sig .tc => Gen.V4 m (outsH m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem rr_of_launch (c : Dev nD) :
    (iprop(unscopedSems0 c ∗ owes (c : Thread nD τ) ((0 : Dev nD → CellTallies nD τ sig Unit) c) ∅
      ∗ Pipeline.launchCred (0 : Dev nD → CellTallies nD τ sig Unit) c ∗ prngReg c (ρ c) ∗ emp) : sProp 𝕄) ⊢ Rr c := by
  iintro ⟨-, HO, -, Hp, -⟩
  isplitl [Hp]; · iexists _; iexact Hp
  iexists ∅; iexact HO

set_option backward.isDefEq.respectTransparency.types false in

/-- From zero counters every weakly fair execution ends, nothing faulting: the result holds what region 1 leaves, the arguments are as launched. -/
theorem run_main : θ_run defs (onTc (τ := τ) (main (F := F))) ⟨m, fun _ => 0, ρ⟩ (fun r => ∀ c : Dev nD,
      r.2.mem ((c.tc : Thread nD τ).loc main_v13) = Gen.V4 m (outsH m) c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.run_cond m (emb₁) () 𝒱ₙ Lz lvz (fun _ _ => rfl) ρ (outsH m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      have h : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp))
          ⊢ (bigSep Finset.univ (fun c : Dev nD => Rr c) : sProp 𝕄) := bigSep_mono fun c _ => rr_of_launch ρ c
      iintro ⟨H, -⟩
      imodintro
      iapply h
      iexact H)
    (hE2 := fun c => by
      iintro ⟨-, HO⟩
      iexact HO)
    (reg0 m) (fun _ => .rfl) (fun _ => .rfl) (reg1 m) (fun c => by rw [V3_outs m c]; exact .rfl) (fun _ => .rfl)

end Cert.KernelIdeal.Hand

end
-- ==== Proof.Reg0Value.lean ====
import proofs.«404193_j6768868458990_3_alg».proof.Proof.Reg0
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx (ix2)
open scoped BigOperators

abbrev mm0 : DotDims S1024x1024 S1024x1024 S1024x1024 := dot_S1024x1024_S1024x1024_S1024x1024_1_0_0_1_n_n

theorem mm0_lhs_row (j : S1024x1024.Idx) (q : mm0.contr.Idx) : (mm0.lhsIdx j q 0).val = (j 0).val := by
  unfold DotDims.lhsIdx
  rw [dif_neg (show ¬(0 : Fin S1024x1024.rank) ∈ mm0.lhsBatch by decide),
    dif_pos (show (0 : Fin S1024x1024.rank) ∈ mm0.lhsNonContracting by decide)]
  rfl

theorem mm0_lhs_col (j : S1024x1024.Idx) (q : mm0.contr.Idx) : (mm0.lhsIdx j q 1).val = (q ⟨0, by decide⟩).val :=
  mm0.lhsIdx_val_of_single rfl j q

theorem mm0_rhs_row (j : S1024x1024.Idx) (q : mm0.contr.Idx) : (mm0.rhsIdx j q 0).val = (q ⟨0, by decide⟩).val :=
  mm0.rhsIdx_val_of_single rfl j q

theorem mm0_rhs_col (j : S1024x1024.Idx) (q : mm0.contr.Idx) : (mm0.rhsIdx j q 1).val = (j 1).val := by
  unfold DotDims.rhsIdx
  rw [dif_neg (show ¬(1 : Fin S1024x1024.rank) ∈ mm0.rhsBatch by decide),
    dif_pos (show (1 : Fin S1024x1024.rank) ∈ mm0.rhsNonContracting by decide)]
  rfl

theorem k0_pay2_apply (a b : Vec Ideal S1024x1024 .bf16) (j : S1024x1024.Idx) :
    k0_pay2 a b j = ∑ k : Fin 1024, a (ix2 (j 0) k) * b (ix2 k (j 1)) := by
  unfold k0_pay2 k0_pay1
  simp only [shapeCast_self]
  rw [ValueIdx.truncf_apply]
  simp only [matmul]
  rw [Ideal.matmul_constant_zero_apply, ← Equiv.sum_comp (ValueIdx.contrEquiv1 mm0 1024 rfl rfl).symm]
  refine Finset.sum_congr rfl fun k _ => ?_
  have hk := ValueIdx.contrEquiv1_symm_val mm0 1024 rfl rfl k
  have el : mm0.lhsIdx j ((ValueIdx.contrEquiv1 mm0 1024 rfl rfl).symm k) = ix2 (j 0) k := funext fun d => Fin.ext (by
    match d with
    | ⟨0, _⟩ => exact mm0_lhs_row _ _
    | ⟨1, _⟩ => exact (mm0_lhs_col _ _).trans hk)
  have er : mm0.rhsIdx j ((ValueIdx.contrEquiv1 mm0 1024 rfl rfl).symm k) = ix2 k (j 1) := funext fun d => Fin.ext (by
    match d with
    | ⟨0, _⟩ => exact (mm0_rhs_row _ _).trans hk
    | ⟨1, _⟩ => exact mm0_rhs_col _ _)
  rw [el, er]
  rfl

theorem k0_pay3_apply (a b : Vec Ideal S1024x1024 .bf16) (j : S1024x1024.Idx) :
    k0_pay3 a b j = ∑ k : Fin 1024, a (ix2 (j 0) k) * b (ix2 k (j 1)) := k0_pay2_apply a b j
theorem k0_pay4_apply (a b : Vec Ideal S1024x1024 .bf16) (j : S1024x1024.Idx) :
    k0_pay4 a b j = ∑ k : Fin 1024, a (ix2 (j 0) k) * b (ix2 k (j 1)) := k0_pay2_apply a b j

section Arrays

variable (V : (c : Dev nD) → (b : Ref sig .tc) → Buf (Elt Ideal) ((c : Thread nD τ).loc b))

theorem zero_off0 : (![0, 0] : Fin 2 → Nat) = fun _ => 0 := funext fun a => by fin_cases a <;> rfl

abbrev proj0 (x : S8192x1024.Idx → EReal) (w : S1024x1024.Idx → EReal) : S8192x1024.Idx → EReal :=
  fun i => ∑ k : Fin 1024, x (ix2 (i 0) k) * w (ix2 k (i 1))

theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem xblk0_apply (c : Dev nD) (t : Fin cfg0.N) (y : S1024x1024.Idx) (i : S8192x1024.Idx)
    (h0 : (i 0).val = 1024 * t.val + (y 0).val) (h1 : (i 1).val = (y 1).val) :
    (iblk0 V c 0 t : Vec Ideal S1024x1024 .bf16) y = (V c main_v1 : S8192x1024.Idx → EReal) i := by
  obtain ⟨e0, e1, -⟩ := index_facts0 t
  unfold iblk0
  rw [View.read_apply]
  show (V c main_v1 : S8192x1024.Idx → EReal) _ = (V c main_v1 : S8192x1024.Idx → EReal) _
  congr 1
  funext a
  apply Fin.ext
  match a with
  | ⟨0, _⟩ => show win0_0.index t (0 : Fin 2) * 1024 + 1 * (y 0).val = (i 0).val; omega
  | ⟨1, _⟩ => show win0_0.index t (1 : Fin 2) * 1024 + 1 * (y 1).val = (i 1).val; omega

theorem wblk0_1_apply (c : Dev nD) (t : Fin cfg0.N) (y : S1024x1024.Idx) :
    (iblk0 V c 1 t : Vec Ideal S1024x1024 .bf16) y = (V c main_v4 : S1024x1024.Idx → EReal) y := by
  obtain ⟨e00, e01, e10, e11, e20, e21, e30, e31, e40, e41, e50, e51, e60, e61⟩ := index_facts0 t
  unfold iblk0
  rw [View.read_apply]
  show (V c main_v4 : S1024x1024.Idx → EReal) _ = (V c main_v4 : S1024x1024.Idx → EReal) _
  congr 1
  funext a
  apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem wblk0_2_apply (c : Dev nD) (t : Fin cfg0.N) (y : S1024x1024.Idx) :
    (iblk0 V c 2 t : Vec Ideal S1024x1024 .bf16) y = (V c main_v5 : S1024x1024.Idx → EReal) y := by
  obtain ⟨e00, e01, e10, e11, e20, e21, e30, e31, e40, e41, e50, e51, e60, e61⟩ := index_facts0 t
  unfold iblk0
  rw [View.read_apply]
  show (V c main_v5 : S1024x1024.Idx → EReal) _ = (V c main_v5 : S1024x1024.Idx → EReal) _
  congr 1
  funext a
  apply Fin.ext
  match a with
  | ⟨0, _⟩ => show win0_2.index t (0 : Fin 2) * 1024 + 1 * (y 0).val = (y 0).val; omega
  | ⟨1, _⟩ => show win0_2.index t (1 : Fin 2) * 1024 + 1 * (y 1).val = (y 1).val; omega

theorem wblk0_3_apply (c : Dev nD) (t : Fin cfg0.N) (y : S1024x1024.Idx) :
    (iblk0 V c 3 t : Vec Ideal S1024x1024 .bf16) y = (V c main_v6 : S1024x1024.Idx → EReal) y := by
  obtain ⟨e00, e01, e10, e11, e20, e21, e30, e31, e40, e41, e50, e51, e60, e61⟩ := index_facts0 t
  unfold iblk0
  rw [View.read_apply]
  show (V c main_v6 : S1024x1024.Idx → EReal) _ = (V c main_v6 : S1024x1024.Idx → EReal) _
  congr 1
  funext a
  apply Fin.ext
  match a with
  | ⟨0, _⟩ => show win0_3.index t (0 : Fin 2) * 1024 + 1 * (y 0).val = (y 0).val; omega
  | ⟨1, _⟩ => show win0_3.index t (1 : Fin 2) * 1024 + 1 * (y 1).val = (y 1).val; omega

theorem flushed0_4_eq (c : Dev nD) (t : Fin cfg0.N) :
    (dat0 (F := Ideal) V c).flushed 4 t
      = ((cfg0.win 4).blk t).view.read (Elt Ideal) (proj0 (V c main_v1) (V c main_v4)) := by
  show (cfg0.win 4).cut (grid0.coords t) ((dat0 (F := Ideal) V c).after 4 t) = _
  rw [after0_4]
  unfold out0_4
  rw [View.canon_unit_zero zero_off0]
  simp only [View.ld_unit_zero (S := S1024x1024) zero_off0]
  obtain ⟨e00, e01, e10, e11, e20, e21, e30, e31, e40, e41, e50, e51, e60, e61⟩ := index_facts0 t
  funext j
  show k0_pay2 (iblk0 V c 0 t) (iblk0 V c 1 t) j = proj0 (V c main_v1) (V c main_v4) (((cfg0.win 4).blk t).view.emb j)
  rw [k0_pay2_apply]
  refine Finset.sum_congr rfl fun k _ => ?_
  have hr : ((((cfg0.win 4).blk t).view.emb j) 0).val = 1024 * t.val + (j 0).val := by
    show win0_4.index t (0 : Fin 2) * 1024 + 1 * (j 0).val = _; omega
  have hc : ((((cfg0.win 4).blk t).view.emb j) 1).val = (j 1).val := by
    show win0_4.index t (1 : Fin 2) * 1024 + 1 * (j 1).val = _; omega
  rw [xblk0_apply V c t (ix2 (j 0) k) (ix2 ((((cfg0.win 4).blk t).view.emb j) 0) k) hr rfl, wblk0_1_apply V c t]
  congr 2
  funext a
  match a with
  | ⟨0, _⟩ => rfl
  | ⟨1, _⟩ => exact Fin.ext hc.symm

theorem covered0_4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  let t : Fin cfg0.N := ⟨(i 0).val / 1024, by rw [show cfg0.N = 8 from N_0]; omega⟩
  obtain ⟨e00, e01, e10, e11, e20, e21, e30, e31, e40, e41, e50, e51, e60, e61⟩ := index_facts0 t
  have ht : t.val = (i 0).val / 1024 := rfl
  refine ⟨t, flush0_4 t, ?_⟩
  show i ∈ ((View.whole main_v9_0).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

theorem final0_4 (c : Dev nD) :
    (dat0 (F := Ideal) V c).arrAt 4 cfg0.N
      = proj0 (V c main_v1) (V c main_v4) :=
  (dat0 (F := Ideal) V c).arrAt_eq_of_cover 4 (proj0 (V c main_v1) (V c main_v4)) (fun t _ => flushed0_4_eq V c t) (covered0_4)

theorem flushed0_5_eq (c : Dev nD) (t : Fin cfg0.N) :
    (dat0 (F := Ideal) V c).flushed 5 t
      = ((cfg0.win 5).blk t).view.read (Elt Ideal) (proj0 (V c main_v1) (V c main_v5)) := by
  show (cfg0.win 5).cut (grid0.coords t) ((dat0 (F := Ideal) V c).after 5 t) = _
  rw [after0_5]
  unfold out0_5
  rw [View.canon_unit_zero zero_off0]
  simp only [View.ld_unit_zero (S := S1024x1024) zero_off0]
  obtain ⟨e00, e01, e10, e11, e20, e21, e30, e31, e40, e41, e50, e51, e60, e61⟩ := index_facts0 t
  funext j
  show k0_pay3 (iblk0 V c 0 t) (iblk0 V c 2 t) j = proj0 (V c main_v1) (V c main_v5) (((cfg0.win 5).blk t).view.emb j)
  rw [k0_pay3_apply]
  refine Finset.sum_congr rfl fun k _ => ?_
  have hr : ((((cfg0.win 5).blk t).view.emb j) 0).val = 1024 * t.val + (j 0).val := by
    show win0_5.index t (0 : Fin 2) * 1024 + 1 * (j 0).val = _; omega
  have hc : ((((cfg0.win 5).blk t).view.emb j) 1).val = (j 1).val := by
    show win0_5.index t (1 : Fin 2) * 1024 + 1 * (j 1).val = _; omega
  rw [xblk0_apply V c t (ix2 (j 0) k) (ix2 ((((cfg0.win 5).blk t).view.emb j) 0) k) hr rfl, wblk0_2_apply V c t]
  congr 2
  funext a
  match a with
  | ⟨0, _⟩ => rfl
  | ⟨1, _⟩ => exact Fin.ext hc.symm

theorem covered0_5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  let t : Fin cfg0.N := ⟨(i 0).val / 1024, by rw [show cfg0.N = 8 from N_0]; omega⟩
  obtain ⟨e00, e01, e10, e11, e20, e21, e30, e31, e40, e41, e50, e51, e60, e61⟩ := index_facts0 t
  have ht : t.val = (i 0).val / 1024 := rfl
  refine ⟨t, flush0_5 t, ?_⟩
  show i ∈ ((View.whole main_v9_1).slice (win0_5.rect t)).set
  rw [View.set_slice_whole, Rect.mem_set_unit]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

theorem final0_5 (c : Dev nD) :
    (dat0 (F := Ideal) V c).arrAt 5 cfg0.N
      = proj0 (V c main_v1) (V c main_v5) :=
  (dat0 (F := Ideal) V c).arrAt_eq_of_cover 5 (proj0 (V c main_v1) (V c main_v5)) (fun t _ => flushed0_5_eq V c t) (covered0_5)

theorem flushed0_6_eq (c : Dev nD) (t : Fin cfg0.N) :
    (dat0 (F := Ideal) V c).flushed 6 t
      = ((cfg0.win 6).blk t).view.read (Elt Ideal) (proj0 (V c main_v1) (V c main_v6)) := by
  show (cfg0.win 6).cut (grid0.coords t) ((dat0 (F := Ideal) V c).after 6 t) = _
  rw [after0_6]
  unfold out0_6
  rw [View.canon_unit_zero zero_off0]
  simp only [View.ld_unit_zero (S := S1024x1024) zero_off0]
  obtain ⟨e00, e01, e10, e11, e20, e21, e30, e31, e40, e41, e50, e51, e60, e61⟩ := index_facts0 t
  funext j
  show k0_pay4 (iblk0 V c 0 t) (iblk0 V c 3 t) j = proj0 (V c main_v1) (V c main_v6) (((cfg0.win 6).blk t).view.emb j)
  rw [k0_pay4_apply]
  refine Finset.sum_congr rfl fun k _ => ?_
  have hr : ((((cfg0.win 6).blk t).view.emb j) 0).val = 1024 * t.val + (j 0).val := by
    show win0_6.index t (0 : Fin 2) * 1024 + 1 * (j 0).val = _; omega
  have hc : ((((cfg0.win 6).blk t).view.emb j) 1).val = (j 1).val := by
    show win0_6.index t (1 : Fin 2) * 1024 + 1 * (j 1).val = _; omega
  rw [xblk0_apply V c t (ix2 (j 0) k) (ix2 ((((cfg0.win 6).blk t).view.emb j) 0) k) hr rfl, wblk0_3_apply V c t]
  congr 2
  funext a
  match a with
  | ⟨0, _⟩ => rfl
  | ⟨1, _⟩ => exact Fin.ext hc.symm

theorem covered0_6 (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  let t : Fin cfg0.N := ⟨(i 0).val / 1024, by rw [show cfg0.N = 8 from N_0]; omega⟩
  obtain ⟨e00, e01, e10, e11, e20, e21, e30, e31, e40, e41, e50, e51, e60, e61⟩ := index_facts0 t
  have ht : t.val = (i 0).val / 1024 := rfl
  refine ⟨t, flush0_6 t, ?_⟩
  show i ∈ ((View.whole main_v9_2).slice (win0_6.rect t)).set
  rw [View.set_slice_whole, Rect.mem_set_unit]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

theorem final0_6 (c : Dev nD) :
    (dat0 (F := Ideal) V c).arrAt 6 cfg0.N
      = proj0 (V c main_v1) (V c main_v6) :=
  (dat0 (F := Ideal) V c).arrAt_eq_of_cover 6 (proj0 (V c main_v1) (V c main_v6)) (fun t _ => flushed0_6_eq V c t) (covered0_6)

end Arrays

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Sx : Shape := ⟨3, ![4, 2048, 1024]⟩
abbrev Swa : Shape := ⟨2, ![3072, 1024]⟩
abbrev Swp : Shape := ⟨2, ![1024, 1024]⟩

variable (x : Sx.Idx → EReal) (wa : Swa.Idx → EReal) (wp : Swp.Idx → EReal)

def proj (b : Fin 4) (s : Fin 2048) (e : Fin 3072) : EReal :=
  ∑ d : Fin 1024, x (ix3 b s d) * wa (ix2 e d)

def feat (part : Fin 3) (h : Fin 16) (j : Fin 64) : Fin 3072 :=
  ⟨1024 * part.val + (64 * h.val + j.val), by have := part.isLt; have := h.isLt; have := j.isLt; omega⟩

def qv (b : Fin 4) (s : Fin 2048) (h : Fin 16) (j : Fin 64) : EReal := proj x wa b s (feat 0 h j)
def kv (b : Fin 4) (s : Fin 2048) (h : Fin 16) (j : Fin 64) : EReal := proj x wa b s (feat 1 h j)
def vv (b : Fin 4) (s : Fin 2048) (h : Fin 16) (j : Fin 64) : EReal := proj x wa b s (feat 2 h j)

def score (b : Fin 4) (h : Fin 16) (s s' : Fin 2048) : EReal :=
  (∑ j : Fin 64, qv x wa b s h j * kv x wa b s' h j) * ((1 / 8 : ℝ) : EReal)

def masked (b : Fin 4) (h : Fin 16) (s s' : Fin 2048) : EReal :=
  if s'.val ≤ s.val then score x wa b h s s' else ⊥

def rowMax (b : Fin 4) (h : Fin 16) (s : Fin 2048) : EReal :=
  Finset.univ.sup fun s' : Fin 2048 => masked x wa b h s s'

def expw (b : Fin 4) (h : Fin 16) (s s' : Fin 2048) : EReal :=
  Ideal.exp (masked x wa b h s s' - rowMax x wa b h s)

def rowSum (b : Fin 4) (h : Fin 16) (s : Fin 2048) : EReal :=
  ∑ s' : Fin 2048, expw x wa b h s s'

def attn (b : Fin 4) (h : Fin 16) (s s' : Fin 2048) : EReal :=
  Ideal.div (expw x wa b h s s') (rowSum x wa b h s)

def ctx (b : Fin 4) (h : Fin 16) (s : Fin 2048) (j : Fin 64) : EReal :=
  ∑ s' : Fin 2048, attn x wa b h s s' * vv x wa b s' h j

def headOf (e : Fin 1024) : Fin 16 := ⟨e.val / 64, by have := e.isLt; omega⟩
def featOf (e : Fin 1024) : Fin 64 := ⟨e.val % 64, Nat.mod_lt _ (by norm_num)⟩

/-- Causal attention in sixteen heads of width 64, scores scaled by 1/8, on the packed projection of x; then the output projection. -/
def out : Sx.Idx → EReal := fun i =>
  ∑ e : Fin 1024, ctx x wa (i 0) (headOf e) (i 1) (featOf e) * wp (ix2 (i 2) e)

end Cert.Spec

end
-- ==== Proof.HostSide.lean ====
import proofs.«404193_j6768868458990_3_alg».proof.Proof.RunIdeal
import proofs.«404193_j6768868458990_3_alg».proof.Proof.Reg0Value
import proofs.«404193_j6768868458990_3_alg».proof.Proof.Spec
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

abbrev xA (c : Dev nD) : S4x2048x1024.Idx → EReal := m ((c.tc : Thread nD τ).loc main_arg0)
abbrev waA (c : Dev nD) : S3072x1024.Idx → EReal := m ((c.tc : Thread nD τ).loc main_arg1)
abbrev wpA (c : Dev nD) : S1024x1024.Idx → EReal := m ((c.tc : Thread nD τ).loc main_arg2)

abbrev v1A (c : Dev nD) : S8192x1024.Idx → EReal := Gen.V1 m c main_v1
abbrev v4A (c : Dev nD) : S1024x1024.Idx → EReal := Gen.V1 m c main_v4
abbrev v5A (c : Dev nD) : S1024x1024.Idx → EReal := Gen.V1 m c main_v5
abbrev v6A (c : Dev nD) : S1024x1024.Idx → EReal := Gen.V1 m c main_v6
abbrev v8A (c : Dev nD) : S1024x1024.Idx → EReal := Gen.V1 m c main_v8

theorem v1A_eq (c : Dev nD) : v1A m c = truncf (F := Ideal) .bf16 (shapeCast S8192x1024 (xA m c : FVec Ideal S4x2048x1024 .f32) shapeCasts_S4x2048x1024_S8192x1024) bitsLt_bf16_f32 := by
  dsimp only [v1A, Gen.V1, Gen.V0, Gen.hostOps0]; after_results; all_goals rfl

theorem v1_ix (c : Dev nD) (b : Fin 4) (s : Fin 2048) (k : Fin 1024) :
    v1A m c (ix2 (⟨2048 * b.val + s.val, by have := b.isLt; have := s.isLt; omega⟩ : Fin 8192) k) = xA m c (ix3 b s k) := by
  rw [v1A_eq]
  show shapeCast S8192x1024 (xA m c : FVec Ideal S4x2048x1024 .f32) shapeCasts_S4x2048x1024_S8192x1024 _ = _
  generalize (xA m c : FVec Ideal S4x2048x1024 .f32) = y
  exact shapeCast_apply y shapeCasts_S4x2048x1024_S8192x1024 _ (ix3 b s k)
    (by rewrite [Shape.rowMajor_val_two, Shape.rowMajor_val_three]; have := b.isLt; have := s.isLt; have := k.isLt
        show (b.val * 2048 + s.val) * 1024 + k.val = (2048 * b.val + s.val) * 1024 + k.val; omega)

theorem v4A_eq (c : Dev nD) : v4A m c = extractStridedSlice S1024x1024 ![0, 0] (truncf (F := Ideal) .bf16 (transpose S1024x3072 [1, 0] (waA m c : FVec Ideal S3072x1024 .f32) transposes_S3072x1024_S1024x3072_1_0) bitsLt_bf16_f32) slices_S1024x3072_S1024x1024_0_0 := by
  dsimp only [v4A, Gen.V1, Gen.V0, Gen.hostOps0]; after_results; all_goals rfl
theorem v5A_eq (c : Dev nD) : v5A m c = extractStridedSlice S1024x1024 ![0, 1024] (truncf (F := Ideal) .bf16 (transpose S1024x3072 [1, 0] (waA m c : FVec Ideal S3072x1024 .f32) transposes_S3072x1024_S1024x3072_1_0) bitsLt_bf16_f32) slices_S1024x3072_S1024x1024_0_1024 := by
  dsimp only [v5A, Gen.V1, Gen.V0, Gen.hostOps0]; after_results; all_goals rfl
theorem v6A_eq (c : Dev nD) : v6A m c = extractStridedSlice S1024x1024 ![0, 2048] (truncf (F := Ideal) .bf16 (transpose S1024x3072 [1, 0] (waA m c : FVec Ideal S3072x1024 .f32) transposes_S3072x1024_S1024x3072_1_0) bitsLt_bf16_f32) slices_S1024x3072_S1024x1024_0_2048 := by
  dsimp only [v6A, Gen.V1, Gen.V0, Gen.hostOps0]; after_results; all_goals rfl
theorem v8A_eq (c : Dev nD) : v8A m c = truncf (F := Ideal) .bf16 (transpose S1024x1024 [1, 0] (wpA m c : FVec Ideal S1024x1024 .f32) transposes_S1024x1024_S1024x1024_1_0) bitsLt_bf16_f32 := by
  dsimp only [v8A, Gen.V1, Gen.V0, Gen.hostOps0]; after_results; all_goals rfl

theorem waT_ix (c : Dev nD) (k : Fin 1024) (e : Fin 3072) :
    transpose S1024x3072 [1, 0] (waA m c : FVec Ideal S3072x1024 .f32) transposes_S3072x1024_S1024x3072_1_0 (ix2 k e) = waA m c (ix2 e k) := by
  generalize (waA m c : FVec Ideal S3072x1024 .f32) = y
  exact transpose_apply [1, 0] y transposes_S3072x1024_S1024x3072_1_0 (ix2 k e) (ix2 e k) (fun b => match b with
    | ⟨0, _⟩ => rfl
    | ⟨1, _⟩ => rfl)

theorem v4_ix (c : Dev nD) (k e : Fin 1024) :
    v4A m c (ix2 k e) = waA m c (ix2 (⟨e.val, by have := e.isLt; omega⟩ : Fin 3072) k) := by
  rw [v4A_eq]
  refine (extractStridedSlice_apply ![0, 0] _ slices_S1024x3072_S1024x1024_0_0 (ix2 k e) (ix2 k (⟨e.val, by have := e.isLt; omega⟩ : Fin 3072)) (fun a => match a with
    | ⟨0, _⟩ => by show k.val = 0 + k.val; omega
    | ⟨1, _⟩ => by show e.val = 0 + e.val; omega)).trans ?_
  exact waT_ix m c k _
theorem v5_ix (c : Dev nD) (k e : Fin 1024) :
    v5A m c (ix2 k e) = waA m c (ix2 (⟨1024 + e.val, by have := e.isLt; omega⟩ : Fin 3072) k) := by
  rw [v5A_eq]
  refine (extractStridedSlice_apply ![0, 1024] _ slices_S1024x3072_S1024x1024_0_1024 (ix2 k e) (ix2 k (⟨1024 + e.val, by have := e.isLt; omega⟩ : Fin 3072)) (fun a => match a with
    | ⟨0, _⟩ => by show k.val = 0 + k.val; omega
    | ⟨1, _⟩ => by show 1024 + e.val = 1024 + e.val; omega)).trans ?_
  exact waT_ix m c k _
theorem v6_ix (c : Dev nD) (k e : Fin 1024) :
    v6A m c (ix2 k e) = waA m c (ix2 (⟨2048 + e.val, by have := e.isLt; omega⟩ : Fin 3072) k) := by
  rw [v6A_eq]
  refine (extractStridedSlice_apply ![0, 2048] _ slices_S1024x3072_S1024x1024_0_2048 (ix2 k e) (ix2 k (⟨2048 + e.val, by have := e.isLt; omega⟩ : Fin 3072)) (fun a => match a with
    | ⟨0, _⟩ => by show k.val = 0 + k.val; omega
    | ⟨1, _⟩ => by show 2048 + e.val = 2048 + e.val; omega)).trans ?_
  exact waT_ix m c k _

theorem v8_ix (c : Dev nD) (e e' : Fin 1024) : v8A m c (ix2 e e') = wpA m c (ix2 e' e) := by
  rw [v8A_eq]
  show transpose S1024x1024 [1, 0] (wpA m c : FVec Ideal S1024x1024 .f32) transposes_S1024x1024_S1024x1024_1_0 (ix2 e e') = _
  generalize (wpA m c : FVec Ideal S1024x1024 .f32) = y
  exact transpose_apply [1, 0] y transposes_S1024x1024_S1024x1024_1_0 (ix2 e e') (ix2 e' e) (fun b => match b with
    | ⟨0, _⟩ => rfl
    | ⟨1, _⟩ => rfl)

abbrev o0A (c : Dev nD) : S8192x1024.Idx → EReal := Gen.V2 m (outsA m) c main_v9_0
abbrev o1A (c : Dev nD) : S8192x1024.Idx → EReal := Gen.V2 m (outsA m) c main_v9_1
abbrev o2A (c : Dev nD) : S8192x1024.Idx → EReal := Gen.V2 m (outsA m) c main_v9_2

abbrev v10A (c : Dev nD) : S4x2048x16x64.Idx → EReal := Gen.V3 m (outsA m) c main_v10
abbrev v11A (c : Dev nD) : S4x2048x16x64.Idx → EReal := Gen.V3 m (outsA m) c main_v11
abbrev v12A (c : Dev nD) : S4x2048x16x64.Idx → EReal := Gen.V3 m (outsA m) c main_v12
abbrev v8B (c : Dev nD) : S1024x1024.Idx → EReal := Gen.V3 m (outsA m) c main_v8

theorem v10A_eq (c : Dev nD) : v10A m c = shapeCast S4x2048x16x64 (o0A m c : FVec Ideal S8192x1024 .bf16) shapeCasts_S8192x1024_S4x2048x16x64 := by
  dsimp only [v10A, Gen.V3, Gen.hostOps1]; after_results; all_goals rfl
theorem v11A_eq (c : Dev nD) : v11A m c = shapeCast S4x2048x16x64 (o1A m c : FVec Ideal S8192x1024 .bf16) shapeCasts_S8192x1024_S4x2048x16x64 := by
  dsimp only [v11A, Gen.V3, Gen.hostOps1]; after_results; all_goals rfl
theorem v12A_eq (c : Dev nD) : v12A m c = shapeCast S4x2048x16x64 (o2A m c : FVec Ideal S8192x1024 .bf16) shapeCasts_S8192x1024_S4x2048x16x64 := by
  dsimp only [v12A, Gen.V3, Gen.hostOps1]; after_results; all_goals rfl

theorem reshape_ix (y : FVec Ideal S8192x1024 .bf16) (b : Fin 4) (s : Fin 2048) (h : Fin 16) (j : Fin 64) :
    shapeCast S4x2048x16x64 y shapeCasts_S8192x1024_S4x2048x16x64 (ix4 b s h j)
      = y (ix2 (⟨2048 * b.val + s.val, by have := b.isLt; have := s.isLt; omega⟩ : Fin 8192) (⟨64 * h.val + j.val, by have := h.isLt; have := j.isLt; omega⟩ : Fin 1024)) :=
  shapeCast_apply y shapeCasts_S8192x1024_S4x2048x16x64 (ix4 b s h j) _
    (by rewrite [Shape.rowMajor_val_two, Shape.rowMajor_val_four]; have := b.isLt; have := s.isLt; have := h.isLt; have := j.isLt
        show (2048 * b.val + s.val) * 1024 + (64 * h.val + j.val) = ((b.val * 2048 + s.val) * 16 + h.val) * 64 + j.val; omega)

theorem v8B_eq (c : Dev nD) : v8B m c = v8A m c :=
  (Gen.V3_of m (outsA m) c main_v8 (by decide)).trans (Gen.V2_of m (outsA m) c main_v8 (by decide))

theorem o0A_eq (c : Dev nD) : o0A m c = proj0 (v1A m c) (v4A m c) :=
  ((hF0 m c 4).symm.trans (final0_4 (Vr1 m) c))
theorem o1A_eq (c : Dev nD) : o1A m c = proj0 (v1A m c) (v5A m c) :=
  ((hF0 m c 5).symm.trans (final0_5 (Vr1 m) c))
theorem o2A_eq (c : Dev nD) : o2A m c = proj0 (v1A m c) (v6A m c) :=
  ((hF0 m c 6).symm.trans (final0_6 (Vr1 m) c))

theorem q_ix (c : Dev nD) (b : Fin 4) (s : Fin 2048) (h : Fin 16) (j : Fin 64) :
    v10A m c (ix4 b s h j) = Cert.Spec.qv (xA m c) (waA m c) b s h j := by
  rw [v10A_eq, reshape_ix, o0A_eq]
  show (∑ k : Fin 1024, v1A m c (ix2 _ k) * v4A m c (ix2 k _)) = _
  unfold Cert.Spec.qv Cert.Spec.proj
  refine Finset.sum_congr rfl fun k _ => ?_
  rw [v1_ix, v4_ix]
  congr 2 <;> exact congrArg (fun e => ix2 e k) (Fin.ext (by simp [Cert.Spec.feat]))
theorem k_ix (c : Dev nD) (b : Fin 4) (s : Fin 2048) (h : Fin 16) (j : Fin 64) :
    v11A m c (ix4 b s h j) = Cert.Spec.kv (xA m c) (waA m c) b s h j := by
  rw [v11A_eq, reshape_ix, o1A_eq]
  show (∑ k : Fin 1024, v1A m c (ix2 _ k) * v5A m c (ix2 k _)) = _
  unfold Cert.Spec.kv Cert.Spec.proj
  refine Finset.sum_congr rfl fun k _ => ?_
  rw [v1_ix, v5_ix]
  congr 2 <;> exact congrArg (fun e => ix2 e k) (Fin.ext (by simp [Cert.Spec.feat]))
theorem v_ix (c : Dev nD) (b : Fin 4) (s : Fin 2048) (h : Fin 16) (j : Fin 64) :
    v12A m c (ix4 b s h j) = Cert.Spec.vv (xA m c) (waA m c) b s h j := by
  rw [v12A_eq, reshape_ix, o2A_eq]
  show (∑ k : Fin 1024, v1A m c (ix2 _ k) * v6A m c (ix2 k _)) = _
  unfold Cert.Spec.vv Cert.Spec.proj
  refine Finset.sum_congr rfl fun k _ => ?_
  rw [v1_ix, v6_ix]
  congr 2 <;> exact congrArg (fun e => ix2 e k) (Fin.ext (by simp [Cert.Spec.feat]))

end Cert.KernelIdeal.Hand

end
-- ==== Proof.Att.lean ====
import Idealize.ShloMosaic.PureOps.Ideal
import Idealize.ShloMosaic.Lib.ValueIdx

noncomputable section

open scoped BigOperators

namespace Cert.Att

open Idealize.ShloMosaic Idealize.ShloMosaic.ValueIdx

def tileScore (qb kb : Fin 512 → Fin 16 → Fin 64 → EReal) (msk : Fin 512 → Fin 512 → Prop) [∀ r c, Decidable (msk r c)]
    (h : Fin 16) (r c : Fin 512) : EReal :=
  if msk r c then (∑ j : Fin 64, qb r h j * kb c h j) * ((1 / 8 : ℝ) : EReal) else ⊥

/-- One key tile's update of a head's running maximum, normaliser and weighted sums (`stepM`, `stepL`, `stepAcc`), and the closing normalisation and projection (`finOut`). -/
def stepM (S : Fin 16 → Fin 512 → Fin 512 → EReal) (m : Fin 16 → Fin 512 → EReal) (h : Fin 16) (r : Fin 512) : EReal :=
  max (m h r) (Finset.univ.sup fun c : Fin 512 => S h r c)

def stepL (S : Fin 16 → Fin 512 → Fin 512 → EReal) (m l : Fin 16 → Fin 512 → EReal) (h : Fin 16) (r : Fin 512) : EReal :=
  Ideal.exp (m h r - stepM S m h r) * l h r + ∑ c : Fin 512, Ideal.exp (S h r c - stepM S m h r)

def stepAcc (S : Fin 16 → Fin 512 → Fin 512 → EReal) (vb : Fin 512 → Fin 16 → Fin 64 → EReal) (m : Fin 16 → Fin 512 → EReal)
    (acc : Fin 16 → Fin 512 → Fin 64 → EReal) (h : Fin 16) (r : Fin 512) (j : Fin 64) : EReal :=
  Ideal.exp (m h r - stepM S m h r) * acc h r j + ∑ c : Fin 512, Ideal.exp (S h r c - stepM S m h r) * vb c h j

def headOf (e : Fin 1024) : Fin 16 := ⟨e.val / 64, by have := e.isLt; omega⟩
def featOf (e : Fin 1024) : Fin 64 := ⟨e.val % 64, Nat.mod_lt _ (by norm_num)⟩

def finOut (l : Fin 16 → Fin 512 → EReal) (acc : Fin 16 → Fin 512 → Fin 64 → EReal) (wt : Fin 1024 → Fin 1024 → EReal)
    (r : Fin 512) (e' : Fin 1024) : EReal :=
  ∑ e : Fin 1024, (acc (headOf e) r (featOf e) * Ideal.div 1 (l (headOf e) r)) * wt e e'

def m0 : Fin 16 → Fin 512 → EReal := fun _ _ => ⊥
def l0 : Fin 16 → Fin 512 → EReal := fun _ _ => 0
def acc0 : Fin 16 → Fin 512 → Fin 64 → EReal := fun _ _ _ => 0

end Cert.Att

end
-- ==== Proof.R1Coords.lean ====
import proofs.«404193_j6768868458990_3_alg».proof.Proof.R1Runs
import proofs.«404193_j6768868458990_3_alg».proof.Proof.Att

noncomputable section

namespace Cert.KernelIdeal.Hand

open Cert.KernelIdeal Cert.KernelIdeal.Gen Idealize.ShloMosaic Idealize.ShloMosaic.ValueIdx

def qOf (x : Vec Ideal S1x512x16x64 .bf16) : Fin 512 → Fin 16 → Fin 64 → EReal := fun r h j => x (ix4 0 r h j)

def sOf (xs : Vec Ideal S16x512x1 .f32) : Fin 16 → Fin 512 → EReal := fun h r => xs (ix3 h r 0)

def aOf (xs : Vec Ideal S16x512x64 .f32) : Fin 16 → Fin 512 → Fin 64 → EReal := fun h r j => xs (ix3 h r j)

def wOf (x : Vec Ideal S1024x1024 .bf16) : Fin 1024 → Fin 1024 → EReal := fun e e' => x (ix2 e e')

def mskOf (i : grid1.Coords) : Fin 512 → Fin 512 → Prop := fun r c => 512 * (i 2).val + c.val ≤ 512 * (i 1).val + r.val
instance (i : grid1.Coords) (r c : Fin 512) : Decidable (mskOf i r c) := by unfold mskOf; exact inferInstance

end Cert.KernelIdeal.Hand

end
-- ==== Proof.R1ValB0.lean ====
import proofs.«404193_j6768868458990_3_alg».proof.Proof.R1Coords
import Idealize.ShloMosaic.Lib.Pipeline.Value
import Idealize.ShloMosaic.Lib.ValueIdx
import Idealize.ShloMosaic.Lib.ValueLayout
import Idealize.ShloMosaic.Lib.WordArith
import Idealize.ShloMosaic.PureOps.Ideal.Laws
import Idealize.ShloMosaic.PureOps.IdealRules
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

theorem scale_eighth : Ideal.ofBits .f32 0x3E000000#32 = ((1 / 8 : ℝ) : EReal) := by
  simp [Ideal.ofBits, Ideal.ieee, -EReal.coe_mul]; norm_num

theorem fill_bot : Named.named (F := Ideal) κ "neg_big" (φ := .f32) 0xFF333332#32 = (⊥ : EReal) :=
  IdealRules.named_const.ideal_named_scalar _ _ _ _ rfl

theorem neg_inf_bot : Ideal.ofBits .f32 0xFF800000#32 = (⊥ : EReal) := by
  simp [Ideal.ofBits, Ideal.ieee]

open Idealize.ShloMosaic.WordArith in

theorem tile_pos_toInt (q : Nat) (hq : q < 4) (r : Nat) (hr : r < 512) :
    (IntOp.addi (Scalar.muli (BitVec.ofNat 32 q) 512#32) (BitVec.ofNat 32 r)).toInt = ((512 * q + r : ℕ) : ℤ) := by
  have h1 : (BitVec.ofNat 32 q).toInt = q := toInt_ofNat_small q (by omega)
  have h2 : (512#32 : BitVec 32).toInt = 512 := by decide
  have h3 : (BitVec.ofNat 32 r).toInt = r := toInt_ofNat_small r (by omega)
  have hm : (Scalar.muli (BitVec.ofNat 32 q) 512#32).toInt = (q : ℤ) * 512 := by
    show ((BitVec.ofNat 32 q) * 512#32).toInt = _
    rw [toInt_mul_of_bounds _ _ (by rw [h1, h2]; omega) (by rw [h1, h2]; omega), h1, h2]
  show ((Scalar.muli (BitVec.ofNat 32 q) 512#32) + (BitVec.ofNat 32 r)).toInt = _
  rw [toInt_add_of_bounds _ _ (by rw [hm, h3]; omega) (by rw [hm, h3]; omega), hm, h3]
  push_cast; ring

open Idealize.ShloMosaic.WordArith in

theorem mask_apply (i : grid1.Coords) (r c : Fin 512) :
    k1_pay11 (BitVec.ofNat 32 (i 1).val) (BitVec.ofNat 32 (i 2).val) (ix2 r c) = 1#1 ↔ mskOf i r c := by
  have hq : (i 1).val < 4 := (i 1).isLt
  have hk : (i 2).val < 4 := (i 2).isLt
  unfold k1_pay11 mskOf
  show IntOp.cmpi .sge
      (IntOp.addi (Scalar.muli (BitVec.ofNat 32 (i 1).val) 512#32) (iota .tc S512x512 32 [0] iota_S512x512_d0_w32 (ix2 r c)))
      (IntOp.addi (Scalar.muli (BitVec.ofNat 32 (i 2).val) 512#32) (iota .tc S512x512 32 [1] iota_S512x512_d1_w32 (ix2 r c))) = 1#1 ↔ _
  rw [iota_single_apply, iota_single_apply]
  simp only [IntOp.cmpi, ofBool_eq_one_iff]
  rw [BitVec.sle_iff_toInt_le]
  show (IntOp.addi (Scalar.muli (BitVec.ofNat 32 (i 2).val) 512#32) (BitVec.ofNat 32 c.val)).toInt
      ≤ (IntOp.addi (Scalar.muli (BitVec.ofNat 32 (i 1).val) 512#32) (BitVec.ofNat 32 r.val)).toInt ↔ _
  rw [tile_pos_toInt _ hk _ c.isLt, tile_pos_toInt _ hq _ r.isLt]
  exact Int.ofNat_le

def headMat (o : Nat) (hs : S512x16x64.Slices ![0, o, 0] S512x1x64) (x : FVec Ideal S512x16x64 .bf16) :
    FVec Ideal S512x64 .bf16 :=
  shapeCast S512x64 (extractStridedSlice S512x1x64 ![0, o, 0] x hs) shapeCasts_S512x1x64_S512x64

theorem headMat_apply (o : Nat) (ho : o < 16) (hs : S512x16x64.Slices ![0, o, 0] S512x1x64)
    (x : Vec Ideal S1x512x16x64 .bf16) (r : Fin 512) (j : Fin 64) :
    headMat o hs (shapeCast S512x16x64 x shapeCasts_S1x512x16x64_S512x16x64) (ix2 r j) = qOf x r ⟨o, ho⟩ j := by
  unfold headMat qOf
  refine (shapeCast_apply _ _ (ix2 r j) (ix3 r (0 : Fin 1) j) (by
    rw [Shape.rowMajor_val_three, Shape.rowMajor_val_two]
    show (r.val * 1 + 0) * 64 + j.val = r.val * 64 + j.val
    omega)).trans ?_
  refine (slice3_axis1_apply o _ hs r (0 : Fin 1) j ⟨o, ho⟩ rfl).trans ?_
  exact shapeCast_1abc_abc_apply x _ r ⟨o, ho⟩ j

abbrev mmQK : DotDims S512x64 S64x512 S512x512 := dot_S512x64_S64x512_S512x512_1_0_0_1_n_n

theorem mmQK_lhs_row (j : S512x512.Idx) (q : mmQK.contr.Idx) : (mmQK.lhsIdx j q 0).val = (j 0).val := by
  unfold DotDims.lhsIdx
  rw [dif_neg (show ¬(0 : Fin S512x64.rank) ∈ mmQK.lhsBatch by decide),
    dif_pos (show (0 : Fin S512x64.rank) ∈ mmQK.lhsNonContracting by decide)]
  rfl
theorem mmQK_lhs_col (j : S512x512.Idx) (q : mmQK.contr.Idx) : (mmQK.lhsIdx j q 1).val = (q ⟨0, by decide⟩).val :=
  mmQK.lhsIdx_val_of_single rfl j q
theorem mmQK_rhs_row (j : S512x512.Idx) (q : mmQK.contr.Idx) : (mmQK.rhsIdx j q 0).val = (q ⟨0, by decide⟩).val :=
  mmQK.rhsIdx_val_of_single rfl j q
theorem mmQK_rhs_col (j : S512x512.Idx) (q : mmQK.contr.Idx) : (mmQK.rhsIdx j q 1).val = (j 1).val := by
  unfold DotDims.rhsIdx
  rw [dif_neg (show ¬(1 : Fin S64x512.rank) ∈ mmQK.rhsBatch by decide),
    dif_pos (show (1 : Fin S64x512.rank) ∈ mmQK.rhsNonContracting by decide)]
  rfl

theorem mmQK_apply (a b : FVec Ideal S512x64 .bf16) (r c : Fin 512) :
    (matmul mmQK none a (transpose S64x512 [1, 0] b transposes_S512x64_p1_0_S64x512)
        (constant S512x512 .f32 0x00000000#32) : FVec Ideal S512x512 .f32) (ix2 r c)
      = ∑ j : Fin 64, a (ix2 r j) * b (ix2 c j) := by
  simp only [matmul]
  rw [Ideal.matmul_constant_zero_apply, ← Equiv.sum_comp (ValueIdx.contrEquiv1 mmQK 64 rfl rfl).symm]
  refine Finset.sum_congr rfl fun j _ => ?_
  have hj := ValueIdx.contrEquiv1_symm_val mmQK 64 rfl rfl j
  have el : mmQK.lhsIdx (ix2 r c) ((ValueIdx.contrEquiv1 mmQK 64 rfl rfl).symm j) = ix2 r j := funext fun d => Fin.ext (by
    match d with
    | ⟨0, _⟩ => exact mmQK_lhs_row _ _
    | ⟨1, _⟩ => exact (mmQK_lhs_col _ _).trans hj)
  have er : mmQK.rhsIdx (ix2 r c) ((ValueIdx.contrEquiv1 mmQK 64 rfl rfl).symm j) = ix2 j c := funext fun d => Fin.ext (by
    match d with
    | ⟨0, _⟩ => exact (mmQK_rhs_row _ _).trans hj
    | ⟨1, _⟩ => exact mmQK_rhs_col _ _)
  rw [el, er, transpose_ix2_apply]

def headScore (o : Nat) (hs : S512x16x64.Slices ![0, o, 0] S512x1x64) (q k : FVec Ideal S512x16x64 .bf16)
    (msk : IVec S512x512 1) : FVec Ideal S512x512 .f32 :=
  select msk
    (mulf (matmul dot_S512x64_S64x512_S512x512_1_0_0_1_n_n none (headMat o hs q)
        (transpose S64x512 [1, 0] (headMat o hs k) transposes_S512x64_p1_0_S64x512) (constant S512x512 .f32 0x00000000#32))
      (broadcast S512x512 (Scalar.ofBits .f32 0x3E000000#32)))
    (broadcast S512x512 (Named.named κ "neg_big" 0xFF333332#32))

theorem headScore_apply (o : Nat) (ho : o < 16) (hs : S512x16x64.Slices ![0, o, 0] S512x1x64)
    (x0 x1 : Vec Ideal S1x512x16x64 .bf16) (i : grid1.Coords) (r c : Fin 512) :
    headScore o hs (k1_pay8 x0) (k1_pay9 x1) (k1_pay11 (BitVec.ofNat 32 (i 1).val) (BitVec.ofNat 32 (i 2).val)) (ix2 r c)
      = Cert.Att.tileScore (qOf x0) (qOf x1) (mskOf i) ⟨o, ho⟩ r c := by
  unfold headScore Cert.Att.tileScore k1_pay8 k1_pay9
  rw [select_apply]
  by_cases hm : mskOf i r c
  · rw [(mask_apply i r c).mpr hm, select_one, if_pos hm, mulf_apply, broadcast_apply]
    show _ * Ideal.ofBits .f32 0x3E000000#32 = _
    rw [scale_eighth, mmQK_apply]
    congr 1
    refine Finset.sum_congr rfl fun j _ => ?_
    rw [headMat_apply o ho, headMat_apply o ho]
  · rw [eq_zero_of_ne_one (fun h => hm ((mask_apply i r c).mp h)), select_zero, if_neg hm, broadcast_apply]
    exact fill_bot

end Cert.KernelIdeal.Hand

end
-- ==== Proof.R1ValB1.lean ====
import proofs.«404193_j6768868458990_3_alg».proof.Proof.R1ValB0

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

def rowM (mp : Vec Ideal S1x512x1 .f32) (S : FVec Ideal S512x512 .f32) : FVec Ideal S512x1 .f32 :=
  maximumf (shapeCast S512x1 mp shapeCasts_S1x512x1_S512x1)
    (shapeCast S512x1 (multiReduction .maximumf [1] S512 S 0xFF800000#32 reduces_S512x512_S512 (.inl rfl) rfl)
      shapeCasts_S512_S512x1)

def rowA (mp : Vec Ideal S1x512x1 .f32) (S : FVec Ideal S512x512 .f32) : FVec Ideal S512x1 .f32 :=
  exp (subf (shapeCast S512x1 mp shapeCasts_S1x512x1_S512x1) (rowM mp S))

def tileP (mp : Vec Ideal S1x512x1 .f32) (S : FVec Ideal S512x512 .f32) : FVec Ideal S512x512 .f32 :=
  exp (subf S (broadcastTo S512x512 (rowM mp S) broadcasts_S512x1_S512x512))

def headM (mp : Vec Ideal S1x512x1 .f32) (S : FVec Ideal S512x512 .f32) : FVec Ideal S1x512x1 .f32 :=
  shapeCast S1x512x1 (rowM mp S) shapeCasts_S512x1_S1x512x1

def headL (mp lp : Vec Ideal S1x512x1 .f32) (S : FVec Ideal S512x512 .f32) : FVec Ideal S1x512x1 .f32 :=
  shapeCast S1x512x1
    (addf (mulf (rowA mp S) (shapeCast S512x1 lp shapeCasts_S1x512x1_S512x1))
      (shapeCast S512x1 (multiReduction .add [1] S512 (tileP mp S) 0x00000000#32 reduces_S512x512_S512 (.inl rfl) rfl)
        shapeCasts_S512_S512x1))
    shapeCasts_S512x1_S1x512x1

def headAcc (mp : Vec Ideal S1x512x1 .f32) (ap : Vec Ideal S1x512x64 .f32) (S : FVec Ideal S512x512 .f32)
    (v : FVec Ideal S512x64 .bf16) : FVec Ideal S1x512x64 .f32 :=
  shapeCast S1x512x64
    (addf (mulf (broadcastTo S512x64 (rowA mp S) broadcasts_S512x1_S512x64) (shapeCast S512x64 ap shapeCasts_S1x512x64_S512x64))
      (matmul dot_S512x512_S512x64_S512x64_1_0_0_1_n_n none (truncf .bf16 (tileP mp S) bitsLt_bf16_f32) v
        (constant S512x64 .f32 0x00000000#32)))
    shapeCasts_S512x64_S1x512x64

section Entries

variable (mp lp : Vec Ideal S1x512x1 .f32) (ap : Vec Ideal S1x512x64 .f32) (S : FVec Ideal S512x512 .f32)
  (T : Fin 512 → Fin 512 → EReal) (hS : ∀ r c, S (ix2 r c) = T r c)

def newMax (r : Fin 512) : EReal := max (mp (ix3 0 r 0)) (Finset.univ.sup fun c : Fin 512 => T r c)

theorem exp_at {s : Shape} {φ : FTy} (a : FVec Ideal s φ) (y : s.Idx) : exp a y = Ideal.exp (a y) := rfl

theorem col_of_vec_apply {α : Type} (x : S512.Idx → α) (r : Fin 512) (z : Fin 1) :
    shapeCast S512x1 x shapeCasts_S512_S512x1 (ix2 r z) = x (ix1 r) :=
  shapeCast_apply x _ (ix2 r z) (ix1 r) (by
    have hz : z.val = 0 := by omega
    rw [Shape.rowMajor_val_one, Shape.rowMajor_val_two]
    show r.val = r.val * 1 + z.val
    omega)

theorem lift_row (r : Fin 512) (k : Fin 512) :
    reduces_S512x512_S512.lift (ix1 r) k = ix2 r k := by
  funext d
  apply Fin.ext
  match d with
  | ⟨0, _⟩ => rfl
  | ⟨1, _⟩ => rfl

include hS in

theorem rowmax_apply (hφ : FKind.Formats .f32) (hacc : (0xFF800000#32 : BitVec FTy.f32.bits) = FKind.maximumf.neutral .f32 hφ)
    (r : Fin 512) :
    multiReduction .maximumf [1] S512 S (0xFF800000#32 : BitVec FTy.f32.bits) reduces_S512x512_S512 hφ hacc (ix1 r)
      = Finset.univ.sup fun c : Fin 512 => T r c := by
  rw [Ideal.multiReduction_maximumf_single]
  show (Finset.univ : Finset (Fin 512)).fold max (Ideal.ofBits .f32 0xFF800000#32) (S ∘ reduces_S512x512_S512.lift (ix1 r)) = _
  rw [neg_inf_bot]
  have : (S ∘ reduces_S512x512_S512.lift (ix1 r)) = fun c : Fin 512 => T r c := funext fun c => by
    exact (congrArg S (lift_row r c)).trans (hS r c)
  rw [this]
  rfl

theorem rowsum_apply (P : FVec Ideal S512x512 .f32) (hφ : FKind.Formats .f32)
    (hacc : (0x00000000#32 : BitVec FTy.f32.bits) = FKind.add.neutral .f32 hφ) (r : Fin 512) :
    multiReduction .add [1] S512 P (0x00000000#32 : BitVec FTy.f32.bits) reduces_S512x512_S512 hφ hacc (ix1 r)
      = ∑ c : Fin 512, P (ix2 r c) := by
  rw [Ideal.multiReduction_add_single]
  show ∑ k : Fin 512, P (reduces_S512x512_S512.lift (ix1 r) k) = _
  refine Finset.sum_congr rfl fun c _ => ?_
  rw [lift_row]

include hS in
theorem rowM_apply (r : Fin 512) (z : Fin 1) : rowM mp S (ix2 r z) = newMax mp T r := by
  have hz : z = 0 := Fin.ext (by omega)
  subst hz
  unfold rowM newMax
  rw [maximumf_apply, shapeCast_1ab_ab_apply, col_of_vec_apply]
  exact congrArg (max (mp (ix3 0 r 0))) (rowmax_apply S T hS _ _ r)

include hS in
theorem rowA_apply (r : Fin 512) (z : Fin 1) : rowA mp S (ix2 r z) = Ideal.exp (mp (ix3 0 r 0) - newMax mp T r) := by
  have hz : z = 0 := Fin.ext (by omega)
  subst hz
  unfold rowA
  rw [exp_at, subf_apply, rowM_apply mp S T hS, shapeCast_1ab_ab_apply]

include hS in
theorem tileP_apply (r c : Fin 512) : tileP mp S (ix2 r c) = Ideal.exp (T r c - newMax mp T r) := by
  unfold tileP
  rw [exp_at, subf_apply, hS]
  refine congrArg (fun t => Ideal.exp (T r c - t)) ?_
  refine (broadcastTo_apply _ _ (ix2 r c) (ix2 r (0 : Fin 1)) (fun a => ?_)).trans (rowM_apply mp S T hS r 0)
  match a with
  | ⟨0, _⟩ => rfl
  | ⟨1, _⟩ => rfl

include hS in

theorem headM_apply (u : Fin 1) (r : Fin 512) (z : Fin 1) : headM mp S (ix3 u r z) = newMax mp T r := by
  unfold headM
  rw [shapeCast_ab_1ab_apply, rowM_apply mp S T hS]

include hS in

theorem headL_apply (u : Fin 1) (r : Fin 512) (z : Fin 1) :
    headL mp lp S (ix3 u r z)
      = Ideal.exp (mp (ix3 0 r 0) - newMax mp T r) * lp (ix3 0 r 0) + ∑ c : Fin 512, Ideal.exp (T r c - newMax mp T r) := by
  have hz : z = 0 := Fin.ext (by omega)
  subst hz
  unfold headL
  rw [shapeCast_ab_1ab_apply, addf_apply, mulf_apply, rowA_apply mp S T hS, shapeCast_1ab_ab_apply, col_of_vec_apply]
  refine congrArg (fun t => Ideal.exp (mp (ix3 0 r 0) - newMax mp T r) * lp (ix3 0 r 0) + t) ?_
  refine (rowsum_apply (tileP mp S) _ _ r).trans ?_
  refine Finset.sum_congr rfl fun c _ => ?_
  rw [tileP_apply mp S T hS]

abbrev mmPV : DotDims S512x512 S512x64 S512x64 := dot_S512x512_S512x64_S512x64_1_0_0_1_n_n

theorem mmPV_lhs_row (j : S512x64.Idx) (q : mmPV.contr.Idx) : (mmPV.lhsIdx j q 0).val = (j 0).val := by
  unfold DotDims.lhsIdx
  rw [dif_neg (show ¬(0 : Fin S512x512.rank) ∈ mmPV.lhsBatch by decide),
    dif_pos (show (0 : Fin S512x512.rank) ∈ mmPV.lhsNonContracting by decide)]
  rfl
theorem mmPV_lhs_col (j : S512x64.Idx) (q : mmPV.contr.Idx) : (mmPV.lhsIdx j q 1).val = (q ⟨0, by decide⟩).val :=
  mmPV.lhsIdx_val_of_single rfl j q
theorem mmPV_rhs_row (j : S512x64.Idx) (q : mmPV.contr.Idx) : (mmPV.rhsIdx j q 0).val = (q ⟨0, by decide⟩).val :=
  mmPV.rhsIdx_val_of_single rfl j q
theorem mmPV_rhs_col (j : S512x64.Idx) (q : mmPV.contr.Idx) : (mmPV.rhsIdx j q 1).val = (j 1).val := by
  unfold DotDims.rhsIdx
  rw [dif_neg (show ¬(1 : Fin S512x64.rank) ∈ mmPV.rhsBatch by decide),
    dif_pos (show (1 : Fin S512x64.rank) ∈ mmPV.rhsNonContracting by decide)]
  rfl

theorem mmPV_apply (a : FVec Ideal S512x512 .bf16) (b : FVec Ideal S512x64 .bf16) (r : Fin 512) (j : Fin 64) :
    (matmul mmPV none a b (constant S512x64 .f32 0x00000000#32) : FVec Ideal S512x64 .f32) (ix2 r j)
      = ∑ c : Fin 512, a (ix2 r c) * b (ix2 c j) := by
  simp only [matmul]
  rw [Ideal.matmul_constant_zero_apply, ← Equiv.sum_comp (ValueIdx.contrEquiv1 mmPV 512 rfl rfl).symm]
  refine Finset.sum_congr rfl fun c _ => ?_
  have hc := ValueIdx.contrEquiv1_symm_val mmPV 512 rfl rfl c
  have el : mmPV.lhsIdx (ix2 r j) ((ValueIdx.contrEquiv1 mmPV 512 rfl rfl).symm c) = ix2 r c := funext fun d => Fin.ext (by
    match d with
    | ⟨0, _⟩ => exact mmPV_lhs_row _ _
    | ⟨1, _⟩ => exact (mmPV_lhs_col _ _).trans hc)
  have er : mmPV.rhsIdx (ix2 r j) ((ValueIdx.contrEquiv1 mmPV 512 rfl rfl).symm c) = ix2 c j := funext fun d => Fin.ext (by
    match d with
    | ⟨0, _⟩ => exact (mmPV_rhs_row _ _).trans hc
    | ⟨1, _⟩ => exact mmPV_rhs_col _ _)
  rw [el, er]

include hS in

theorem headAcc_apply (v : FVec Ideal S512x64 .bf16) (u : Fin 1) (r : Fin 512) (j : Fin 64) :
    headAcc mp ap S v (ix3 u r j)
      = Ideal.exp (mp (ix3 0 r 0) - newMax mp T r) * ap (ix3 0 r j)
        + ∑ c : Fin 512, Ideal.exp (T r c - newMax mp T r) * v (ix2 c j) := by
  unfold headAcc
  have h1 : broadcastTo S512x64 (rowA mp S) broadcasts_S512x1_S512x64 (ix2 r j)
      = Ideal.exp (mp (ix3 0 r 0) - newMax mp T r) := by
    refine (broadcastTo_apply _ _ (ix2 r j) (ix2 r (0 : Fin 1)) (fun a => ?_)).trans (rowA_apply mp S T hS r 0)
    match a with
    | ⟨0, _⟩ => rfl
    | ⟨1, _⟩ => rfl
  have h2 : ∑ c : Fin 512, (truncf .bf16 (tileP mp S) bitsLt_bf16_f32 : FVec Ideal S512x512 .bf16) (ix2 r c) * v (ix2 c j)
      = ∑ c : Fin 512, Ideal.exp (T r c - newMax mp T r) * v (ix2 c j) :=
    Finset.sum_congr rfl fun c _ => by rw [ValueIdx.truncf_apply, tileP_apply mp S T hS]
  rw [shapeCast_ab_1ab_apply, addf_apply, mulf_apply, shapeCast_1ab_ab_apply, mmPV_apply, h1, h2]

end Entries

end Cert.KernelIdeal.Hand

end
-- ==== Proof.R1ValA.lean ====
import proofs.«404193_j6768868458990_3_alg».proof.Proof.R1RunA
import proofs.«404193_j6768868458990_3_alg».proof.Proof.R1Coords
import proofs.«404193_j6768868458990_3_alg».proof.Proof.R1ValB0
import proofs.«404193_j6768868458990_3_alg».proof.Proof.R1ValB1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

abbrev SW (w : ℕ) : Shape := ⟨3, ![16, 512, w]⟩
abbrev rowSize (w : ℕ) : Fin 3 → ℕ := ![1, 512, w]

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

section Rows

variable {w : ℕ}

theorem row_emb (n : ℕ) (hn : n < 16) (inb : ∀ a, (![n, 0, 0] : Fin 3 → ℕ) a + rowSize w a ≤ (SW w).size a)
    (u : Fin 1) (r : Fin 512) (z : Fin w) :
    (Rect.unit (s := SW w) ![n, 0, 0] (rowSize w) inb).emb (ix3 u r z) = ix3 (⟨n, hn⟩ : Fin 16) r z := by
  funext a
  apply Fin.ext
  have hu : u.val = 0 := by omega
  match a with
  | ⟨0, _⟩ => show n + 1 * u.val = n; omega
  | ⟨1, _⟩ => show 0 + 1 * r.val = r.val; omega
  | ⟨2, _⟩ => show 0 + 1 * z.val = z.val; omega

theorem row_not_mem (n : ℕ) (inb : ∀ a, (![n, 0, 0] : Fin 3 → ℕ) a + rowSize w a ≤ (SW w).size a)
    (h : Fin 16) (hne : h.val ≠ n) (r : Fin 512) (z : Fin w) :
    (ix3 h r z : (SW w).Idx) ∉ (Rect.unit (s := SW w) ![n, 0, 0] (rowSize w) inb).set := by
  intro hm
  have h0 := Rect.mem_set_unit.mp hm (0 : Fin 3)
  have h1 : n ≤ h.val ∧ h.val < n + 1 := h0
  omega

/-- The stores L leave G on the heads before n and D on the others. -/
def Upto (w : ℕ) (L : List (View.Piece (Elt Ideal) (SW w) .f32)) (n : ℕ) (G : Fin 16 → Fin 512 → Fin w → EReal) (D : EReal) : Prop :=
  ∀ h r z, View.canon L (ix3 h r z) = if h.val < n then G h r z else D

variable {L : List (View.Piece (Elt Ideal) (SW w) .f32)} {n : ℕ} {G : Fin 16 → Fin 512 → Fin w → EReal} {D : EReal}

/-- Head n's row stored next, holding G's head n. -/
theorem Upto.step (hL : Upto w L n G D) (hn : n < 16) (inb : ∀ a, (![n, 0, 0] : Fin 3 → ℕ) a + rowSize w a ≤ (SW w).size a)
    (pay : (⟨3, rowSize w⟩ : Shape).Idx → Elt Ideal .f32) (hpay : ∀ u r z, pay (ix3 u r z) = G ⟨n, hn⟩ r z) :
    Upto w ((⟨Rect.unit (s := SW w) ![n, 0, 0] (rowSize w) inb, pay⟩ : View.Piece (Elt Ideal) (SW w) .f32) :: L) (n + 1) G D := by
  intro h r z
  by_cases hh : h.val = n
  · obtain rfl : h = ⟨n, hn⟩ := Fin.ext hh
    rw [← row_emb n hn inb 0 r z, View.canon_cons_emb, hpay, if_pos (Nat.lt_succ_self n)]
  · rw [View.canon_cons_of_not_mem (⟨Rect.unit (s := SW w) ![n, 0, 0] (rowSize w) inb, pay⟩ : View.Piece (Elt Ideal) (SW w) .f32) L
      (row_not_mem n inb h hh r z), hL]
    by_cases hlt : h.val < n
    · rw [if_pos hlt, if_pos (Nat.lt_succ_of_lt hlt)]
    · rw [if_neg hlt, if_neg (by omega)]

/-- A load of head n's row before it is stored reads D. -/
theorem Upto.read (hL : Upto w L n G D) {sig : RefSig} {κ : Kind} {sp : Space} (v : View sig κ sp (SW w) .f32) (hn : n < 16)
    (inb : ∀ a, (![n, 0, 0] : Fin 3 → ℕ) a + rowSize w a ≤ (SW w).size a) :
    v.readCov L (Rect.unit (s := SW w) ![n, 0, 0] (rowSize w) inb).toLoadRect = fun _ => D := by
  rw [View.readCov_eq_canon']
  funext j
  obtain ⟨u, r, z, rfl⟩ : ∃ (u : Fin 1) (r : Fin 512) (z : Fin w), j = ix3 u r z := ⟨j 0, j 1, j 2, eq_ix3 j⟩
  have e : (Rect.unit (s := SW w) ![n, 0, 0] (rowSize w) inb).toLoadRect.idx (ix3 u r z) = ix3 (⟨n, hn⟩ : Fin 16) r z :=
    row_emb n hn inb u r z
  rw [e, hL, if_neg (lt_irrefl n)]

end Rows

section ResetStep

variable (x0 x1 x2 : Vec Ideal S1x512x16x64 .bf16) (i : grid1.Coords)

abbrev scoreOf (n : ℕ) (hs : S512x16x64.Slices ![0, n, 0] S512x1x64) : FVec Ideal S512x512 .f32 :=
  headScore n hs (k1_pay8 x0) (k1_pay9 x1) (k1_pay11 (BitVec.ofNat 32 (i 1).val) (BitVec.ofNat 32 (i 2).val))

theorem stepA_m (n : ℕ) (hn : n < 16) (hs : S512x16x64.Slices ![0, n, 0] S512x1x64) (u : Fin 1) (r : Fin 512) (z : Fin 1) :
    headM (fun _ => (⊥ : EReal)) (scoreOf x0 x1 i n hs) (ix3 u r z)
      = Cert.Att.stepM (Cert.Att.tileScore (qOf x0) (qOf x1) (mskOf i)) Cert.Att.m0 ⟨n, hn⟩ r :=
  (headM_apply (fun _ => (⊥ : EReal)) (scoreOf x0 x1 i n hs)
    (fun r c => Cert.Att.tileScore (qOf x0) (qOf x1) (mskOf i) ⟨n, hn⟩ r c)
    (fun r c => headScore_apply n hn hs x0 x1 i r c) u r z).trans rfl

theorem stepA_l (n : ℕ) (hn : n < 16) (hs : S512x16x64.Slices ![0, n, 0] S512x1x64) (u : Fin 1) (r : Fin 512) (z : Fin 1) :
    headL (fun _ => (⊥ : EReal)) (fun _ => (0 : EReal)) (scoreOf x0 x1 i n hs) (ix3 u r z)
      = Cert.Att.stepL (Cert.Att.tileScore (qOf x0) (qOf x1) (mskOf i)) Cert.Att.m0 Cert.Att.l0 ⟨n, hn⟩ r :=
  (headL_apply (fun _ => (⊥ : EReal)) (fun _ => (0 : EReal)) (scoreOf x0 x1 i n hs)
    (fun r c => Cert.Att.tileScore (qOf x0) (qOf x1) (mskOf i) ⟨n, hn⟩ r c)
    (fun r c => headScore_apply n hn hs x0 x1 i r c) u r z).trans rfl

theorem stepA_acc (n : ℕ) (hn : n < 16) (hs : S512x16x64.Slices ![0, n, 0] S512x1x64) (u : Fin 1) (r : Fin 512) (j : Fin 64) :
    headAcc (fun _ => (⊥ : EReal)) (fun _ => (0 : EReal)) (scoreOf x0 x1 i n hs) (headMat n hs (k1_pay10 x2)) (ix3 u r j)
      = Cert.Att.stepAcc (Cert.Att.tileScore (qOf x0) (qOf x1) (mskOf i)) (qOf x2) Cert.Att.m0 Cert.Att.acc0 ⟨n, hn⟩ r j := by
  refine (headAcc_apply (fun _ => (⊥ : EReal)) (fun _ => (0 : EReal)) (scoreOf x0 x1 i n hs)
    (fun r c => Cert.Att.tileScore (qOf x0) (qOf x1) (mskOf i) ⟨n, hn⟩ r c)
    (fun r c => headScore_apply n hn hs x0 x1 i r c) (headMat n hs (k1_pay10 x2)) u r j).trans ?_
  unfold Cert.Att.stepAcc
  refine congrArg₂ (· + ·) rfl (Finset.sum_congr rfl fun c _ => ?_)
  refine congrArg₂ (· * ·) rfl ?_
  exact headMat_apply n hn hs x2 c j

end ResetStep

open Lean Elab Tactic Meta in

elab "open_run_values" : tactic => do
  let g ← getMainGoal
  let isVal (n : Name) : Bool :=
    n.components.dropLast.any (· == `sl) && (match n with | .str _ last => !(last.startsWith "HS") | _ => false)
  let mut t ← instantiateMVars (← g.getType)
  for _ in [0:8] do
    let t' ← Meta.deltaExpand t isVal
    if t' == t then break
    t := t'
  replaceMainGoal [← g.replaceTargetDefEq t]

macro "open_payloads" : tactic => `(tactic|
  simp only [k1_pay1, k1_pay2, k1_pay3, k1_pay4, k1_pay5, k1_pay6, k1_pay7, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, headM, headL, headAcc, rowM, rowA, tileP, scoreOf, headScore, headMat])

variable (c : Dev nD) (i : grid1.Coords) (arg3 : Memref sig .tc .vmem S1x512x16x64 .bf16) (harg3 : arg3.IsWhole) (arg4 : Memref sig .tc .vmem S1x512x16x64 .bf16) (harg4 : arg4.IsWhole)
  (arg5 : Memref sig .tc .vmem S1x512x16x64 .bf16) (harg5 : arg5.IsWhole) (arg6 : Memref sig .tc .vmem S1024x1024 .bf16) (harg6 : arg6.IsWhole) (arg7 : Memref sig .tc .vmem S1x512x1024 .f32) (harg7 : arg7.IsWhole)
  (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole)
  (hc0 : cond1_0 i) (hc1 : cond1_1 i) (hc2 : ¬cond1_2 i) (x0 x1 x2 : Vec Ideal S1x512x16x64 .bf16) (x3 : Vec Ideal S1024x1024 .bf16)

/-- What one step from the reset state leaves: the running maximum, the running normaliser, the weighted sums. -/
abbrev gM (h : Fin 16) (r : Fin 512) (_ : Fin 1) : EReal := Cert.Att.stepM (Cert.Att.tileScore (qOf x0) (qOf x1) (mskOf i)) Cert.Att.m0 h r
abbrev gL (h : Fin 16) (r : Fin 512) (_ : Fin 1) : EReal := Cert.Att.stepL (Cert.Att.tileScore (qOf x0) (qOf x1) (mskOf i)) Cert.Att.m0 Cert.Att.l0 h r
abbrev gA (h : Fin 16) (r : Fin 512) (j : Fin 64) : EReal := Cert.Att.stepAcc (Cert.Att.tileScore (qOf x0) (qOf x1) (mskOf i)) (qOf x2) Cert.Att.m0 Cert.Att.acc0 h r j

theorem canonA0_0 : Upto 1 (kernelRun1_A.sl.HS0_1 (F := Ideal)) 0 (gM i x0 x1) ⊥ := by
  intro h r z
  unfold kernelRun1_A.sl.HS0_1
  rw [View.canon_unit_zero (S := S16x512x1) zeros3, if_neg (Nat.not_lt_zero _)]
  unfold k1_pay1
  simp only [shapeCast_self]
  exact neg_inf_bot

theorem canonA0_1 : Upto 1 (kernelRun1_A.sl.HS0_2 (F := Ideal) c i arg3 harg3 arg4 harg4 arg8 x0 x1) 1 (gM i x0 x1) ⊥ := by
  have p := canonA0_0 i x0 x1
  unfold kernelRun1_A.sl.HS0_2
  refine p.step (by decide) _ _ fun u r z => ?_
  open_run_values
  rw [p.read arg8.view (by decide) _]
  simp only [View.readAt_eq_ld, harg3.read_unread, harg4.read_unread, View.ld_unit_zero (S := S1x512x16x64) zeros4]
  refine Eq.trans ?_ (stepA_m x0 x1 i 0 (by decide) slices_S512x16x64_o0_0_0_S512x1x64 u r z)
  open_payloads <;> rfl

theorem canonA0_2 : Upto 1 (kernelRun1_A.sl.HS0_3 (F := Ideal) c i arg3 harg3 arg4 harg4 arg8 x0 x1) 2 (gM i x0 x1) ⊥ := by
  have p := canonA0_1 c i arg3 harg3 arg4 harg4 arg8 x0 x1
  unfold kernelRun1_A.sl.HS0_3
  refine p.step (by decide) _ _ fun u r z => ?_
  open_run_values
  rw [p.read arg8.view (by decide) _]
  simp only [View.readAt_eq_ld, harg3.read_unread, harg4.read_unread, View.ld_unit_zero (S := S1x512x16x64) zeros4]
  refine Eq.trans ?_ (stepA_m x0 x1 i 1 (by decide) slices_S512x16x64_o0_1_0_S512x1x64 u r z)
  open_payloads <;> rfl

theorem canonA0_3 : Upto 1 (kernelRun1_A.sl.HS0_4 (F := Ideal) c i arg3 harg3 arg4 harg4 arg8 x0 x1) 3 (gM i x0 x1) ⊥ := by
  have p := canonA0_2 c i arg3 harg3 arg4 harg4 arg8 x0 x1
  unfold kernelRun1_A.sl.HS0_4
  refine p.step (by decide) _ _ fun u r z => ?_
  open_run_values
  rw [p.read arg8.view (by decide) _]
  simp only [View.readAt_eq_ld, harg3.read_unread, harg4.read_unread, View.ld_unit_zero (S := S1x512x16x64) zeros4]
  refine Eq.trans ?_ (stepA_m x0 x1 i 2 (by decide) slices_S512x16x64_o0_2_0_S512x1x64 u r z)
  open_payloads <;> rfl

theorem canonA0_4 : Upto 1 (kernelRun1_A.sl.HS0_5 (F := Ideal) c i arg3 harg3 arg4 harg4 arg8 x0 x1) 4 (gM i x0 x1) ⊥ := by
  have p := canonA0_3 c i arg3 harg3 arg4 harg4 arg8 x0 x1
  unfold kernelRun1_A.sl.HS0_5
  refine p.step (by decide) _ _ fun u r z => ?_
  open_run_values
  rw [p.read arg8.view (by decide) _]
  simp only [View.readAt_eq_ld, harg3.read_unread, harg4.read_unread, View.ld_unit_zero (S := S1x512x16x64) zeros4]
  refine Eq.trans ?_ (stepA_m x0 x1 i 3 (by decide) slices_S512x16x64_o0_3_0_S512x1x64 u r z)
  open_payloads <;> rfl

theorem canonA0_5 : Upto 1 (kernelRun1_A.sl.HS0_6 (F := Ideal) c i arg3 harg3 arg4 harg4 arg8 x0 x1) 5 (gM i x0 x1) ⊥ := by
  have p := canonA0_4 c i arg3 harg3 arg4 harg4 arg8 x0 x1
  unfold kernelRun1_A.sl.HS0_6
  refine p.step (by decide) _ _ fun u r z => ?_
  open_run_values
  rw [p.read arg8.view (by decide) _]
  simp only [View.readAt_eq_ld, harg3.read_unread, harg4.read_unread, View.ld_unit_zero (S := S1x512x16x64) zeros4]
  refine Eq.trans ?_ (stepA_m x0 x1 i 4 (by decide) slices_S512x16x64_o0_4_0_S512x1x64 u r z)
  open_payloads <;> rfl

theorem canonA0_6 : Upto 1 (kernelRun1_A.sl.HS0_7 (F := Ideal) c i arg3 harg3 arg4 harg4 arg8 x0 x1) 6 (gM i x0 x1) ⊥ := by
  have p := canonA0_5 c i arg3 harg3 arg4 harg4 arg8 x0 x1
  unfold kernelRun1_A.sl.HS0_7
  refine p.step (by decide) _ _ fun u r z => ?_
  open_run_values
  rw [p.read arg8.view (by decide) _]
  simp only [View.readAt_eq_ld, harg3.read_unread, harg4.read_unread, View.ld_unit_zero (S := S1x512x16x64) zeros4]
  refine Eq.trans ?_ (stepA_m x0 x1 i 5 (by decide) slices_S512x16x64_o0_5_0_S512x1x64 u r z)
  open_payloads <;> rfl

theorem canonA0_7 : Upto 1 (kernelRun1_A.sl.HS0_8 (F := Ideal) c i arg3 harg3 arg4 harg4 arg8 x0 x1) 7 (gM i x0 x1) ⊥ := by
  have p := canonA0_6 c i arg3 harg3 arg4 harg4 arg8 x0 x1
  unfold kernelRun1_A.sl.HS0_8
  refine p.step (by decide) _ _ fun u r z => ?_
  open_run_values
  rw [p.read arg8.view (by decide) _]
  simp only [View.readAt_eq_ld, harg3.read_unread, harg4.read_unread, View.ld_unit_zero (S := S1x512x16x64) zeros4]
  refine Eq.trans ?_ (stepA_m x0 x1 i 6 (by decide) slices_S512x16x64_o0_6_0_S512x1x64 u r z)
  open_payloads <;> rfl

theorem canonA0_8 : Upto 1 (kernelRun1_A.sl.HS0_9 (F := Ideal) c i arg3 harg3 arg4 harg4 arg8 x0 x1) 8 (gM i x0 x1) ⊥ := by
  have p := canonA0_7 c i arg3 harg3 arg4 harg4 arg8 x0 x1
  unfold kernelRun1_A.sl.HS0_9
  refine p.step (by decide) _ _ fun u r z => ?_
  open_run_values
  rw [p.read arg8.view (by decide) _]
  simp only [View.readAt_eq_ld, harg3.read_unread, harg4.read_unread, View.ld_unit_zero (S := S1x512x16x64) zeros4]
  refine Eq.trans ?_ (stepA_m x0 x1 i 7 (by decide) slices_S512x16x64_o0_7_0_S512x1x64 u r z)
  open_payloads <;> rfl

theorem canonA0_9 : Upto 1 (kernelRun1_A.sl.HS0_10 (F := Ideal) c i arg3 harg3 arg4 harg4 arg8 x0 x1) 9 (gM i x0 x1) ⊥ := by
  have p := canonA0_8 c i arg3 harg3 arg4 harg4 arg8 x0 x1
  unfold kernelRun1_A.sl.HS0_10
  refine p.step (by decide) _ _ fun u r z => ?_
  open_run_values
  rw [p.read arg8.view (by decide) _]
  simp only [View.readAt_eq_ld, harg3.read_unread, harg4.read_unread, View.ld_unit_zero (S := S1x512x16x64) zeros4]
  refine Eq.trans ?_ (stepA_m x0 x1 i 8 (by decide) slices_S512x16x64_o0_8_0_S512x1x64 u r z)
  open_payloads <;> rfl

theorem canonA0_10 : Upto 1 (kernelRun1_A.sl.HS0_11 (F := Ideal) c i arg3 harg3 arg4 harg4 arg8 x0 x1) 10 (gM i x0 x1) ⊥ := by
  have p := canonA0_9 c i arg3 harg3 arg4 harg4 arg8 x0 x1
  unfold kernelRun1_A.sl.HS0_11
  refine p.step (by decide) _ _ fun u r z => ?_
  open_run_values
  rw [p.read arg8.view (by decide) _]
  simp only [View.readAt_eq_ld, harg3.read_unread, harg4.read_unread, View.ld_unit_zero (S := S1x512x16x64) zeros4]
  refine Eq.trans ?_ (stepA_m x0 x1 i 9 (by decide) slices_S512x16x64_o0_9_0_S512x1x64 u r z)
  open_payloads <;> rfl

theorem canonA0_11 : Upto 1 (kernelRun1_A.sl.HS0_12 (F := Ideal) c i arg3 harg3 arg4 harg4 arg8 x0 x1) 11 (gM i x0 x1) ⊥ := by
  have p := canonA0_10 c i arg3 harg3 arg4 harg4 arg8 x0 x1
  unfold kernelRun1_A.sl.HS0_12
  refine p.step (by decide) _ _ fun u r z => ?_
  open_run_values
  rw [p.read arg8.view (by decide) _]
  simp only [View.readAt_eq_ld, harg3.read_unread, harg4.read_unread, View.ld_unit_zero (S := S1x512x16x64) zeros4]
  refine Eq.trans ?_ (stepA_m x0 x1 i 10 (by decide) slices_S512x16x64_o0_10_0_S512x1x64 u r z)
  open_payloads <;> rfl

theorem canonA0_12 : Upto 1 (kernelRun1_A.sl.HS0_13 (F := Ideal) c i arg3 harg3 arg4 harg4 arg8 x0 x1) 12 (gM i x0 x1) ⊥ := by
  have p := canonA0_11 c i arg3 harg3 arg4 harg4 arg8 x0 x1
  unfold kernelRun1_A.sl.HS0_13
  refine p.step (by decide) _ _ fun u r z => ?_
  open_run_values
  rw [p.read arg8.view (by decide) _]
  simp only [View.readAt_eq_ld, harg3.read_unread, harg4.read_unread, View.ld_unit_zero (S := S1x512x16x64) zeros4]
  refine Eq.trans ?_ (stepA_m x0 x1 i 11 (by decide) slices_S512x16x64_o0_11_0_S512x1x64 u r z)
  open_payloads <;> rfl

theorem canonA0_13 : Upto 1 (kernelRun1_A.sl.HS0_14 (F := Ideal) c i arg3 harg3 arg4 harg4 arg8 x0 x1) 13 (gM i x0 x1) ⊥ := by
  have p := canonA0_12 c i arg3 harg3 arg4 harg4 arg8 x0 x1
  unfold kernelRun1_A.sl.HS0_14
  refine p.step (by decide) _ _ fun u r z => ?_
  open_run_values
  rw [p.read arg8.view (by decide) _]
  simp only [View.readAt_eq_ld, harg3.read_unread, harg4.read_unread, View.ld_unit_zero (S := S1x512x16x64) zeros4]
  refine Eq.trans ?_ (stepA_m x0 x1 i 12 (by decide) slices_S512x16x64_o0_12_0_S512x1x64 u r z)
  open_payloads <;> rfl

theorem canonA0_14 : Upto 1 (kernelRun1_A.sl.HS0_15 (F := Ideal) c i arg3 harg3 arg4 harg4 arg8 x0 x1) 14 (gM i x0 x1) ⊥ := by
  have p := canonA0_13 c i arg3 harg3 arg4 harg4 arg8 x0 x1
  unfold kernelRun1_A.sl.HS0_15
  refine p.step (by decide) _ _ fun u r z => ?_
  open_run_values
  rw [p.read arg8.view (by decide) _]
  simp only [View.readAt_eq_ld, harg3.read_unread, harg4.read_unread, View.ld_unit_zero (S := S1x512x16x64) zeros4]
  refine Eq.trans ?_ (stepA_m x0 x1 i 13 (by decide) slices_S512x16x64_o0_13_0_S512x1x64 u r z)
  open_payloads <;> rfl

theorem canonA0_15 : Upto 1 (kernelRun1_A.sl.HS0_16 (F := Ideal) c i arg3 harg3 arg4 harg4 arg8 x0 x1) 15 (gM i x0 x1) ⊥ := by
  have p := canonA0_14 c i arg3 harg3 arg4 harg4 arg8 x0 x1
  unfold kernelRun1_A.sl.HS0_16
  refine p.step (by decide) _ _ fun u r z => ?_
  open_run_values
  rw [p.read arg8.view (by decide) _]
  simp only [View.readAt_eq_ld, harg3.read_unread, harg4.read_unread, View.ld_unit_zero (S := S1x512x16x64) zeros4]
  refine Eq.trans ?_ (stepA_m x0 x1 i 14 (by decide) slices_S512x16x64_o0_14_0_S512x1x64 u r z)
  open_payloads <;> rfl

theorem canonA1_0 : Upto 1 (kernelRun1_A.sl.HS1_1 (F := Ideal)) 0 (gL i x0 x1) 0 := by
  intro h r z
  unfold kernelRun1_A.sl.HS1_1
  rw [View.canon_unit_zero (S := S16x512x1) zeros3, if_neg (Nat.not_lt_zero _)]
  unfold k1_pay2
  simp only [shapeCast_self]
  exact Ideal.ofBits_zero_f32

theorem canonA1_1 : Upto 1 (kernelRun1_A.sl.HS1_2 (F := Ideal) c i arg3 harg3 arg4 harg4 arg8 arg9 x0 x1) 1 (gL i x0 x1) 0 := by
  have p := canonA1_0 i x0 x1
  unfold kernelRun1_A.sl.HS1_2
  refine p.step (by decide) _ _ fun u r z => ?_
  open_run_values
  rw [(canonA0_0 i x0 x1).read arg8.view (by decide) _, p.read arg9.view (by decide) _]
  simp only [View.readAt_eq_ld, harg3.read_unread, harg4.read_unread, View.ld_unit_zero (S := S1x512x16x64) zeros4]
  refine Eq.trans ?_ (stepA_l x0 x1 i 0 (by decide) slices_S512x16x64_o0_0_0_S512x1x64 u r z)
  open_payloads <;> rfl

theorem canonA1_2 : Upto 1 (kernelRun1_A.sl.HS1_3 (F := Ideal) c i arg3 harg3 arg4 harg4 arg8 arg9 x0 x1) 2 (gL i x0 x1) 0 := by
  have p := canonA1_1 c i arg3 harg3 arg4 harg4 arg8 arg9 x0 x1
  unfold kernelRun1_A.sl.HS1_3
  refine p.step (by decide) _ _ fun u r z => ?_
  open_run_values
  rw [(canonA0_1 c i arg3 harg3 arg4 harg4 arg8 x0 x1).read arg8.view (by decide) _, p.read arg9.view (by decide) _]
  simp only [View.readAt_eq_ld, harg3.read_unread, harg4.read_unread, View.ld_unit_zero (S := S1x512x16x64) zeros4]
  refine Eq.trans ?_ (stepA_l x0 x1 i 1 (by decide) slices_S512x16x64_o0_1_0_S512x1x64 u r z)
  open_payloads <;> rfl

theorem canonA1_3 : Upto 1 (kernelRun1_A.sl.HS1_4 (F := Ideal) c i arg3 harg3 arg4 harg4 arg8 arg9 x0 x1) 3 (gL i x0 x1) 0 := by
  have p := canonA1_2 c i arg3 harg3 arg4 harg4 arg8 arg9 x0 x1
  unfold kernelRun1_A.sl.HS1_4
  refine p.step (by decide) _ _ fun u r z => ?_
  open_run_values
  rw [(canonA0_2 c i arg3 harg3 arg4 harg4 arg8 x0 x1).read arg8.view (by decide) _, p.read arg9.view (by decide) _]
  simp only [View.readAt_eq_ld, harg3.read_unread, harg4.read_unread, View.ld_unit_zero (S := S1x512x16x64) zeros4]
  refine Eq.trans ?_ (stepA_l x0 x1 i 2 (by decide) slices_S512x16x64_o0_2_0_S512x1x64 u r z)
  open_payloads <;> rfl

theorem canonA1_4 : Upto 1 (kernelRun1_A.sl.HS1_5 (F := Ideal) c i arg3 harg3 arg4 harg4 arg8 arg9 x0 x1) 4 (gL i x0 x1) 0 := by
  have p := canonA1_3 c i arg3 harg3 arg4 harg4 arg8 arg9 x0 x1
  unfold kernelRun1_A.sl.HS1_5
  refine p.step (by decide) _ _ fun u r z => ?_
  open_run_values
  rw [(canonA0_3 c i arg3 harg3 arg4 harg4 arg8 x0 x1).read arg8.view (by decide) _, p.read arg9.view (by decide) _]
  simp only [View.readAt_eq_ld, harg3.read_unread, harg4.read_unread, View.ld_unit_zero (S := S1x512x16x64) zeros4]
  refine Eq.trans ?_ (stepA_l x0 x1 i 3 (by decide) slices_S512x16x64_o0_3_0_S512x1x64 u r z)
  open_payloads <;> rfl

theorem canonA1_5 : Upto 1 (kernelRun1_A.sl.HS1_6 (F := Ideal) c i arg3 harg3 arg4 harg4 arg8 arg9 x0 x1) 5 (gL i x0 x1) 0 := by
  have p := canonA1_4 c i arg3 harg3 arg4 harg4 arg8 arg9 x0 x1
  unfold kernelRun1_A.sl.HS1_6
  refine p.step (by decide) _ _ fun u r z => ?_
  open_run_values
  rw [(canonA0_4 c i arg3 harg3 arg4 harg4 arg8 x0 x1).read arg8.view (by decide) _, p.read arg9.view (by decide) _]
  simp only [View.readAt_eq_ld, harg3.read_unread, harg4.read_unread, View.ld_unit_zero (S := S1x512x16x64) zeros4]
  refine Eq.trans ?_ (stepA_l x0 x1 i 4 (by decide) slices_S512x16x64_o0_4_0_S512x1x64 u r z)
  open_payloads <;> rfl

theorem canonA1_6 : Upto 1 (kernelRun1_A.sl.HS1_7 (F := Ideal) c i arg3 harg3 arg4 harg4 arg8 arg9 x0 x1) 6 (gL i x0 x1) 0 := by
  have p := canonA1_5 c i arg3 harg3 arg4 harg4 arg8 arg9 x0 x1
  unfold kernelRun1_A.sl.HS1_7
  refine p.step (by decide) _ _ fun u r z => ?_
  open_run_values
  rw [(canonA0_5 c i arg3 harg3 arg4 harg4 arg8 x0 x1).read arg8.view (by decide) _, p.read arg9.view (by decide) _]
  simp only [View.readAt_eq_ld, harg3.read_unread, harg4.read_unread, View.ld_unit_zero (S := S1x512x16x64) zeros4]
  refine Eq.trans ?_ (stepA_l x0 x1 i 5 (by decide) slices_S512x16x64_o0_5_0_S512x1x64 u r z)
  open_payloads <;> rfl

theorem canonA1_7 : Upto 1 (kernelRun1_A.sl.HS1_8 (F := Ideal) c i arg3 harg3 arg4 harg4 arg8 arg9 x0 x1) 7 (gL i x0 x1) 0 := by
  have p := canonA1_6 c i arg3 harg3 arg4 harg4 arg8 arg9 x0 x1
  unfold kernelRun1_A.sl.HS1_8
  refine p.step (by decide) _ _ fun u r z => ?_
  open_run_values
  rw [(canonA0_6 c i arg3 harg3 arg4 harg4 arg8 x0 x1).read arg8.view (by decide) _, p.read arg9.view (by decide) _]
  simp only [View.readAt_eq_ld, harg3.read_unread, harg4.read_unread, View.ld_unit_zero (S := S1x512x16x64) zeros4]
  refine Eq.trans ?_ (stepA_l x0 x1 i 6 (by decide) slices_S512x16x64_o0_6_0_S512x1x64 u r z)
  open_payloads <;> rfl

theorem canonA1_8 : Upto 1 (kernelRun1_A.sl.HS1_9 (F := Ideal) c i arg3 harg3 arg4 harg4 arg8 arg9 x0 x1) 8 (gL i x0 x1) 0 := by
  have p := canonA1_7 c i arg3 harg3 arg4 harg4 arg8 arg9 x0 x1
  unfold kernelRun1_A.sl.HS1_9
  refine p.step (by decide) _ _ fun u r z => ?_
  open_run_values
  rw [(canonA0_7 c i arg3 harg3 arg4 harg4 arg8 x0 x1).read arg8.view (by decide) _, p.read arg9.view (by decide) _]
  simp only [View.readAt_eq_ld, harg3.read_unread, harg4.read_unread, View.ld_unit_zero (S := S1x512x16x64) zeros4]
  refine Eq.trans ?_ (stepA_l x0 x1 i 7 (by decide) slices_S512x16x64_o0_7_0_S512x1x64 u r z)
  open_payloads <;> rfl

theorem canonA1_9 : Upto 1 (kernelRun1_A.sl.HS1_10 (F := Ideal) c i arg3 harg3 arg4 harg4 arg8 arg9 x0 x1) 9 (gL i x0 x1) 0 := by
  have p := canonA1_8 c i arg3 harg3 arg4 harg4 arg8 arg9 x0 x1
  unfold kernelRun1_A.sl.HS1_10
  refine p.step (by decide) _ _ fun u r z => ?_
  open_run_values
  rw [(canonA0_8 c i arg3 harg3 arg4 harg4 arg8 x0 x1).read arg8.view (by decide) _, p.read arg9.view (by decide) _]
  simp only [View.readAt_eq_ld, harg3.read_unread, harg4.read_unread, View.ld_unit_zero (S := S1x512x16x64) zeros4]
  refine Eq.trans ?_ (stepA_l x0 x1 i 8 (by decide) slices_S512x16x64_o0_8_0_S512x1x64 u r z)
  open_payloads <;> rfl

theorem canonA1_10 : Upto 1 (kernelRun1_A.sl.HS1_11 (F := Ideal) c i arg3 harg3 arg4 harg4 arg8 arg9 x0 x1) 10 (gL i x0 x1) 0 := by
  have p := canonA1_9 c i arg3 harg3 arg4 harg4 arg8 arg9 x0 x1
  unfold kernelRun1_A.sl.HS1_11
  refine p.step (by decide) _ _ fun u r z => ?_
  open_run_values
  rw [(canonA0_9 c i arg3 harg3 arg4 harg4 arg8 x0 x1).read arg8.view (by decide) _, p.read arg9.view (by decide) _]
  simp only [View.readAt_eq_ld, harg3.read_unread, harg4.read_unread, View.ld_unit_zero (S := S1x512x16x64) zeros4]
  refine Eq.trans ?_ (stepA_l x0 x1 i 9 (by decide) slices_S512x16x64_o0_9_0_S512x1x64 u r z)
  open_payloads <;> rfl

theorem canonA1_11 : Upto 1 (kernelRun1_A.sl.HS1_12 (F := Ideal) c i arg3 harg3 arg4 harg4 arg8 arg9 x0 x1) 11 (gL i x0 x1) 0 := by
  have p := canonA1_10 c i arg3 harg3 arg4 harg4 arg8 arg9 x0 x1
  unfold kernelRun1_A.sl.HS1_12
  refine p.step (by decide) _ _ fun u r z => ?_
  open_run_values
  rw [(canonA0_10 c i arg3 harg3 arg4 harg4 arg8 x0 x1).read arg8.view (by decide) _, p.read arg9.view (by decide) _]
  simp only [View.readAt_eq_ld, harg3.read_unread, harg4.read_unread, View.ld_unit_zero (S := S1x512x16x64) zeros4]
  refine Eq.trans ?_ (stepA_l x0 x1 i 10 (by decide) slices_S512x16x64_o0_10_0_S512x1x64 u r z)
  open_payloads <;> rfl

theorem canonA1_12 : Upto 1 (kernelRun1_A.sl.HS1_13 (F := Ideal) c i arg3 harg3 arg4 harg4 arg8 arg9 x0 x1) 12 (gL i x0 x1) 0 := by
  have p := canonA1_11 c i arg3 harg3 arg4 harg4 arg8 arg9 x0 x1
  unfold kernelRun1_A.sl.HS1_13
  refine p.step (by decide) _ _ fun u r z => ?_
  open_run_values
  rw [(canonA0_11 c i arg3 harg3 arg4 harg4 arg8 x0 x1).read arg8.view (by decide) _, p.read arg9.view (by decide) _]
  simp only [View.readAt_eq_ld, harg3.read_unread, harg4.read_unread, View.ld_unit_zero (S := S1x512x16x64) zeros4]
  refine Eq.trans ?_ (stepA_l x0 x1 i 11 (by decide) slices_S512x16x64_o0_11_0_S512x1x64 u r z)
  open_payloads <;> rfl

theorem canonA1_13 : Upto 1 (kernelRun1_A.sl.HS1_14 (F := Ideal) c i arg3 harg3 arg4 harg4 arg8 arg9 x0 x1) 13 (gL i x0 x1) 0 := by
  have p := canonA1_12 c i arg3 harg3 arg4 harg4 arg8 arg9 x0 x1
  unfold kernelRun1_A.sl.HS1_14
  refine p.step (by decide) _ _ fun u r z => ?_
  open_run_values
  rw [(canonA0_12 c i arg3 harg3 arg4 harg4 arg8 x0 x1).read arg8.view (by decide) _, p.read arg9.view (by decide) _]
  simp only [View.readAt_eq_ld, harg3.read_unread, harg4.read_unread, View.ld_unit_zero (S := S1x512x16x64) zeros4]
  refine Eq.trans ?_ (stepA_l x0 x1 i 12 (by decide) slices_S512x16x64_o0_12_0_S512x1x64 u r z)
  open_payloads <;> rfl

theorem canonA1_14 : Upto 1 (kernelRun1_A.sl.HS1_15 (F := Ideal) c i arg3 harg3 arg4 harg4 arg8 arg9 x0 x1) 14 (gL i x0 x1) 0 := by
  have p := canonA1_13 c i arg3 harg3 arg4 harg4 arg8 arg9 x0 x1
  unfold kernelRun1_A.sl.HS1_15
  refine p.step (by decide) _ _ fun u r z => ?_
  open_run_values
  rw [(canonA0_13 c i arg3 harg3 arg4 harg4 arg8 x0 x1).read arg8.view (by decide) _, p.read arg9.view (by decide) _]
  simp only [View.readAt_eq_ld, harg3.read_unread, harg4.read_unread, View.ld_unit_zero (S := S1x512x16x64) zeros4]
  refine Eq.trans ?_ (stepA_l x0 x1 i 13 (by decide) slices_S512x16x64_o0_13_0_S512x1x64 u r z)
  open_payloads <;> rfl

theorem canonA1_15 : Upto 1 (kernelRun1_A.sl.HS1_16 (F := Ideal) c i arg3 harg3 arg4 harg4 arg8 arg9 x0 x1) 15 (gL i x0 x1) 0 := by
  have p := canonA1_14 c i arg3 harg3 arg4 harg4 arg8 arg9 x0 x1
  unfold kernelRun1_A.sl.HS1_16
  refine p.step (by decide) _ _ fun u r z => ?_
  open_run_values
  rw [(canonA0_14 c i arg3 harg3 arg4 harg4 arg8 x0 x1).read arg8.view (by decide) _, p.read arg9.view (by decide) _]
  simp only [View.readAt_eq_ld, harg3.read_unread, harg4.read_unread, View.ld_unit_zero (S := S1x512x16x64) zeros4]
  refine Eq.trans ?_ (stepA_l x0 x1 i 14 (by decide) slices_S512x16x64_o0_14_0_S512x1x64 u r z)
  open_payloads <;> rfl

theorem canonA2_0 : Upto 64 (kernelRun1_A.sl.HS2_1 (F := Ideal)) 0 (gA i x0 x1 x2) 0 := by
  intro h r z
  unfold kernelRun1_A.sl.HS2_1
  rw [View.canon_unit_zero (S := S16x512x64) zeros3, if_neg (Nat.not_lt_zero _)]
  unfold k1_pay3
  simp only [shapeCast_self]
  exact Ideal.ofBits_zero_f32

theorem canonA2_1 : Upto 64 (kernelRun1_A.sl.HS2_2 (F := Ideal) c i arg3 harg3 arg4 harg4 arg5 harg5 arg8 arg10 x0 x1 x2) 1 (gA i x0 x1 x2) 0 := by
  have p := canonA2_0 i x0 x1 x2
  unfold kernelRun1_A.sl.HS2_2
  refine p.step (by decide) _ _ fun u r z => ?_
  open_run_values
  rw [(canonA0_0 i x0 x1).read arg8.view (by decide) _, p.read arg10.view (by decide) _]
  simp only [View.readAt_eq_ld, harg3.read_unread, harg4.read_unread, harg5.read_unread, View.ld_unit_zero (S := S1x512x16x64) zeros4]
  refine Eq.trans ?_ (stepA_acc x0 x1 x2 i 0 (by decide) slices_S512x16x64_o0_0_0_S512x1x64 u r z)
  open_payloads <;> rfl

theorem canonA2_2 : Upto 64 (kernelRun1_A.sl.HS2_3 (F := Ideal) c i arg3 harg3 arg4 harg4 arg5 harg5 arg8 arg10 x0 x1 x2) 2 (gA i x0 x1 x2) 0 := by
  have p := canonA2_1 c i arg3 harg3 arg4 harg4 arg5 harg5 arg8 arg10 x0 x1 x2
  unfold kernelRun1_A.sl.HS2_3
  refine p.step (by decide) _ _ fun u r z => ?_
  open_run_values
  rw [(canonA0_1 c i arg3 harg3 arg4 harg4 arg8 x0 x1).read arg8.view (by decide) _, p.read arg10.view (by decide) _]
  simp only [View.readAt_eq_ld, harg3.read_unread, harg4.read_unread, harg5.read_unread, View.ld_unit_zero (S := S1x512x16x64) zeros4]
  refine Eq.trans ?_ (stepA_acc x0 x1 x2 i 1 (by decide) slices_S512x16x64_o0_1_0_S512x1x64 u r z)
  open_payloads <;> rfl

theorem canonA2_3 : Upto 64 (kernelRun1_A.sl.HS2_4 (F := Ideal) c i arg3 harg3 arg4 harg4 arg5 harg5 arg8 arg10 x0 x1 x2) 3 (gA i x0 x1 x2) 0 := by
  have p := canonA2_2 c i arg3 harg3 arg4 harg4 arg5 harg5 arg8 arg10 x0 x1 x2
  unfold kernelRun1_A.sl.HS2_4
  refine p.step (by decide) _ _ fun u r z => ?_
  open_run_values
  rw [(canonA0_2 c i arg3 harg3 arg4 harg4 arg8 x0 x1).read arg8.view (by decide) _, p.read arg10.view (by decide) _]
  simp only [View.readAt_eq_ld, harg3.read_unread, harg4.read_unread, harg5.read_unread, View.ld_unit_zero (S := S1x512x16x64) zeros4]
  refine Eq.trans ?_ (stepA_acc x0 x1 x2 i 2 (by decide) slices_S512x16x64_o0_2_0_S512x1x64 u r z)
  open_payloads <;> rfl

theorem canonA2_4 : Upto 64 (kernelRun1_A.sl.HS2_5 (F := Ideal) c i arg3 harg3 arg4 harg4 arg5 harg5 arg8 arg10 x0 x1 x2) 4 (gA i x0 x1 x2) 0 := by
  have p := canonA2_3 c i arg3 harg3 arg4 harg4 arg5 harg5 arg8 arg10 x0 x1 x2
  unfold kernelRun1_A.sl.HS2_5
  refine p.step (by decide) _ _ fun u r z => ?_
  open_run_values
  rw [(canonA0_3 c i arg3 harg3 arg4 harg4 arg8 x0 x1).read arg8.view (by decide) _, p.read arg10.view (by decide) _]
  simp only [View.readAt_eq_ld, harg3.read_unread, harg4.read_unread, harg5.read_unread, View.ld_unit_zero (S := S1x512x16x64) zeros4]
  refine Eq.trans ?_ (stepA_acc x0 x1 x2 i 3 (by decide) slices_S512x16x64_o0_3_0_S512x1x64 u r z)
  open_payloads <;> rfl

theorem canonA2_5 : Upto 64 (kernelRun1_A.sl.HS2_6 (F := Ideal) c i arg3 harg3 arg4 harg4 arg5 harg5 arg8 arg10 x0 x1 x2) 5 (gA i x0 x1 x2) 0 := by
  have p := canonA2_4 c i arg3 harg3 arg4 harg4 arg5 harg5 arg8 arg10 x0 x1 x2
  unfold kernelRun1_A.sl.HS2_6
  refine p.step (by decide) _ _ fun u r z => ?_
  open_run_values
  rw [(canonA0_4 c i arg3 harg3 arg4 harg4 arg8 x0 x1).read arg8.view (by decide) _, p.read arg10.view (by decide) _]
  simp only [View.readAt_eq_ld, harg3.read_unread, harg4.read_unread, harg5.read_unread, View.ld_unit_zero (S := S1x512x16x64) zeros4]
  refine Eq.trans ?_ (stepA_acc x0 x1 x2 i 4 (by decide) slices_S512x16x64_o0_4_0_S512x1x64 u r z)
  open_payloads <;> rfl

theorem canonA2_6 : Upto 64 (kernelRun1_A.sl.HS2_7 (F := Ideal) c i arg3 harg3 arg4 harg4 arg5 harg5 arg8 arg10 x0 x1 x2) 6 (gA i x0 x1 x2) 0 := by
  have p := canonA2_5 c i arg3 harg3 arg4 harg4 arg5 harg5 arg8 arg10 x0 x1 x2
  unfold kernelRun1_A.sl.HS2_7
  refine p.step (by decide) _ _ fun u r z => ?_
  open_run_values
  rw [(canonA0_5 c i arg3 harg3 arg4 harg4 arg8 x0 x1).read arg8.view (by decide) _, p.read arg10.view (by decide) _]
  simp only [View.readAt_eq_ld, harg3.read_unread, harg4.read_unread, harg5.read_unread, View.ld_unit_zero (S := S1x512x16x64) zeros4]
  refine Eq.trans ?_ (stepA_acc x0 x1 x2 i 5 (by decide) slices_S512x16x64_o0_5_0_S512x1x64 u r z)
  open_payloads <;> rfl

theorem canonA2_7 : Upto 64 (kernelRun1_A.sl.HS2_8 (F := Ideal) c i arg3 harg3 arg4 harg4 arg5 harg5 arg8 arg10 x0 x1 x2) 7 (gA i x0 x1 x2) 0 := by
  have p := canonA2_6 c i arg3 harg3 arg4 harg4 arg5 harg5 arg8 arg10 x0 x1 x2
  unfold kernelRun1_A.sl.HS2_8
  refine p.step (by decide) _ _ fun u r z => ?_
  open_run_values
  rw [(canonA0_6 c i arg3 harg3 arg4 harg4 arg8 x0 x1).read arg8.view (by decide) _, p.read arg10.view (by decide) _]
  simp only [View.readAt_eq_ld, harg3.read_unread, harg4.read_unread, harg5.read_unread, View.ld_unit_zero (S := S1x512x16x64) zeros4]
  refine Eq.trans ?_ (stepA_acc x0 x1 x2 i 6 (by decide) slices_S512x16x64_o0_6_0_S512x1x64 u r z)
  open_payloads <;> rfl

theorem canonA2_8 : Upto 64 (kernelRun1_A.sl.HS2_9 (F := Ideal) c i arg3 harg3 arg4 harg4 arg5 harg5 arg8 arg10 x0 x1 x2) 8 (gA i x0 x1 x2) 0 := by
  have p := canonA2_7 c i arg3 harg3 arg4 harg4 arg5 harg5 arg8 arg10 x0 x1 x2
  unfold kernelRun1_A.sl.HS2_9
  refine p.step (by decide) _ _ fun u r z => ?_
  open_run_values
  rw [(canonA0_7 c i arg3 harg3 arg4 harg4 arg8 x0 x1).read arg8.view (by decide) _, p.read arg10.view (by decide) _]
  simp only [View.readAt_eq_ld, harg3.read_unread, harg4.read_unread, harg5.read_unread, View.ld_unit_zero (S := S1x512x16x64) zeros4]
  refine Eq.trans ?_ (stepA_acc x0 x1 x2 i 7 (by decide) slices_S512x16x64_o0_7_0_S512x1x64 u r z)
  open_payloads <;> rfl

theorem canonA2_9 : Upto 64 (kernelRun1_A.sl.HS2_10 (F := Ideal) c i arg3 harg3 arg4 harg4 arg5 harg5 arg8 arg10 x0 x1 x2) 9 (gA i x0 x1 x2) 0 := by
  have p := canonA2_8 c i arg3 harg3 arg4 harg4 arg5 harg5 arg8 arg10 x0 x1 x2
  unfold kernelRun1_A.sl.HS2_10
  refine p.step (by decide) _ _ fun u r z => ?_
  open_run_values
  rw [(canonA0_8 c i arg3 harg3 arg4 harg4 arg8 x0 x1).read arg8.view (by decide) _, p.read arg10.view (by decide) _]
  simp only [View.readAt_eq_ld, harg3.read_unread, harg4.read_unread, harg5.read_unread, View.ld_unit_zero (S := S1x512x16x64) zeros4]
  refine Eq.trans ?_ (stepA_acc x0 x1 x2 i 8 (by decide) slices_S512x16x64_o0_8_0_S512x1x64 u r z)
  open_payloads <;> rfl

theorem canonA2_10 : Upto 64 (kernelRun1_A.sl.HS2_11 (F := Ideal) c i arg3 harg3 arg4 harg4 arg5 harg5 arg8 arg10 x0 x1 x2) 10 (gA i x0 x1 x2) 0 := by
  have p := canonA2_9 c i arg3 harg3 arg4 harg4 arg5 harg5 arg8 arg10 x0 x1 x2
  unfold kernelRun1_A.sl.HS2_11
  refine p.step (by decide) _ _ fun u r z => ?_
  open_run_values
  rw [(canonA0_9 c i arg3 harg3 arg4 harg4 arg8 x0 x1).read arg8.view (by decide) _, p.read arg10.view (by decide) _]
  simp only [View.readAt_eq_ld, harg3.read_unread, harg4.read_unread, harg5.read_unread, View.ld_unit_zero (S := S1x512x16x64) zeros4]
  refine Eq.trans ?_ (stepA_acc x0 x1 x2 i 9 (by decide) slices_S512x16x64_o0_9_0_S512x1x64 u r z)
  open_payloads <;> rfl

theorem canonA2_11 : Upto 64 (kernelRun1_A.sl.HS2_12 (F := Ideal) c i arg3 harg3 arg4 harg4 arg5 harg5 arg8 arg10 x0 x1 x2) 11 (gA i x0 x1 x2) 0 := by
  have p := canonA2_10 c i arg3 harg3 arg4 harg4 arg5 harg5 arg8 arg10 x0 x1 x2
  unfold kernelRun1_A.sl.HS2_12
  refine p.step (by decide) _ _ fun u r z => ?_
  open_run_values
  rw [(canonA0_10 c i arg3 harg3 arg4 harg4 arg8 x0 x1).read arg8.view (by decide) _, p.read arg10.view (by decide) _]
  simp only [View.readAt_eq_ld, harg3.read_unread, harg4.read_unread, harg5.read_unread, View.ld_unit_zero (S := S1x512x16x64) zeros4]
  refine Eq.trans ?_ (stepA_acc x0 x1 x2 i 10 (by decide) slices_S512x16x64_o0_10_0_S512x1x64 u r z)
  open_payloads <;> rfl

theorem canonA2_12 : Upto 64 (kernelRun1_A.sl.HS2_13 (F := Ideal) c i arg3 harg3 arg4 harg4 arg5 harg5 arg8 arg10 x0 x1 x2) 12 (gA i x0 x1 x2) 0 := by
  have p := canonA2_11 c i arg3 harg3 arg4 harg4 arg5 harg5 arg8 arg10 x0 x1 x2
  unfold kernelRun1_A.sl.HS2_13
  refine p.step (by decide) _ _ fun u r z => ?_
  open_run_values
  rw [(canonA0_11 c i arg3 harg3 arg4 harg4 arg8 x0 x1).read arg8.view (by decide) _, p.read arg10.view (by decide) _]
  simp only [View.readAt_eq_ld, harg3.read_unread, harg4.read_unread, harg5.read_unread, View.ld_unit_zero (S := S1x512x16x64) zeros4]
  refine Eq.trans ?_ (stepA_acc x0 x1 x2 i 11 (by decide) slices_S512x16x64_o0_11_0_S512x1x64 u r z)
  open_payloads <;> rfl

theorem canonA2_13 : Upto 64 (kernelRun1_A.sl.HS2_14 (F := Ideal) c i arg3 harg3 arg4 harg4 arg5 harg5 arg8 arg10 x0 x1 x2) 13 (gA i x0 x1 x2) 0 := by
  have p := canonA2_12 c i arg3 harg3 arg4 harg4 arg5 harg5 arg8 arg10 x0 x1 x2
  unfold kernelRun1_A.sl.HS2_14
  refine p.step (by decide) _ _ fun u r z => ?_
  open_run_values
  rw [(canonA0_12 c i arg3 harg3 arg4 harg4 arg8 x0 x1).read arg8.view (by decide) _, p.read arg10.view (by decide) _]
  simp only [View.readAt_eq_ld, harg3.read_unread, harg4.read_unread, harg5.read_unread, View.ld_unit_zero (S := S1x512x16x64) zeros4]
  refine Eq.trans ?_ (stepA_acc x0 x1 x2 i 12 (by decide) slices_S512x16x64_o0_12_0_S512x1x64 u r z)
  open_payloads <;> rfl

theorem canonA2_14 : Upto 64 (kernelRun1_A.sl.HS2_15 (F := Ideal) c i arg3 harg3 arg4 harg4 arg5 harg5 arg8 arg10 x0 x1 x2) 14 (gA i x0 x1 x2) 0 := by
  have p := canonA2_13 c i arg3 harg3 arg4 harg4 arg5 harg5 arg8 arg10 x0 x1 x2
  unfold kernelRun1_A.sl.HS2_15
  refine p.step (by decide) _ _ fun u r z => ?_
  open_run_values
  rw [(canonA0_13 c i arg3 harg3 arg4 harg4 arg8 x0 x1).read arg8.view (by decide) _, p.read arg10.view (by decide) _]
  simp only [View.readAt_eq_ld, harg3.read_unread, harg4.read_unread, harg5.read_unread, View.ld_unit_zero (S := S1x512x16x64) zeros4]
  refine Eq.trans ?_ (stepA_acc x0 x1 x2 i 13 (by decide) slices_S512x16x64_o0_13_0_S512x1x64 u r z)
  open_payloads <;> rfl

theorem canonA2_15 : Upto 64 (kernelRun1_A.sl.HS2_16 (F := Ideal) c i arg3 harg3 arg4 harg4 arg5 harg5 arg8 arg10 x0 x1 x2) 15 (gA i x0 x1 x2) 0 := by
  have p := canonA2_14 c i arg3 harg3 arg4 harg4 arg5 harg5 arg8 arg10 x0 x1 x2
  unfold kernelRun1_A.sl.HS2_16
  refine p.step (by decide) _ _ fun u r z => ?_
  open_run_values
  rw [(canonA0_14 c i arg3 harg3 arg4 harg4 arg8 x0 x1).read arg8.view (by decide) _, p.read arg10.view (by decide) _]
  simp only [View.readAt_eq_ld, harg3.read_unread, harg4.read_unread, harg5.read_unread, View.ld_unit_zero (S := S1x512x16x64) zeros4]
  refine Eq.trans ?_ (stepA_acc x0 x1 x2 i 14 (by decide) slices_S512x16x64_o0_14_0_S512x1x64 u r z)
  open_payloads <;> rfl

/-- With all sixteen heads stored, the run's own lists hold one step from the reset state. -/
theorem valA_m (h : Fin 16) (r : Fin 512) :
    View.canon (kernelRun1_A (F := Ideal) c i arg3 harg3 arg4 harg4 arg5 harg5 arg6 harg6 arg7 harg7 arg8 harg8 arg9 harg9 arg10 harg10 hc0 hc1 hc2 x0 x1 x2 x3).1 (ix3 h r 0) = Cert.Att.stepM (Cert.Att.tileScore (qOf x0) (qOf x1) (mskOf i)) Cert.Att.m0 h r := by
  have p := canonA0_15 c i arg3 harg3 arg4 harg4 arg8 x0 x1
  have key : Upto 1 (kernelRun1_A (F := Ideal) c i arg3 harg3 arg4 harg4 arg5 harg5 arg6 harg6 arg7 harg7 arg8 harg8 arg9 harg9 arg10 harg10 hc0 hc1 hc2 x0 x1 x2 x3).1 16 (gM i x0 x1) ⊥ := by
    unfold kernelRun1_A
    dsimp only
    refine p.step (by decide) _ _ fun u r z => ?_
    open_run_values
    rw [p.read arg8.view (by decide) _]
    simp only [View.readAt_eq_ld, harg3.read_unread, harg4.read_unread, View.ld_unit_zero (S := S1x512x16x64) zeros4]
    refine Eq.trans ?_ (stepA_m x0 x1 i 15 (by decide) slices_S512x16x64_o0_15_0_S512x1x64 u r z)
    open_payloads <;> rfl
  rw [key h r 0, if_pos h.isLt]

theorem valA_l (h : Fin 16) (r : Fin 512) :
    View.canon (kernelRun1_A (F := Ideal) c i arg3 harg3 arg4 harg4 arg5 harg5 arg6 harg6 arg7 harg7 arg8 harg8 arg9 harg9 arg10 harg10 hc0 hc1 hc2 x0 x1 x2 x3).2.1 (ix3 h r 0) = Cert.Att.stepL (Cert.Att.tileScore (qOf x0) (qOf x1) (mskOf i)) Cert.Att.m0 Cert.Att.l0 h r := by
  have p := canonA1_15 c i arg3 harg3 arg4 harg4 arg8 arg9 x0 x1
  have key : Upto 1 (kernelRun1_A (F := Ideal) c i arg3 harg3 arg4 harg4 arg5 harg5 arg6 harg6 arg7 harg7 arg8 harg8 arg9 harg9 arg10 harg10 hc0 hc1 hc2 x0 x1 x2 x3).2.1 16 (gL i x0 x1) 0 := by
    unfold kernelRun1_A
    dsimp only
    refine p.step (by decide) _ _ fun u r z => ?_
    open_run_values
    rw [(canonA0_15 c i arg3 harg3 arg4 harg4 arg8 x0 x1).read arg8.view (by decide) _, p.read arg9.view (by decide) _]
    simp only [View.readAt_eq_ld, harg3.read_unread, harg4.read_unread, View.ld_unit_zero (S := S1x512x16x64) zeros4]
    refine Eq.trans ?_ (stepA_l x0 x1 i 15 (by decide) slices_S512x16x64_o0_15_0_S512x1x64 u r z)
    open_payloads <;> rfl
  rw [key h r 0, if_pos h.isLt]

theorem valA_acc (h : Fin 16) (r : Fin 512) (j : Fin 64) :
    View.canon (kernelRun1_A (F := Ideal) c i arg3 harg3 arg4 harg4 arg5 harg5 arg6 harg6 arg7 harg7 arg8 harg8 arg9 harg9 arg10 harg10 hc0 hc1 hc2 x0 x1 x2 x3).2.2.1 (ix3 h r j) = Cert.Att.stepAcc (Cert.Att.tileScore (qOf x0) (qOf x1) (mskOf i)) (qOf x2) Cert.Att.m0 Cert.Att.acc0 h r j := by
  have p := canonA2_15 c i arg3 harg3 arg4 harg4 arg5 harg5 arg8 arg10 x0 x1 x2
  have key : Upto 64 (kernelRun1_A (F := Ideal) c i arg3 harg3 arg4 harg4 arg5 harg5 arg6 harg6 arg7 harg7 arg8 harg8 arg9 harg9 arg10 harg10 hc0 hc1 hc2 x0 x1 x2 x3).2.2.1 16 (gA i x0 x1 x2) 0 := by
    unfold kernelRun1_A
    dsimp only
    refine p.step (by decide) _ _ fun u r z => ?_
    open_run_values
    rw [(canonA0_15 c i arg3 harg3 arg4 harg4 arg8 x0 x1).read arg8.view (by decide) _, p.read arg10.view (by decide) _]
    simp only [View.readAt_eq_ld, harg3.read_unread, harg4.read_unread, harg5.read_unread, View.ld_unit_zero (S := S1x512x16x64) zeros4]
    refine Eq.trans ?_ (stepA_acc x0 x1 x2 i 15 (by decide) slices_S512x16x64_o0_15_0_S512x1x64 u r z)
    open_payloads <;> rfl
  rw [key h r j, if_pos h.isLt]

end Cert.KernelIdeal.Hand

end
-- ==== Proof.R1ValB2.lean ====
import proofs.«404193_j6768868458990_3_alg».proof.Proof.R1ValB1

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx
open scoped BigOperators

theorem zero_off4 : (![0, 0, 0, 0] : Fin 4 → Nat) = fun _ => 0 := funext fun a => by fin_cases a <;> rfl

theorem emb_head1 (o : Nat) (ho : o < 16) (inb) (u : Fin 1) (r : Fin 512) (z : Fin 1) :
    (Rect.unit (s := S16x512x1) ![o, 0, 0] S1x512x1.size inb).emb (ix3 u r z) = ix3 (⟨o, ho⟩ : Fin 16) r z := by
  funext a
  apply Fin.ext
  have hu : u.val = 0 := by omega
  match a with
  | ⟨0, _⟩ => show o + 1 * u.val = o; omega
  | ⟨1, _⟩ => show 0 + 1 * r.val = r.val; omega
  | ⟨2, _⟩ => show 0 + 1 * z.val = z.val; omega

theorem emb_head64 (o : Nat) (ho : o < 16) (inb) (u : Fin 1) (r : Fin 512) (j : Fin 64) :
    (Rect.unit (s := S16x512x64) ![o, 0, 0] S1x512x64.size inb).emb (ix3 u r j) = ix3 (⟨o, ho⟩ : Fin 16) r j := by
  funext a
  apply Fin.ext
  have hu : u.val = 0 := by omega
  match a with
  | ⟨0, _⟩ => show o + 1 * u.val = o; omega
  | ⟨1, _⟩ => show 0 + 1 * r.val = r.val; omega
  | ⟨2, _⟩ => show 0 + 1 * j.val = j.val; omega

section Step

variable (i : grid1.Coords) (x0 x1 x2 : Vec Ideal S1x512x16x64 .bf16) (xs0 xs1 : Vec Ideal S16x512x1 .f32)
  (xs2 : Vec Ideal S16x512x64 .f32)

abbrev scoreB : Fin 16 → Fin 512 → Fin 512 → EReal := Cert.Att.tileScore (qOf x0) (qOf x1) (mskOf i)

def stepM_at : S16x512x1.Idx → EReal := fun y => Cert.Att.stepM (scoreB i x0 x1) (sOf xs0) (y 0) (y 1)
def stepL_at : S16x512x1.Idx → EReal := fun y => Cert.Att.stepL (scoreB i x0 x1) (sOf xs0) (sOf xs1) (y 0) (y 1)
def stepAcc_at : S16x512x64.Idx → EReal :=
  fun y => Cert.Att.stepAcc (scoreB i x0 x1) (qOf x2) (sOf xs0) (aOf xs2) (y 0) (y 1) (y 2)

theorem newMax_eq (o : Nat) (ho : o < 16) (inb) (r : Fin 512) :
    newMax (View.ld xs0 (Rect.unit (s := S16x512x1) ![o, 0, 0] S1x512x1.size inb)) (fun r c => scoreB i x0 x1 ⟨o, ho⟩ r c) r
      = Cert.Att.stepM (scoreB i x0 x1) (sOf xs0) ⟨o, ho⟩ r := by
  unfold newMax Cert.Att.stepM sOf
  show max (xs0 ((Rect.unit (s := S16x512x1) ![o, 0, 0] S1x512x1.size inb).emb (ix3 0 r 0))) _ = _
  rw [emb_head1 o ho]

theorem pieceM (o : Nat) (ho : o < 16) (hs : S512x16x64.Slices ![0, o, 0] S512x1x64) (inb)
    (x : (Rect.unit (s := S16x512x1) ![o, 0, 0] S1x512x1.size inb).shape.Idx) :
    headM (View.ld xs0 (Rect.unit (s := S16x512x1) ![o, 0, 0] S1x512x1.size inb))
        (headScore o hs (k1_pay8 x0) (k1_pay9 x1) (k1_pay11 (BitVec.ofNat 32 (i 1).val) (BitVec.ofNat 32 (i 2).val))) x
      = stepM_at i x0 x1 xs0 ((Rect.unit (s := S16x512x1) ![o, 0, 0] S1x512x1.size inb).emb x) := by
  obtain ⟨u, r, z, rfl⟩ : ∃ (u : Fin 1) (r : Fin 512) (z : Fin 1), x = ix3 u r z := ⟨x 0, x 1, x 2, eq_ix3 x⟩
  rw [headM_apply _ _ (fun r c => scoreB i x0 x1 ⟨o, ho⟩ r c) (fun r c => headScore_apply o ho hs x0 x1 i r c),
    emb_head1 o ho, newMax_eq]
  rfl

theorem pieceL (o : Nat) (ho : o < 16) (hs : S512x16x64.Slices ![0, o, 0] S512x1x64) (inb)
    (x : (Rect.unit (s := S16x512x1) ![o, 0, 0] S1x512x1.size inb).shape.Idx) :
    headL (View.ld xs0 (Rect.unit (s := S16x512x1) ![o, 0, 0] S1x512x1.size inb))
        (View.ld xs1 (Rect.unit (s := S16x512x1) ![o, 0, 0] S1x512x1.size inb))
        (headScore o hs (k1_pay8 x0) (k1_pay9 x1) (k1_pay11 (BitVec.ofNat 32 (i 1).val) (BitVec.ofNat 32 (i 2).val))) x
      = stepL_at i x0 x1 xs0 xs1 ((Rect.unit (s := S16x512x1) ![o, 0, 0] S1x512x1.size inb).emb x) := by
  obtain ⟨u, r, z, rfl⟩ : ∃ (u : Fin 1) (r : Fin 512) (z : Fin 1), x = ix3 u r z := ⟨x 0, x 1, x 2, eq_ix3 x⟩
  rw [headL_apply _ _ _ (fun r c => scoreB i x0 x1 ⟨o, ho⟩ r c) (fun r c => headScore_apply o ho hs x0 x1 i r c),
    emb_head1 o ho, newMax_eq]
  have hz : z = 0 := Fin.ext (by omega)
  subst hz
  unfold stepL_at Cert.Att.stepL sOf
  show Ideal.exp (xs0 ((Rect.unit (s := S16x512x1) ![o, 0, 0] S1x512x1.size inb).emb (ix3 0 r 0)) - _)
      * xs1 ((Rect.unit (s := S16x512x1) ![o, 0, 0] S1x512x1.size inb).emb (ix3 0 r 0)) + _ = _
  rw [emb_head1 o ho]

theorem pieceAcc (o : Nat) (ho : o < 16) (hs : S512x16x64.Slices ![0, o, 0] S512x1x64) (inb1) (inb)
    (x : (Rect.unit (s := S16x512x64) ![o, 0, 0] S1x512x64.size inb).shape.Idx) :
    headAcc (View.ld xs0 (Rect.unit (s := S16x512x1) ![o, 0, 0] S1x512x1.size inb1))
        (View.ld xs2 (Rect.unit (s := S16x512x64) ![o, 0, 0] S1x512x64.size inb))
        (headScore o hs (k1_pay8 x0) (k1_pay9 x1) (k1_pay11 (BitVec.ofNat 32 (i 1).val) (BitVec.ofNat 32 (i 2).val)))
        (headMat o hs (k1_pay10 x2)) x
      = stepAcc_at i x0 x1 x2 xs0 xs2 ((Rect.unit (s := S16x512x64) ![o, 0, 0] S1x512x64.size inb).emb x) := by
  obtain ⟨u, r, j, rfl⟩ : ∃ (u : Fin 1) (r : Fin 512) (j : Fin 64), x = ix3 u r j := ⟨x 0, x 1, x 2, eq_ix3 x⟩
  rw [headAcc_apply _ _ _ (fun r c => scoreB i x0 x1 ⟨o, ho⟩ r c) (fun r c => headScore_apply o ho hs x0 x1 i r c),
    emb_head64 o ho, newMax_eq]
  unfold stepAcc_at Cert.Att.stepAcc sOf aOf
  show Ideal.exp (xs0 ((Rect.unit (s := S16x512x1) ![o, 0, 0] S1x512x1.size inb1).emb (ix3 0 r 0)) - _)
      * xs2 ((Rect.unit (s := S16x512x64) ![o, 0, 0] S1x512x64.size inb).emb (ix3 0 r j)) + _ = _
  rw [emb_head1 o ho, emb_head64 o ho]
  refine congrArg (fun t => _ + t) (Finset.sum_congr rfl fun c _ => ?_)
  unfold k1_pay10
  rw [headMat_apply o ho]

end Step

end Cert.KernelIdeal.Hand

end
-- ==== Proof.R1ValB.lean ====
import proofs.«404193_j6768868458990_3_alg».proof.Proof.R1Dat
import proofs.«404193_j6768868458990_3_alg».proof.Proof.R1RunB
import proofs.«404193_j6768868458990_3_alg».proof.Proof.R1ValB2

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx
open scoped BigOperators

section Run

variable (c : Dev nD) (i : grid1.Coords) (arg3 : Memref sig .tc .vmem S1x512x16x64 .bf16) (harg3 : arg3.IsWhole) (arg4 : Memref sig .tc .vmem S1x512x16x64 .bf16) (harg4 : arg4.IsWhole) (arg5 : Memref sig .tc .vmem S1x512x16x64 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole)
    (hc0 : ¬cond1_0 i) (hc1 : cond1_1 i) (hc2 : ¬cond1_2 i)
    (x0 x1 x2 : Vec Ideal S1x512x16x64 .bf16) (x3 : Vec Ideal S1024x1024 .bf16) (xs0 xs1 : Vec Ideal S16x512x1 .f32) (xs2 : Vec Ideal S16x512x64 .f32)

set_option maxHeartbeats 4000000 in

theorem piecesB_m : ∀ p ∈ (kernelRun1_B (F := Ideal) c i arg3 harg3 arg4 harg4 arg5 harg5 arg6 harg6 arg7 harg7 arg8 harg8 arg9 harg9 arg10 harg10 hc0 hc1 hc2 x0 x1 x2 x3 xs0 xs1 xs2).1, ∀ x : p.1.shape.Idx, p.2 x = stepM_at i x0 x1 xs0 (p.1.emb x) := by
  unfold kernelRun1_B
  dsimp only
  sl_unfold_run_names
  simp only [View.readAt_eq_ld, harg3.read_unread, harg4.read_unread, harg5.read_unread, harg8.read_unread,
    harg9.read_unread, harg10.read_unread, View.ld_unit_zero (S := S1x512x16x64) zero_off4]
  intro p hp
  simp only [List.mem_cons, List.not_mem_nil, or_false] at hp
  rcases hp with rfl | rfl | rfl | rfl | rfl | rfl | rfl | rfl | rfl | rfl | rfl | rfl | rfl | rfl | rfl | rfl <;>
    exact pieceM i x0 x1 xs0 _ (by omega) _ _

set_option maxHeartbeats 4000000 in

theorem piecesB_l : ∀ p ∈ (kernelRun1_B (F := Ideal) c i arg3 harg3 arg4 harg4 arg5 harg5 arg6 harg6 arg7 harg7 arg8 harg8 arg9 harg9 arg10 harg10 hc0 hc1 hc2 x0 x1 x2 x3 xs0 xs1 xs2).2.1, ∀ x : p.1.shape.Idx, p.2 x = stepL_at i x0 x1 xs0 xs1 (p.1.emb x) := by
  unfold kernelRun1_B
  dsimp only
  sl_unfold_run_names
  simp only [View.readAt_eq_ld, harg3.read_unread, harg4.read_unread, harg5.read_unread, harg8.read_unread,
    harg9.read_unread, harg10.read_unread, View.ld_unit_zero (S := S1x512x16x64) zero_off4]
  intro p hp
  simp only [List.mem_cons, List.not_mem_nil, or_false] at hp
  rcases hp with rfl | rfl | rfl | rfl | rfl | rfl | rfl | rfl | rfl | rfl | rfl | rfl | rfl | rfl | rfl | rfl <;>
    exact pieceL i x0 x1 xs0 xs1 _ (by omega) _ _

set_option maxHeartbeats 4000000 in

theorem piecesB_acc : ∀ p ∈ (kernelRun1_B (F := Ideal) c i arg3 harg3 arg4 harg4 arg5 harg5 arg6 harg6 arg7 harg7 arg8 harg8 arg9 harg9 arg10 harg10 hc0 hc1 hc2 x0 x1 x2 x3 xs0 xs1 xs2).2.2.1, ∀ x : p.1.shape.Idx, p.2 x = stepAcc_at i x0 x1 x2 xs0 xs2 (p.1.emb x) := by
  unfold kernelRun1_B
  dsimp only
  sl_unfold_run_names
  simp only [View.readAt_eq_ld, harg3.read_unread, harg4.read_unread, harg5.read_unread, harg8.read_unread,
    harg9.read_unread, harg10.read_unread, View.ld_unit_zero (S := S1x512x16x64) zero_off4]
  intro p hp
  simp only [List.mem_cons, List.not_mem_nil, or_false] at hp
  rcases hp with rfl | rfl | rfl | rfl | rfl | rfl | rfl | rfl | rfl | rfl | rfl | rfl | rfl | rfl | rfl | rfl <;>
    exact pieceAcc i x0 x1 x2 xs0 xs2 _ (by omega) _ _ _

/-- The sixteen stored slices tile the operand, and each holds its head's update of what the point before left. -/
theorem valB_m (h : Fin 16) (r : Fin 512) :
    View.canon (kernelRun1_B (F := Ideal) c i arg3 harg3 arg4 harg4 arg5 harg5 arg6 harg6 arg7 harg7 arg8 harg8 arg9 harg9 arg10 harg10 hc0 hc1 hc2 x0 x1 x2 x3 xs0 xs1 xs2).1 (ix3 h r 0)
      = Cert.Att.stepM (Cert.Att.tileScore (qOf x0) (qOf x1) (mskOf i)) (sOf xs0) h r :=
  View.canon_apply_of_pieces (stepM_at i x0 x1 xs0) _
    (piecesB_m c i arg3 harg3 arg4 harg4 arg5 harg5 arg6 harg6 arg7 harg7 arg8 harg8 arg9 harg9 arg10 harg10 hc0 hc1 hc2 x0 x1 x2 x3 xs0 xs1 xs2)
    (ix3 h r 0)
    (scover1_B_0 (F := Ideal) c i arg3 harg3 arg4 harg4 arg5 harg5 arg6 harg6 arg7 harg7 arg8 harg8 arg9 harg9 arg10 harg10 hc0 hc1 hc2 x0 x1 x2 x3 xs0 xs1 xs2 _)

theorem valB_l (h : Fin 16) (r : Fin 512) :
    View.canon (kernelRun1_B (F := Ideal) c i arg3 harg3 arg4 harg4 arg5 harg5 arg6 harg6 arg7 harg7 arg8 harg8 arg9 harg9 arg10 harg10 hc0 hc1 hc2 x0 x1 x2 x3 xs0 xs1 xs2).2.1 (ix3 h r 0)
      = Cert.Att.stepL (Cert.Att.tileScore (qOf x0) (qOf x1) (mskOf i)) (sOf xs0) (sOf xs1) h r :=
  View.canon_apply_of_pieces (stepL_at i x0 x1 xs0 xs1) _
    (piecesB_l c i arg3 harg3 arg4 harg4 arg5 harg5 arg6 harg6 arg7 harg7 arg8 harg8 arg9 harg9 arg10 harg10 hc0 hc1 hc2 x0 x1 x2 x3 xs0 xs1 xs2)
    (ix3 h r 0)
    (scover1_B_1 (F := Ideal) c i arg3 harg3 arg4 harg4 arg5 harg5 arg6 harg6 arg7 harg7 arg8 harg8 arg9 harg9 arg10 harg10 hc0 hc1 hc2 x0 x1 x2 x3 xs0 xs1 xs2 _)

theorem valB_acc (h : Fin 16) (r : Fin 512) (j : Fin 64) :
    View.canon (kernelRun1_B (F := Ideal) c i arg3 harg3 arg4 harg4 arg5 harg5 arg6 harg6 arg7 harg7 arg8 harg8 arg9 harg9 arg10 harg10 hc0 hc1 hc2 x0 x1 x2 x3 xs0 xs1 xs2).2.2.1 (ix3 h r j)
      = Cert.Att.stepAcc (Cert.Att.tileScore (qOf x0) (qOf x1) (mskOf i)) (qOf x2) (sOf xs0) (aOf xs2) h r j :=
  View.canon_apply_of_pieces (stepAcc_at i x0 x1 x2 xs0 xs2) _
    (piecesB_acc c i arg3 harg3 arg4 harg4 arg5 harg5 arg6 harg6 arg7 harg7 arg8 harg8 arg9 harg9 arg10 harg10 hc0 hc1 hc2 x0 x1 x2 x3 xs0 xs1 xs2)
    (ix3 h r j)
    (scover1_B_2 (F := Ideal) c i arg3 harg3 arg4 harg4 arg5 harg5 arg6 harg6 arg7 harg7 arg8 harg8 arg9 harg9 arg10 harg10 hc0 hc1 hc2 x0 x1 x2 x3 xs0 xs1 xs2 _)

end Run

end Cert.KernelIdeal.Hand

end
-- ==== Proof.R1ValD.lean ====
import proofs.«404193_j6768868458990_3_alg».proof.Proof.R1RunD
import proofs.«404193_j6768868458990_3_alg».proof.Proof.R1Coords
import Idealize.ShloMosaic.Lib.Pipeline.Value
import Idealize.ShloMosaic.Lib.ValueIdx
import Idealize.ShloMosaic.Lib.IdealHost
import Idealize.ShloMosaic.Lib.WholeRead
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx
open scoped BigOperators

abbrev mm1 : DotDims S512x1024 S1024x1024 S512x1024 := dot_S512x1024_S1024x1024_S512x1024_1_0_0_1_n_n

theorem mm1_lhs_row (j : S512x1024.Idx) (q : mm1.contr.Idx) : (mm1.lhsIdx j q 0).val = (j 0).val := by
  unfold DotDims.lhsIdx
  rw [dif_neg (show ¬(0 : Fin S512x1024.rank) ∈ mm1.lhsBatch by decide),
    dif_pos (show (0 : Fin S512x1024.rank) ∈ mm1.lhsNonContracting by decide)]
  rfl

theorem mm1_lhs_col (j : S512x1024.Idx) (q : mm1.contr.Idx) : (mm1.lhsIdx j q 1).val = (q ⟨0, by decide⟩).val :=
  mm1.lhsIdx_val_of_single rfl j q

theorem mm1_rhs_row (j : S512x1024.Idx) (q : mm1.contr.Idx) : (mm1.rhsIdx j q 0).val = (q ⟨0, by decide⟩).val :=
  mm1.rhsIdx_val_of_single rfl j q

theorem mm1_rhs_col (j : S512x1024.Idx) (q : mm1.contr.Idx) : (mm1.rhsIdx j q 1).val = (j 1).val := by
  unfold DotDims.rhsIdx
  rw [dif_neg (show ¬(1 : Fin S1024x1024.rank) ∈ mm1.rhsBatch by decide),
    dif_pos (show (1 : Fin S1024x1024.rank) ∈ mm1.rhsNonContracting by decide)]
  rfl

theorem mm1_apply (a : FVec Ideal S512x1024 .bf16) (b : FVec Ideal S1024x1024 .bf16) (r : Fin 512) (e' : Fin 1024) :
    matmul mm1 none a b (constant S512x1024 .f32 0x00000000#32) (ix2 r e') = ∑ k : Fin 1024, a (ix2 r k) * b (ix2 k e') := by
  simp only [matmul]
  rw [Ideal.matmul_constant_zero_apply, ← Equiv.sum_comp (ValueIdx.contrEquiv1 mm1 1024 rfl rfl).symm]
  refine Finset.sum_congr rfl fun k _ => ?_
  have hk := ValueIdx.contrEquiv1_symm_val mm1 1024 rfl rfl k
  have el : mm1.lhsIdx (ix2 r e') ((ValueIdx.contrEquiv1 mm1 1024 rfl rfl).symm k) = ix2 r k := funext fun d => Fin.ext (by
    match d with
    | ⟨0, _⟩ => exact mm1_lhs_row _ _
    | ⟨1, _⟩ => exact (mm1_lhs_col _ _).trans hk)
  have er : mm1.rhsIdx (ix2 r e') ((ValueIdx.contrEquiv1 mm1 1024 rfl rfl).symm k) = ix2 k e' := funext fun d => Fin.ext (by
    match d with
    | ⟨0, _⟩ => exact (mm1_rhs_row _ _).trans hk
    | ⟨1, _⟩ => exact mm1_rhs_col _ _)
  rw [el, er]

theorem k1_pay7_apply (v9 : Vec Ideal S16x512x1 .f32) (v12 : Vec Ideal S16x512x64 .f32) (v18 : Vec Ideal S1024x1024 .bf16)
    (r : Fin 512) (e' : Fin 1024) :
    k1_pay7 v9 v12 v18 (ix3 0 r e')
      = ∑ e : Fin 1024, (v12 (ix3 (Cert.Att.headOf e) r (Cert.Att.featOf e)) * Ideal.div 1 (v9 (ix3 (Cert.Att.headOf e) r 0)))
          * v18 (ix2 e e') := by
  unfold k1_pay7
  dsimp only
  refine (shapeCast_apply _ _ (ix3 0 r e') (ix2 r e') (by
    rewrite [Shape.rowMajor_val_three, Shape.rowMajor_val_two]
    show r.val * 1024 + e'.val = (0 * 512 + r.val) * 1024 + e'.val; omega)).trans ?_
  rw [shapeCast_self]
  refine (mm1_apply _ _ r e').trans ?_
  refine Finset.sum_congr rfl fun e _ => ?_
  refine congrArg (· * v18 (ix2 e e')) ?_
  rw [ValueIdx.truncf_apply]
  refine (shapeCast_apply _ _ (ix2 r e) (ix3 r (Cert.Att.headOf e) (Cert.Att.featOf e)) (by
    rewrite [Shape.rowMajor_val_three, Shape.rowMajor_val_two]
    have hr := r.isLt; have he := e.isLt
    show (r.val * 16 + e.val / 64) * 64 + e.val % 64 = r.val * 1024 + e.val; omega)).trans ?_
  refine (transpose_apply _ _ _ (ix3 r (Cert.Att.headOf e) (Cert.Att.featOf e))
    (ix3 (Cert.Att.headOf e) r (Cert.Att.featOf e)) (fun b => match b with
      | ⟨0, _⟩ => rfl
      | ⟨1, _⟩ => rfl
      | ⟨2, _⟩ => rfl)).trans ?_
  rw [ValueIdx.mulf_apply]
  refine congrArg (v12 (ix3 (Cert.Att.headOf e) r (Cert.Att.featOf e)) * ·) ?_
  refine (broadcastTo_apply _ _ (ix3 (Cert.Att.headOf e) r (Cert.Att.featOf e)) (ix3 (Cert.Att.headOf e) r (0 : Fin 1))
    (fun a => match a with
      | ⟨0, _⟩ => rfl
      | ⟨1, _⟩ => rfl
      | ⟨2, _⟩ => rfl)).trans ?_
  rw [ValueIdx.divf_apply, ValueIdx.broadcast_apply]
  show Ideal.div (Ideal.ofBits .f32 0x3F800000#32) _ = _
  rw [Ideal.ofBits_one_f32]

theorem zero_off3 : (![0, 0, 0] : Fin 3 → Nat) = fun _ => 0 := funext fun a => by fin_cases a <;> rfl

theorem ldD_l {arg9 : Memref sig .tc .vmem S16x512x1 .f32} (harg9 : arg9.IsWhole) (xs1 : Vec Ideal S16x512x1 .f32) :
    View.readAt (Elt Ideal) arg9.view
      (Rect.unit (s := S16x512x1) ![0, 0, 0] S16x512x1.size inb_S16x512x1_S16x512x1_0_0_0).toLoadRect (harg9.unread xs1) = xs1 := by
  funext y
  rw [harg9.readAt_unread]
  refine congrArg xs1 (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem ldD_acc {arg10 : Memref sig .tc .vmem S16x512x64 .f32} (harg10 : arg10.IsWhole) (xs2 : Vec Ideal S16x512x64 .f32) :
    View.readAt (Elt Ideal) arg10.view
      (Rect.unit (s := S16x512x64) ![0, 0, 0] S16x512x64.size inb_S16x512x64_S16x512x64_0_0_0).toLoadRect (harg10.unread xs2) = xs2 := by
  funext y
  rw [harg10.readAt_unread]
  refine congrArg xs2 (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem ldD_w {arg6 : Memref sig .tc .vmem S1024x1024 .bf16} (harg6 : arg6.IsWhole) (x3 : Vec Ideal S1024x1024 .bf16) :
    View.readAt (Elt Ideal) arg6.view
      (Rect.unit (s := S1024x1024) ![0, 0] S1024x1024.size inb_S1024x1024_S1024x1024_0_0).toLoadRect (harg6.unread x3) = x3 := by
  funext y
  rw [harg6.readAt_unread]
  refine congrArg x3 (funext fun a => Fin.ext ?_)
  match a with
  | ⟨0, _⟩ => show 0 + 1 * (y 0).val = (y 0).val; omega
  | ⟨1, _⟩ => show 0 + 1 * (y 1).val = (y 1).val; omega

section CaseD
variable (c : Dev nD) (i : grid1.Coords) (arg3 : Memref sig .tc .vmem S1x512x16x64 .bf16) (harg3 : arg3.IsWhole) (arg4 : Memref sig .tc .vmem S1x512x16x64 .bf16) (harg4 : arg4.IsWhole) (arg5 : Memref sig .tc .vmem S1x512x16x64 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole)
    (hc0 : ¬cond1_0 i) (hc1 : ¬cond1_1 i) (hc2 : cond1_2 i)
    (x0 x1 x2 : Vec Ideal S1x512x16x64 .bf16) (x3 : Vec Ideal S1024x1024 .bf16) (xs0 xs1 : Vec Ideal S16x512x1 .f32) (xs2 : Vec Ideal S16x512x64 .f32)

theorem valD_out (r : Fin 512) (e' : Fin 1024) :
    View.canon (kernelRun1_D (F := Ideal) c i arg3 harg3 arg4 harg4 arg5 harg5 arg6 harg6 arg7 harg7 arg8 harg8 arg9 harg9 arg10 harg10 hc0 hc1 hc2 x0 x1 x2 x3 xs0 xs1 xs2).1 (ix3 0 r e')
      = Cert.Att.finOut (sOf xs1) (aOf xs2) (wOf x3) r e' := by
  unfold kernelRun1_D; dsimp only; sl_unfold_words
  rw [View.canon_unit_zero zero_off3, ldD_l, ldD_acc, ldD_w, k1_pay7_apply]
  rfl

end CaseD

end Cert.KernelIdeal.Hand

end
-- ==== Proof.R1ValE.lean ====
import proofs.«404193_j6768868458990_3_alg».proof.Proof.R1RunE
import proofs.«404193_j6768868458990_3_alg».proof.Proof.R1ValD

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx
open scoped BigOperators

theorem closing_of_pieces (arg9 : Memref sig .tc .vmem S16x512x1 .f32) (arg10 : Memref sig .tc .vmem S16x512x64 .f32)
    {arg6 : Memref sig .tc .vmem S1024x1024 .bf16} (harg6 : arg6.IsWhole) (x3 : Vec Ideal S1024x1024 .bf16)
    (L1 : List (View.Piece (Elt Ideal) S16x512x1 .f32)) (L2 : List (View.Piece (Elt Ideal) S16x512x64 .f32))
    (r : Fin 512) (e' : Fin 1024) :
    View.canon [(⟨Rect.unit (s := S1x512x1024) ![0, 0, 0] S1x512x1024.size inb_S1x512x1024_S1x512x1024_0_0_0,
        k1_pay7
          (arg9.view.readCov L1 (Rect.unit (s := S16x512x1) ![0, 0, 0] S16x512x1.size inb_S16x512x1_S16x512x1_0_0_0).toLoadRect)
          (arg10.view.readCov L2 (Rect.unit (s := S16x512x64) ![0, 0, 0] S16x512x64.size inb_S16x512x64_S16x512x64_0_0_0).toLoadRect)
          (View.readAt (Elt Ideal) arg6.view
            (Rect.unit (s := S1024x1024) ![0, 0] S1024x1024.size inb_S1024x1024_S1024x1024_0_0).toLoadRect (harg6.unread x3))⟩ :
          View.Piece (Elt Ideal) S1x512x1024 .f32)] (ix3 0 r e')
      = Cert.Att.finOut (fun h r => View.canon L1 (ix3 h r 0)) (fun h r j => View.canon L2 (ix3 h r j)) (wOf x3) r e' := by
  rw [View.canon_unit_zero zero_off3, View.readCov_eq_canon', View.readCov_eq_canon', ldD_w, k1_pay7_apply]
  unfold Cert.Att.finOut
  refine Finset.sum_congr rfl fun e _ => ?_
  have e1 : ∀ (h : Fin 16) (z : Fin 1), (Rect.unit (s := S16x512x1) ![0, 0, 0] S16x512x1.size inb_S16x512x1_S16x512x1_0_0_0).toLoadRect.idx (ix3 h r z)
      = ix3 h r z := fun h z => funext fun a => Fin.ext (by
    match a with
    | ⟨0, _⟩ => show 0 + 1 * h.val = h.val; omega
    | ⟨1, _⟩ => show 0 + 1 * r.val = r.val; omega
    | ⟨2, _⟩ => show 0 + 1 * z.val = z.val; omega)
  have e2 : ∀ (h : Fin 16) (j : Fin 64), (Rect.unit (s := S16x512x64) ![0, 0, 0] S16x512x64.size inb_S16x512x64_S16x512x64_0_0_0).toLoadRect.idx (ix3 h r j)
      = ix3 h r j := fun h j => funext fun a => Fin.ext (by
    match a with
    | ⟨0, _⟩ => show 0 + 1 * h.val = h.val; omega
    | ⟨1, _⟩ => show 0 + 1 * r.val = r.val; omega
    | ⟨2, _⟩ => show 0 + 1 * j.val = j.val; omega)
  show (View.canon L2 (_) * Ideal.div 1 (View.canon L1 (_))) * x3 (ix2 e e') = _
  rw [e1, e2]
  rfl

section CaseE
variable (c : Dev nD) (i : grid1.Coords) (arg3 : Memref sig .tc .vmem S1x512x16x64 .bf16) (harg3 : arg3.IsWhole) (arg4 : Memref sig .tc .vmem S1x512x16x64 .bf16) (harg4 : arg4.IsWhole) (arg5 : Memref sig .tc .vmem S1x512x16x64 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole)
    (hc0 : ¬cond1_0 i) (hc1 : cond1_1 i) (hc2 : cond1_2 i)
    (x0 x1 x2 : Vec Ideal S1x512x16x64 .bf16) (x3 : Vec Ideal S1024x1024 .bf16) (xs0 xs1 : Vec Ideal S16x512x1 .f32) (xs2 : Vec Ideal S16x512x64 .f32)

theorem valE_out_canon (r : Fin 512) (e' : Fin 1024) :
    View.canon (kernelRun1_E (F := Ideal) c i arg3 harg3 arg4 harg4 arg5 harg5 arg6 harg6 arg7 harg7 arg8 harg8 arg9 harg9 arg10 harg10 hc0 hc1 hc2 x0 x1 x2 x3 xs0 xs1 xs2).1 (ix3 0 r e')
      = Cert.Att.finOut (fun h r => View.canon (kernelRun1_E (F := Ideal) c i arg3 harg3 arg4 harg4 arg5 harg5 arg6 harg6 arg7 harg7 arg8 harg8 arg9 harg9 arg10 harg10 hc0 hc1 hc2 x0 x1 x2 x3 xs0 xs1 xs2).2.2.1 (ix3 h r 0))
          (fun h r j => View.canon (kernelRun1_E (F := Ideal) c i arg3 harg3 arg4 harg4 arg5 harg5 arg6 harg6 arg7 harg7 arg8 harg8 arg9 harg9 arg10 harg10 hc0 hc1 hc2 x0 x1 x2 x3 xs0 xs1 xs2).2.2.2.1 (ix3 h r j)) (wOf x3) r e' := by
  unfold kernelRun1_E; dsimp only; sl_unfold_words
  exact closing_of_pieces arg9 arg10 harg6 x3 _ _ r e'

theorem valE_out_of (l : Fin 16 → Fin 512 → EReal) (acc : Fin 16 → Fin 512 → Fin 64 → EReal)
    (hl : ∀ (h : Fin 16) (r : Fin 512), View.canon (kernelRun1_E (F := Ideal) c i arg3 harg3 arg4 harg4 arg5 harg5 arg6 harg6 arg7 harg7 arg8 harg8 arg9 harg9 arg10 harg10 hc0 hc1 hc2 x0 x1 x2 x3 xs0 xs1 xs2).2.2.1 (ix3 h r 0) = l h r)
    (hacc : ∀ (h : Fin 16) (r : Fin 512) (j : Fin 64), View.canon (kernelRun1_E (F := Ideal) c i arg3 harg3 arg4 harg4 arg5 harg5 arg6 harg6 arg7 harg7 arg8 harg8 arg9 harg9 arg10 harg10 hc0 hc1 hc2 x0 x1 x2 x3 xs0 xs1 xs2).2.2.2.1 (ix3 h r j) = acc h r j)
    (r : Fin 512) (e' : Fin 1024) :
    View.canon (kernelRun1_E (F := Ideal) c i arg3 harg3 arg4 harg4 arg5 harg5 arg6 harg6 arg7 harg7 arg8 harg8 arg9 harg9 arg10 harg10 hc0 hc1 hc2 x0 x1 x2 x3 xs0 xs1 xs2).1 (ix3 0 r e') = Cert.Att.finOut l acc (wOf x3) r e' := by
  rw [valE_out_canon]
  have e1 : (fun (h : Fin 16) (r : Fin 512) => View.canon (kernelRun1_E (F := Ideal) c i arg3 harg3 arg4 harg4 arg5 harg5 arg6 harg6 arg7 harg7 arg8 harg8 arg9 harg9 arg10 harg10 hc0 hc1 hc2 x0 x1 x2 x3 xs0 xs1 xs2).2.2.1 (ix3 h r 0)) = l :=
    funext fun h => funext fun r => hl h r
  have e2 : (fun (h : Fin 16) (r : Fin 512) (j : Fin 64) => View.canon (kernelRun1_E (F := Ideal) c i arg3 harg3 arg4 harg4 arg5 harg5 arg6 harg6 arg7 harg7 arg8 harg8 arg9 harg9 arg10 harg10 hc0 hc1 hc2 x0 x1 x2 x3 xs0 xs1 xs2).2.2.2.1 (ix3 h r j)) = acc :=
    funext fun h => funext fun r => funext fun j => hacc h r j
  rw [e1, e2]

end CaseE

end Cert.KernelIdeal.Hand

end
-- ==== Proof.R1ValEs.lean ====
import proofs.«404193_j6768868458990_3_alg».proof.Proof.R1Dat
import proofs.«404193_j6768868458990_3_alg».proof.Proof.R1RunE
import proofs.«404193_j6768868458990_3_alg».proof.Proof.R1ValB1
import proofs.«404193_j6768868458990_3_alg».proof.Proof.R1ValE

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx
open scoped BigOperators

theorem ldE_blk {m : Memref sig .tc .vmem S1x512x16x64 .bf16} (hm : m.IsWhole) (x : Vec Ideal S1x512x16x64 .bf16) :
    View.readAt (Elt Ideal) m.view
      (Rect.unit (s := S1x512x16x64) ![0, 0, 0, 0] S1x512x16x64.size inb_S1x512x16x64_S1x512x16x64_0_0_0_0).toLoadRect (hm.unread x) = x := by
  funext y
  rw [hm.readAt_unread]
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
  | ⟨3, _⟩ => show 0 + 1 * (y 3).val = (y 3).val; omega

theorem ldE_s1 {m : Memref sig .tc .vmem S16x512x1 .f32} (hm : m.IsWhole) (xs : Vec Ideal S16x512x1 .f32) (o : Nat) (ho : o < 16)
    (inb1 : ∀ a, (![o, 0, 0] : Fin 3 → Nat) a + S1x512x1.size a ≤ S16x512x1.size a) (u : Fin 1) (r : Fin 512) (z : Fin 1) :
    View.readAt (Elt Ideal) m.view (Rect.unit (s := S16x512x1) ![o, 0, 0] S1x512x1.size inb1).toLoadRect (hm.unread xs) (ix3 u r z)
      = sOf xs ⟨o, ho⟩ r := by
  rw [hm.readAt_unread]
  unfold sOf
  refine congrArg xs (funext fun a => Fin.ext ?_)
  match a with
  | ⟨0, _⟩ => show o + 1 * u.val = o; omega
  | ⟨1, _⟩ => show 0 + 1 * r.val = r.val; omega
  | ⟨2, _⟩ => show 0 + 1 * z.val = 0; omega

theorem ldE_s64 {m : Memref sig .tc .vmem S16x512x64 .f32} (hm : m.IsWhole) (xs : Vec Ideal S16x512x64 .f32) (o : Nat) (ho : o < 16)
    (inb64 : ∀ a, (![o, 0, 0] : Fin 3 → Nat) a + S1x512x64.size a ≤ S16x512x64.size a) (u : Fin 1) (r : Fin 512) (j : Fin 64) :
    View.readAt (Elt Ideal) m.view (Rect.unit (s := S16x512x64) ![o, 0, 0] S1x512x64.size inb64).toLoadRect (hm.unread xs) (ix3 u r j)
      = aOf xs ⟨o, ho⟩ r j := by
  rw [hm.readAt_unread]
  unfold aOf
  refine congrArg xs (funext fun a => Fin.ext ?_)
  match a with
  | ⟨0, _⟩ => show o + 1 * u.val = o; omega
  | ⟨1, _⟩ => show 0 + 1 * r.val = r.val; omega
  | ⟨2, _⟩ => show 0 + 1 * j.val = j.val; omega

section Head
variable {arg3 arg4 arg5 : Memref sig .tc .vmem S1x512x16x64 .bf16} (harg3 : arg3.IsWhole) (harg4 : arg4.IsWhole) (harg5 : arg5.IsWhole)
  {arg8 arg9 : Memref sig .tc .vmem S16x512x1 .f32} (harg8 : arg8.IsWhole) (harg9 : arg9.IsWhole)
  {arg10 : Memref sig .tc .vmem S16x512x64 .f32} (harg10 : arg10.IsWhole)
  (x0 x1 x2 : Vec Ideal S1x512x16x64 .bf16) (xs0 xs1 : Vec Ideal S16x512x1 .f32) (xs2 : Vec Ideal S16x512x64 .f32) (i : grid1.Coords)

def updM : S16x512x1.Idx → EReal := fun y =>
  Cert.Att.stepM (Cert.Att.tileScore (qOf x0) (qOf x1) (mskOf i)) (sOf xs0) ⟨(y 0).val, (y 0).isLt⟩ ⟨(y 1).val, (y 1).isLt⟩

def updL : S16x512x1.Idx → EReal := fun y =>
  Cert.Att.stepL (Cert.Att.tileScore (qOf x0) (qOf x1) (mskOf i)) (sOf xs0) (sOf xs1) ⟨(y 0).val, (y 0).isLt⟩ ⟨(y 1).val, (y 1).isLt⟩

def updAcc : S16x512x64.Idx → EReal := fun y =>
  Cert.Att.stepAcc (Cert.Att.tileScore (qOf x0) (qOf x1) (mskOf i)) (qOf x2) (sOf xs0) (aOf xs2) ⟨(y 0).val, (y 0).isLt⟩ ⟨(y 1).val, (y 1).isLt⟩ ⟨(y 2).val, (y 2).isLt⟩

variable (o : Nat) (ho : o < 16) (hs : S512x16x64.Slices ![0, o, 0] S512x1x64)
  (inb1 : ∀ a, (![o, 0, 0] : Fin 3 → Nat) a + S1x512x1.size a ≤ S16x512x1.size a)
  (inb64 : ∀ a, (![o, 0, 0] : Fin 3 → Nat) a + S1x512x64.size a ≤ S16x512x64.size a)

theorem scoreE_apply (r c : Fin 512) :
    (headScore o hs (k1_pay8 (View.readAt (Elt Ideal) arg3.view (Rect.unit (s := S1x512x16x64) ![0, 0, 0, 0] S1x512x16x64.size inb_S1x512x16x64_S1x512x16x64_0_0_0_0).toLoadRect (harg3.unread x0))) (k1_pay9 (View.readAt (Elt Ideal) arg4.view (Rect.unit (s := S1x512x16x64) ![0, 0, 0, 0] S1x512x16x64.size inb_S1x512x16x64_S1x512x16x64_0_0_0_0).toLoadRect (harg4.unread x1))) (k1_pay11 (BitVec.ofNat 32 (i 1).val) (BitVec.ofNat 32 (i 2).val))) (ix2 r c) = (Cert.Att.tileScore (qOf x0) (qOf x1) (mskOf i)) ⟨o, ho⟩ r c := by
  rw [ldE_blk harg3 x0, ldE_blk harg4 x1]
  exact headScore_apply o ho hs x0 x1 i r c

theorem newMaxE (r : Fin 512) :
    newMax (View.readAt (Elt Ideal) arg8.view (Rect.unit (s := S16x512x1) ![o, 0, 0] S1x512x1.size inb1).toLoadRect (harg8.unread xs0)) (fun r c => (Cert.Att.tileScore (qOf x0) (qOf x1) (mskOf i)) ⟨o, ho⟩ r c) r = Cert.Att.stepM (Cert.Att.tileScore (qOf x0) (qOf x1) (mskOf i)) (sOf xs0) ⟨o, ho⟩ r := by
  unfold newMax Cert.Att.stepM
  rw [ldE_s1 harg8 xs0 o ho inb1]

theorem headM_E (u : Fin 1) (r : Fin 512) (z : Fin 1) :
    headM (View.readAt (Elt Ideal) arg8.view (Rect.unit (s := S16x512x1) ![o, 0, 0] S1x512x1.size inb1).toLoadRect (harg8.unread xs0)) (headScore o hs (k1_pay8 (View.readAt (Elt Ideal) arg3.view (Rect.unit (s := S1x512x16x64) ![0, 0, 0, 0] S1x512x16x64.size inb_S1x512x16x64_S1x512x16x64_0_0_0_0).toLoadRect (harg3.unread x0))) (k1_pay9 (View.readAt (Elt Ideal) arg4.view (Rect.unit (s := S1x512x16x64) ![0, 0, 0, 0] S1x512x16x64.size inb_S1x512x16x64_S1x512x16x64_0_0_0_0).toLoadRect (harg4.unread x1))) (k1_pay11 (BitVec.ofNat 32 (i 1).val) (BitVec.ofNat 32 (i 2).val))) (ix3 u r z)
      = Cert.Att.stepM (Cert.Att.tileScore (qOf x0) (qOf x1) (mskOf i)) (sOf xs0) ⟨o, ho⟩ r := by
  rw [headM_apply _ _ (fun r c => (Cert.Att.tileScore (qOf x0) (qOf x1) (mskOf i)) ⟨o, ho⟩ r c) (fun r c => scoreE_apply harg3 harg4 x0 x1 i o ho hs r c)]
  exact newMaxE harg8 x0 x1 xs0 i o ho inb1 r

theorem headL_E (u : Fin 1) (r : Fin 512) (z : Fin 1) :
    headL (View.readAt (Elt Ideal) arg8.view (Rect.unit (s := S16x512x1) ![o, 0, 0] S1x512x1.size inb1).toLoadRect (harg8.unread xs0)) (View.readAt (Elt Ideal) arg9.view (Rect.unit (s := S16x512x1) ![o, 0, 0] S1x512x1.size inb1).toLoadRect (harg9.unread xs1)) (headScore o hs (k1_pay8 (View.readAt (Elt Ideal) arg3.view (Rect.unit (s := S1x512x16x64) ![0, 0, 0, 0] S1x512x16x64.size inb_S1x512x16x64_S1x512x16x64_0_0_0_0).toLoadRect (harg3.unread x0))) (k1_pay9 (View.readAt (Elt Ideal) arg4.view (Rect.unit (s := S1x512x16x64) ![0, 0, 0, 0] S1x512x16x64.size inb_S1x512x16x64_S1x512x16x64_0_0_0_0).toLoadRect (harg4.unread x1))) (k1_pay11 (BitVec.ofNat 32 (i 1).val) (BitVec.ofNat 32 (i 2).val))) (ix3 u r z)
      = Cert.Att.stepL (Cert.Att.tileScore (qOf x0) (qOf x1) (mskOf i)) (sOf xs0) (sOf xs1) ⟨o, ho⟩ r := by
  rw [headL_apply _ _ _ (fun r c => (Cert.Att.tileScore (qOf x0) (qOf x1) (mskOf i)) ⟨o, ho⟩ r c) (fun r c => scoreE_apply harg3 harg4 x0 x1 i o ho hs r c)]
  rw [newMaxE harg8 x0 x1 xs0 i o ho inb1 r, ldE_s1 harg8 xs0 o ho inb1, ldE_s1 harg9 xs1 o ho inb1]
  rfl

theorem headAcc_E (u : Fin 1) (r : Fin 512) (j : Fin 64) :
    headAcc (View.readAt (Elt Ideal) arg8.view (Rect.unit (s := S16x512x1) ![o, 0, 0] S1x512x1.size inb1).toLoadRect (harg8.unread xs0)) (View.readAt (Elt Ideal) arg10.view (Rect.unit (s := S16x512x64) ![o, 0, 0] S1x512x64.size inb64).toLoadRect (harg10.unread xs2)) (headScore o hs (k1_pay8 (View.readAt (Elt Ideal) arg3.view (Rect.unit (s := S1x512x16x64) ![0, 0, 0, 0] S1x512x16x64.size inb_S1x512x16x64_S1x512x16x64_0_0_0_0).toLoadRect (harg3.unread x0))) (k1_pay9 (View.readAt (Elt Ideal) arg4.view (Rect.unit (s := S1x512x16x64) ![0, 0, 0, 0] S1x512x16x64.size inb_S1x512x16x64_S1x512x16x64_0_0_0_0).toLoadRect (harg4.unread x1))) (k1_pay11 (BitVec.ofNat 32 (i 1).val) (BitVec.ofNat 32 (i 2).val))) (headMat o hs (k1_pay10 (View.readAt (Elt Ideal) arg5.view (Rect.unit (s := S1x512x16x64) ![0, 0, 0, 0] S1x512x16x64.size inb_S1x512x16x64_S1x512x16x64_0_0_0_0).toLoadRect (harg5.unread x2)))) (ix3 u r j)
      = Cert.Att.stepAcc (Cert.Att.tileScore (qOf x0) (qOf x1) (mskOf i)) (qOf x2) (sOf xs0) (aOf xs2) ⟨o, ho⟩ r j := by
  rw [headAcc_apply _ _ _ (fun r c => (Cert.Att.tileScore (qOf x0) (qOf x1) (mskOf i)) ⟨o, ho⟩ r c) (fun r c => scoreE_apply harg3 harg4 x0 x1 i o ho hs r c)]
  rw [newMaxE harg8 x0 x1 xs0 i o ho inb1 r, ldE_s1 harg8 xs0 o ho inb1, ldE_s64 harg10 xs2 o ho inb64, ldE_blk harg5 x2]
  unfold Cert.Att.stepAcc
  congr 1
  refine Finset.sum_congr rfl fun c _ => ?_
  rw [show headMat o hs (k1_pay10 x2) (ix2 c j) = qOf x2 c ⟨o, ho⟩ j from headMat_apply o ho hs x2 c j]

include ho in

theorem pieceM_ok :
    ∀ x : (Rect.unit (s := S16x512x1) ![o, 0, 0] S1x512x1.size inb1).shape.Idx,
      headM (View.readAt (Elt Ideal) arg8.view (Rect.unit (s := S16x512x1) ![o, 0, 0] S1x512x1.size inb1).toLoadRect (harg8.unread xs0)) (headScore o hs (k1_pay8 (View.readAt (Elt Ideal) arg3.view (Rect.unit (s := S1x512x16x64) ![0, 0, 0, 0] S1x512x16x64.size inb_S1x512x16x64_S1x512x16x64_0_0_0_0).toLoadRect (harg3.unread x0))) (k1_pay9 (View.readAt (Elt Ideal) arg4.view (Rect.unit (s := S1x512x16x64) ![0, 0, 0, 0] S1x512x16x64.size inb_S1x512x16x64_S1x512x16x64_0_0_0_0).toLoadRect (harg4.unread x1))) (k1_pay11 (BitVec.ofNat 32 (i 1).val) (BitVec.ofNat 32 (i 2).val))) x
        = updM x0 x1 xs0 i ((Rect.unit (s := S16x512x1) ![o, 0, 0] S1x512x1.size inb1).emb x) := by
  intro x
  obtain ⟨u, r, z, rfl⟩ : ∃ u r z, x = ix3 u r z := ⟨x 0, x 1, x 2, eq_ix3 (n0 := 1) (n1 := 512) (n2 := 1) x⟩
  rw [headM_E harg3 harg4 harg8 x0 x1 xs0 i o ho hs inb1]
  unfold updM
  have e0 : (⟨((Rect.unit (s := S16x512x1) ![o, 0, 0] S1x512x1.size inb1).emb (ix3 u r z) 0).val, ((Rect.unit (s := S16x512x1) ![o, 0, 0] S1x512x1.size inb1).emb (ix3 u r z) 0).isLt⟩ : Fin 16) = ⟨o, ho⟩ :=
    Fin.ext (by show o + 1 * u.val = o; omega)
  have e1 : (⟨((Rect.unit (s := S16x512x1) ![o, 0, 0] S1x512x1.size inb1).emb (ix3 u r z) 1).val, ((Rect.unit (s := S16x512x1) ![o, 0, 0] S1x512x1.size inb1).emb (ix3 u r z) 1).isLt⟩ : Fin 512) = r :=
    Fin.ext (by show 0 + 1 * r.val = r.val; omega)
  rw [e0, e1]

include ho in

theorem pieceL_ok :
    ∀ x : (Rect.unit (s := S16x512x1) ![o, 0, 0] S1x512x1.size inb1).shape.Idx,
      headL (View.readAt (Elt Ideal) arg8.view (Rect.unit (s := S16x512x1) ![o, 0, 0] S1x512x1.size inb1).toLoadRect (harg8.unread xs0)) (View.readAt (Elt Ideal) arg9.view (Rect.unit (s := S16x512x1) ![o, 0, 0] S1x512x1.size inb1).toLoadRect (harg9.unread xs1)) (headScore o hs (k1_pay8 (View.readAt (Elt Ideal) arg3.view (Rect.unit (s := S1x512x16x64) ![0, 0, 0, 0] S1x512x16x64.size inb_S1x512x16x64_S1x512x16x64_0_0_0_0).toLoadRect (harg3.unread x0))) (k1_pay9 (View.readAt (Elt Ideal) arg4.view (Rect.unit (s := S1x512x16x64) ![0, 0, 0, 0] S1x512x16x64.size inb_S1x512x16x64_S1x512x16x64_0_0_0_0).toLoadRect (harg4.unread x1))) (k1_pay11 (BitVec.ofNat 32 (i 1).val) (BitVec.ofNat 32 (i 2).val))) x
        = updL x0 x1 xs0 xs1 i ((Rect.unit (s := S16x512x1) ![o, 0, 0] S1x512x1.size inb1).emb x) := by
  intro x
  obtain ⟨u, r, z, rfl⟩ : ∃ u r z, x = ix3 u r z := ⟨x 0, x 1, x 2, eq_ix3 (n0 := 1) (n1 := 512) (n2 := 1) x⟩
  rw [headL_E harg3 harg4 harg8 harg9 x0 x1 xs0 xs1 i o ho hs inb1]
  unfold updL
  have e0 : (⟨((Rect.unit (s := S16x512x1) ![o, 0, 0] S1x512x1.size inb1).emb (ix3 u r z) 0).val, ((Rect.unit (s := S16x512x1) ![o, 0, 0] S1x512x1.size inb1).emb (ix3 u r z) 0).isLt⟩ : Fin 16) = ⟨o, ho⟩ :=
    Fin.ext (by show o + 1 * u.val = o; omega)
  have e1 : (⟨((Rect.unit (s := S16x512x1) ![o, 0, 0] S1x512x1.size inb1).emb (ix3 u r z) 1).val, ((Rect.unit (s := S16x512x1) ![o, 0, 0] S1x512x1.size inb1).emb (ix3 u r z) 1).isLt⟩ : Fin 512) = r :=
    Fin.ext (by show 0 + 1 * r.val = r.val; omega)
  rw [e0, e1]

include ho in

theorem pieceA_ok :
    ∀ x : (Rect.unit (s := S16x512x64) ![o, 0, 0] S1x512x64.size inb64).shape.Idx,
      headAcc (View.readAt (Elt Ideal) arg8.view (Rect.unit (s := S16x512x1) ![o, 0, 0] S1x512x1.size inb1).toLoadRect (harg8.unread xs0)) (View.readAt (Elt Ideal) arg10.view (Rect.unit (s := S16x512x64) ![o, 0, 0] S1x512x64.size inb64).toLoadRect (harg10.unread xs2)) (headScore o hs (k1_pay8 (View.readAt (Elt Ideal) arg3.view (Rect.unit (s := S1x512x16x64) ![0, 0, 0, 0] S1x512x16x64.size inb_S1x512x16x64_S1x512x16x64_0_0_0_0).toLoadRect (harg3.unread x0))) (k1_pay9 (View.readAt (Elt Ideal) arg4.view (Rect.unit (s := S1x512x16x64) ![0, 0, 0, 0] S1x512x16x64.size inb_S1x512x16x64_S1x512x16x64_0_0_0_0).toLoadRect (harg4.unread x1))) (k1_pay11 (BitVec.ofNat 32 (i 1).val) (BitVec.ofNat 32 (i 2).val))) (headMat o hs (k1_pay10 (View.readAt (Elt Ideal) arg5.view (Rect.unit (s := S1x512x16x64) ![0, 0, 0, 0] S1x512x16x64.size inb_S1x512x16x64_S1x512x16x64_0_0_0_0).toLoadRect (harg5.unread x2)))) x
        = updAcc x0 x1 x2 xs0 xs2 i ((Rect.unit (s := S16x512x64) ![o, 0, 0] S1x512x64.size inb64).emb x) := by
  intro x
  obtain ⟨u, r, j, rfl⟩ : ∃ u r j, x = ix3 u r j := ⟨x 0, x 1, x 2, eq_ix3 (n0 := 1) (n1 := 512) (n2 := 64) x⟩
  rw [headAcc_E harg3 harg4 harg5 harg8 harg10 x0 x1 x2 xs0 xs2 i o ho hs inb1 inb64]
  unfold updAcc
  have e0 : (⟨((Rect.unit (s := S16x512x64) ![o, 0, 0] S1x512x64.size inb64).emb (ix3 u r j) 0).val, ((Rect.unit (s := S16x512x64) ![o, 0, 0] S1x512x64.size inb64).emb (ix3 u r j) 0).isLt⟩ : Fin 16) = ⟨o, ho⟩ :=
    Fin.ext (by show o + 1 * u.val = o; omega)
  have e1 : (⟨((Rect.unit (s := S16x512x64) ![o, 0, 0] S1x512x64.size inb64).emb (ix3 u r j) 1).val, ((Rect.unit (s := S16x512x64) ![o, 0, 0] S1x512x64.size inb64).emb (ix3 u r j) 1).isLt⟩ : Fin 512) = r :=
    Fin.ext (by show 0 + 1 * r.val = r.val; omega)
  have e2 : (⟨((Rect.unit (s := S16x512x64) ![o, 0, 0] S1x512x64.size inb64).emb (ix3 u r j) 2).val, ((Rect.unit (s := S16x512x64) ![o, 0, 0] S1x512x64.size inb64).emb (ix3 u r j) 2).isLt⟩ : Fin 64) = j :=
    Fin.ext (by show 0 + 1 * j.val = j.val; omega)
  rw [e0, e1, e2]

end Head

section CaseE
variable (c : Dev nD) (i : grid1.Coords) (arg3 : Memref sig .tc .vmem S1x512x16x64 .bf16) (harg3 : arg3.IsWhole) (arg4 : Memref sig .tc .vmem S1x512x16x64 .bf16) (harg4 : arg4.IsWhole) (arg5 : Memref sig .tc .vmem S1x512x16x64 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole)
    (hc0 : ¬cond1_0 i) (hc1 : cond1_1 i) (hc2 : cond1_2 i)
    (x0 x1 x2 : Vec Ideal S1x512x16x64 .bf16) (x3 : Vec Ideal S1024x1024 .bf16) (xs0 xs1 : Vec Ideal S16x512x1 .f32) (xs2 : Vec Ideal S16x512x64 .f32)

set_option maxHeartbeats 4000000 in

theorem valE_m (h : Fin 16) (r : Fin 512) :
    View.canon (kernelRun1_E (F := Ideal) c i arg3 harg3 arg4 harg4 arg5 harg5 arg6 harg6 arg7 harg7 arg8 harg8 arg9 harg9 arg10 harg10 hc0 hc1 hc2 x0 x1 x2 x3 xs0 xs1 xs2).2.1 (ix3 h r 0) = Cert.Att.stepM (Cert.Att.tileScore (qOf x0) (qOf x1) (mskOf i)) (sOf xs0) h r := by
  have hy := scover1_E_0 (F := Ideal) c i arg3 harg3 arg4 harg4 arg5 harg5 arg6 harg6 arg7 harg7 arg8 harg8 arg9 harg9 arg10 harg10 hc0 hc1 hc2 x0 x1 x2 x3 xs0 xs1 xs2 (ix3 h r 0)
  revert hy
  unfold kernelRun1_E; dsimp only; sl_unfold_words
  intro hy
  refine (View.canon_apply_of_pieces (updM x0 x1 xs0 i) _ ?_ _ hy).trans rfl
  intro p hp
  simp only [List.mem_cons, List.mem_nil_iff, or_false] at hp
  rcases hp with rfl | rfl | rfl | rfl | rfl | rfl | rfl | rfl | rfl | rfl | rfl | rfl | rfl | rfl | rfl | rfl <;>
    exact pieceM_ok harg3 harg4 harg8 x0 x1 xs0 i _ (by decide) _ _

set_option maxHeartbeats 4000000 in

theorem valE_l (h : Fin 16) (r : Fin 512) :
    View.canon (kernelRun1_E (F := Ideal) c i arg3 harg3 arg4 harg4 arg5 harg5 arg6 harg6 arg7 harg7 arg8 harg8 arg9 harg9 arg10 harg10 hc0 hc1 hc2 x0 x1 x2 x3 xs0 xs1 xs2).2.2.1 (ix3 h r 0) = Cert.Att.stepL (Cert.Att.tileScore (qOf x0) (qOf x1) (mskOf i)) (sOf xs0) (sOf xs1) h r := by
  have hy := scover1_E_1 (F := Ideal) c i arg3 harg3 arg4 harg4 arg5 harg5 arg6 harg6 arg7 harg7 arg8 harg8 arg9 harg9 arg10 harg10 hc0 hc1 hc2 x0 x1 x2 x3 xs0 xs1 xs2 (ix3 h r 0)
  revert hy
  unfold kernelRun1_E; dsimp only; sl_unfold_words
  intro hy
  refine (View.canon_apply_of_pieces (updL x0 x1 xs0 xs1 i) _ ?_ _ hy).trans rfl
  intro p hp
  simp only [List.mem_cons, List.mem_nil_iff, or_false] at hp
  rcases hp with rfl | rfl | rfl | rfl | rfl | rfl | rfl | rfl | rfl | rfl | rfl | rfl | rfl | rfl | rfl | rfl <;>
    exact pieceL_ok harg3 harg4 harg8 harg9 x0 x1 xs0 xs1 i _ (by decide) _ _

set_option maxHeartbeats 4000000 in

theorem valE_acc (h : Fin 16) (r : Fin 512) (j : Fin 64) :
    View.canon (kernelRun1_E (F := Ideal) c i arg3 harg3 arg4 harg4 arg5 harg5 arg6 harg6 arg7 harg7 arg8 harg8 arg9 harg9 arg10 harg10 hc0 hc1 hc2 x0 x1 x2 x3 xs0 xs1 xs2).2.2.2.1 (ix3 h r j) = Cert.Att.stepAcc (Cert.Att.tileScore (qOf x0) (qOf x1) (mskOf i)) (qOf x2) (sOf xs0) (aOf xs2) h r j := by
  have hy := scover1_E_2 (F := Ideal) c i arg3 harg3 arg4 harg4 arg5 harg5 arg6 harg6 arg7 harg7 arg8 harg8 arg9 harg9 arg10 harg10 hc0 hc1 hc2 x0 x1 x2 x3 xs0 xs1 xs2 (ix3 h r j)
  revert hy
  unfold kernelRun1_E; dsimp only; sl_unfold_words
  intro hy
  refine (View.canon_apply_of_pieces (updAcc x0 x1 x2 xs0 xs2 i) _ ?_ _ hy).trans rfl
  intro p hp
  simp only [List.mem_cons, List.mem_nil_iff, or_false] at hp
  rcases hp with rfl | rfl | rfl | rfl | rfl | rfl | rfl | rfl | rfl | rfl | rfl | rfl | rfl | rfl | rfl | rfl <;>
    exact pieceA_ok harg3 harg4 harg5 harg8 harg10 x0 x1 x2 xs0 xs2 i _ (by decide) _ _ _

theorem valE_out (r : Fin 512) (e' : Fin 1024) :
    View.canon (kernelRun1_E (F := Ideal) c i arg3 harg3 arg4 harg4 arg5 harg5 arg6 harg6 arg7 harg7 arg8 harg8 arg9 harg9 arg10 harg10 hc0 hc1 hc2 x0 x1 x2 x3 xs0 xs1 xs2).1 (ix3 0 r e')
      = Cert.Att.finOut (Cert.Att.stepL (Cert.Att.tileScore (qOf x0) (qOf x1) (mskOf i)) (sOf xs0) (sOf xs1)) (Cert.Att.stepAcc (Cert.Att.tileScore (qOf x0) (qOf x1) (mskOf i)) (qOf x2) (sOf xs0) (aOf xs2)) (wOf x3) r e' :=
  valE_out_of c i arg3 harg3 arg4 harg4 arg5 harg5 arg6 harg6 arg7 harg7 arg8 harg8 arg9 harg9 arg10 harg10 hc0 hc1 hc2 x0 x1 x2 x3 xs0 xs1 xs2 _ _
    (fun h r => valE_l c i arg3 harg3 arg4 harg4 arg5 harg5 arg6 harg6 arg7 harg7 arg8 harg8 arg9 harg9 arg10 harg10 hc0 hc1 hc2 x0 x1 x2 x3 xs0 xs1 xs2 h r)
    (fun h r j => valE_acc c i arg3 harg3 arg4 harg4 arg5 harg5 arg6 harg6 arg7 harg7 arg8 harg8 arg9 harg9 arg10 harg10 hc0 hc1 hc2 x0 x1 x2 x3 xs0 xs1 xs2 h r j) r e'

end CaseE

end Cert.KernelIdeal.Hand

end
-- ==== Proof.R1Vals.lean ====
import proofs.«404193_j6768868458990_3_alg».proof.Proof.R1ValA
import proofs.«404193_j6768868458990_3_alg».proof.Proof.R1ValB
import proofs.«404193_j6768868458990_3_alg».proof.Proof.R1ValD
import proofs.«404193_j6768868458990_3_alg».proof.Proof.R1ValE
import proofs.«404193_j6768868458990_3_alg».proof.Proof.R1ValEs
-- ==== Proof.R1Blk.lean ====
import proofs.«404193_j6768868458990_3_alg».proof.Proof.R1Runs
import proofs.«404193_j6768868458990_3_alg».proof.Proof.R1Coords
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx (ix2 ix3 ix4)
open scoped BigOperators

theorem pt1_lt (t : Fin cfg1.N) : t.val < 64 := lt_of_lt_of_eq t.isLt N_1

theorem idx_facts1 : ∀ t : Fin cfg1.N,
    win1_0.index t (0 : Fin 4) = t.val / 16 ∧ win1_0.index t (1 : Fin 4) = t.val / 4 % 4
    ∧ win1_0.index t (2 : Fin 4) = 0 ∧ win1_0.index t (3 : Fin 4) = 0
    ∧ win1_1.index t (0 : Fin 4) = t.val / 16 ∧ win1_1.index t (1 : Fin 4) = min (t.val % 4) (t.val / 4 % 4)
    ∧ win1_1.index t (2 : Fin 4) = 0 ∧ win1_1.index t (3 : Fin 4) = 0
    ∧ win1_2.index t (0 : Fin 4) = t.val / 16 ∧ win1_2.index t (1 : Fin 4) = min (t.val % 4) (t.val / 4 % 4)
    ∧ win1_2.index t (2 : Fin 4) = 0 ∧ win1_2.index t (3 : Fin 4) = 0
    ∧ win1_3.index t (0 : Fin 2) = 0 ∧ win1_3.index t (1 : Fin 2) = 0
    ∧ win1_4.index t (0 : Fin 3) = t.val / 16 ∧ win1_4.index t (1 : Fin 3) = t.val / 4 % 4
    ∧ win1_4.index t (2 : Fin 3) = 0 :=
  (by decide +kernel : ∀ t : Fin grid1.N, _)

section Blocks

variable (V : (c : Dev nD) → (b : Ref sig .tc) → Buf (Elt Ideal) ((c : Thread nD τ).loc b))

abbrev qArr (c : Dev nD) : S4x2048x16x64.Idx → EReal := V c main_v10
abbrev kArr (c : Dev nD) : S4x2048x16x64.Idx → EReal := V c main_v11
abbrev vArr (c : Dev nD) : S4x2048x16x64.Idx → EReal := V c main_v12
abbrev wArr (c : Dev nD) : S1024x1024.Idx → EReal := V c main_v8

theorem qblk_apply (c : Dev nD) (t : Fin cfg1.N) (r : Fin 512) (h : Fin 16) (j : Fin 64) :
    qOf (iblk1 V c 0 t) r h j
      = qArr V c (ix4 (⟨t.val / 16, by have := pt1_lt t; omega⟩ : Fin 4)
          (⟨512 * (t.val / 4 % 4) + r.val, by have := r.isLt; omega⟩ : Fin 2048) h j) := by
  obtain ⟨e0, e1, e2, e3, -⟩ := idx_facts1 t
  unfold qOf iblk1
  rw [View.read_apply]
  show (V c main_v10 : S4x2048x16x64.Idx → EReal) _ = (V c main_v10 : S4x2048x16x64.Idx → EReal) _
  congr 1
  funext a
  apply Fin.ext
  match a with
  | ⟨0, _⟩ => show win1_0.index t (0 : Fin 4) * 1 + 1 * 0 = t.val / 16; omega
  | ⟨1, _⟩ => show win1_0.index t (1 : Fin 4) * 512 + 1 * r.val = 512 * (t.val / 4 % 4) + r.val; omega
  | ⟨2, _⟩ => show win1_0.index t (2 : Fin 4) * 16 + 1 * h.val = h.val; omega
  | ⟨3, _⟩ => show win1_0.index t (3 : Fin 4) * 64 + 1 * j.val = j.val; omega

theorem kblk_apply (c : Dev nD) (t : Fin cfg1.N) (c' : Fin 512) (h : Fin 16) (j : Fin 64) :
    qOf (iblk1 V c 1 t) c' h j
      = kArr V c (ix4 (⟨t.val / 16, by have := pt1_lt t; omega⟩ : Fin 4)
          (⟨512 * min (t.val % 4) (t.val / 4 % 4) + c'.val, by have := c'.isLt; omega⟩ : Fin 2048) h j) := by
  obtain ⟨-, -, -, -, e0, e1, e2, e3, -⟩ := idx_facts1 t
  unfold qOf iblk1
  rw [View.read_apply]
  show (V c main_v11 : S4x2048x16x64.Idx → EReal) _ = (V c main_v11 : S4x2048x16x64.Idx → EReal) _
  congr 1
  funext a
  apply Fin.ext
  match a with
  | ⟨0, _⟩ => show win1_1.index t (0 : Fin 4) * 1 + 1 * 0 = t.val / 16; omega
  | ⟨1, _⟩ => show win1_1.index t (1 : Fin 4) * 512 + 1 * c'.val = 512 * min (t.val % 4) (t.val / 4 % 4) + c'.val; omega
  | ⟨2, _⟩ => show win1_1.index t (2 : Fin 4) * 16 + 1 * h.val = h.val; omega
  | ⟨3, _⟩ => show win1_1.index t (3 : Fin 4) * 64 + 1 * j.val = j.val; omega

theorem vblk_apply (c : Dev nD) (t : Fin cfg1.N) (c' : Fin 512) (h : Fin 16) (j : Fin 64) :
    qOf (iblk1 V c 2 t) c' h j
      = vArr V c (ix4 (⟨t.val / 16, by have := pt1_lt t; omega⟩ : Fin 4)
          (⟨512 * min (t.val % 4) (t.val / 4 % 4) + c'.val, by have := c'.isLt; omega⟩ : Fin 2048) h j) := by
  obtain ⟨-, -, -, -, -, -, -, -, e0, e1, e2, e3, -⟩ := idx_facts1 t
  unfold qOf iblk1
  rw [View.read_apply]
  show (V c main_v12 : S4x2048x16x64.Idx → EReal) _ = (V c main_v12 : S4x2048x16x64.Idx → EReal) _
  congr 1
  funext a
  apply Fin.ext
  match a with
  | ⟨0, _⟩ => show win1_2.index t (0 : Fin 4) * 1 + 1 * 0 = t.val / 16; omega
  | ⟨1, _⟩ => show win1_2.index t (1 : Fin 4) * 512 + 1 * c'.val = 512 * min (t.val % 4) (t.val / 4 % 4) + c'.val; omega
  | ⟨2, _⟩ => show win1_2.index t (2 : Fin 4) * 16 + 1 * h.val = h.val; omega
  | ⟨3, _⟩ => show win1_2.index t (3 : Fin 4) * 64 + 1 * j.val = j.val; omega

theorem wblk_apply (c : Dev nD) (t : Fin cfg1.N) (e e' : Fin 1024) :
    wOf (iblk1 V c 3 t) e e' = wArr V c (ix2 e e') := by
  obtain ⟨-, -, -, -, -, -, -, -, -, -, -, -, e0, e1, -⟩ := idx_facts1 t
  unfold wOf iblk1
  rw [View.read_apply]
  show (V c main_v8 : S1024x1024.Idx → EReal) _ = (V c main_v8 : S1024x1024.Idx → EReal) _
  congr 1
  funext a
  apply Fin.ext
  match a with
  | ⟨0, _⟩ => show win1_3.index t (0 : Fin 2) * 1024 + 1 * e.val = e.val; omega
  | ⟨1, _⟩ => show win1_3.index t (1 : Fin 2) * 1024 + 1 * e'.val = e'.val; omega

end Blocks

end Cert.KernelIdeal.Hand

end
-- ==== Proof.Softmax.lean ====
import Idealize.ShloMosaic.PureOps.Ideal

noncomputable section

open scoped BigOperators

namespace Cert.Softmax

open Idealize.ShloMosaic

variable {ι : Type} [DecidableEq ι]

/-- The running state over the keys K: m their largest score, a real; l the sum of the weights exp (score - m); acc the weighted sum of the values. -/
def Inv (sc v : ι → EReal) (K : Finset ι) (m l acc : EReal) : Prop :=
  (∃ r : ℝ, m = (r : EReal)) ∧ m = K.sup sc ∧ l = ∑ i ∈ K, Ideal.exp (sc i - m)
    ∧ acc = ∑ i ∈ K, Ideal.exp (sc i - m) * v i

def mNew (sc : ι → EReal) (T : Finset ι) (m : EReal) : EReal := max m (T.sup sc)
def lNew (sc : ι → EReal) (T : Finset ι) (m l : EReal) : EReal :=
  Ideal.exp (m - mNew sc T m) * l + ∑ i ∈ T, Ideal.exp (sc i - mNew sc T m)
def accNew (sc v : ι → EReal) (T : Finset ι) (m acc : EReal) : EReal :=
  Ideal.exp (m - mNew sc T m) * acc + ∑ i ∈ T, Ideal.exp (sc i - mNew sc T m) * v i

def wt (x : EReal) (r : ℝ) : ℝ := if x = ⊥ then 0 else Real.exp (x.toReal - r)

theorem wt_nonneg (x : EReal) (r : ℝ) : 0 ≤ wt x r := by
  unfold wt; split_ifs
  · exact le_refl 0
  · exact (Real.exp_pos _).le

theorem wt_self (r : ℝ) : wt (r : EReal) r = 1 := by
  unfold wt; rw [if_neg (EReal.coe_ne_bot r), EReal.toReal_coe, sub_self, Real.exp_zero]

theorem wt_rescale (x : EReal) (r r' : ℝ) : Real.exp (r - r') * wt x r = wt x r' := by
  unfold wt; split_ifs
  · exact mul_zero _
  · rw [← Real.exp_add]; congr 1; ring

theorem exp_sub_coe (x : EReal) (hx : x ≠ ⊤) (r : ℝ) : Ideal.exp (x - (r : EReal)) = ((wt x r : ℝ) : EReal) := by
  induction x using EReal.rec with
  | bot => rw [EReal.bot_sub, Ideal.exp_bot]; unfold wt; rw [if_pos rfl, EReal.coe_zero]
  | coe a =>
    rw [← EReal.coe_sub, Ideal.exp_coe]; unfold wt
    rw [if_neg (EReal.coe_ne_bot a), EReal.toReal_coe]
  | top => exact absurd rfl hx

theorem coe_sum (s : Finset ι) (f : ι → ℝ) : ((∑ i ∈ s, f i : ℝ) : EReal) = ∑ i ∈ s, (f i : EReal) := by
  refine Finset.induction_on s ?_ ?_
  · rw [Finset.sum_empty, Finset.sum_empty, EReal.coe_zero]
  · intro a s ha ih
    rw [Finset.sum_insert ha, Finset.sum_insert ha, EReal.coe_add, ih]

theorem wsum_coe (sc : ι → EReal) (K : Finset ι) (hscK : ∀ i ∈ K, sc i ≠ ⊤) (r : ℝ) (g : ι → ℝ) :
    ∑ i ∈ K, Ideal.exp (sc i - (r : EReal)) * (g i : EReal) = ((∑ i ∈ K, wt (sc i) r * g i : ℝ) : EReal) := by
  rw [coe_sum]
  refine Finset.sum_congr rfl (fun i hi => ?_)
  rw [exp_sub_coe _ (hscK i hi), EReal.coe_mul]

theorem sum_coe (sc : ι → EReal) (K : Finset ι) (hscK : ∀ i ∈ K, sc i ≠ ⊤) (r : ℝ) :
    ∑ i ∈ K, Ideal.exp (sc i - (r : EReal)) = ((∑ i ∈ K, wt (sc i) r : ℝ) : EReal) := by
  rw [coe_sum]
  exact Finset.sum_congr rfl (fun i hi => exp_sub_coe _ (hscK i hi) r)

theorem rescale_wsum (sc : ι → EReal) (K : Finset ι) (hscK : ∀ i ∈ K, sc i ≠ ⊤) (r r' : ℝ) (g : ι → ℝ) :
    Ideal.exp ((r : EReal) - (r' : EReal)) * ∑ i ∈ K, Ideal.exp (sc i - (r : EReal)) * (g i : EReal)
      = ∑ i ∈ K, Ideal.exp (sc i - (r' : EReal)) * (g i : EReal) := by
  rw [wsum_coe sc K hscK r g, wsum_coe sc K hscK r' g, ← EReal.coe_sub, Ideal.exp_coe, ← EReal.coe_mul, Finset.mul_sum]
  congr 1
  refine Finset.sum_congr rfl (fun i _ => ?_)
  rw [← mul_assoc, wt_rescale]

theorem rescale_sum (sc : ι → EReal) (K : Finset ι) (hscK : ∀ i ∈ K, sc i ≠ ⊤) (r r' : ℝ) :
    Ideal.exp ((r : EReal) - (r' : EReal)) * ∑ i ∈ K, Ideal.exp (sc i - (r : EReal))
      = ∑ i ∈ K, Ideal.exp (sc i - (r' : EReal)) := by
  rw [sum_coe sc K hscK r, sum_coe sc K hscK r', ← EReal.coe_sub, Ideal.exp_coe, ← EReal.coe_mul, Finset.mul_sum]
  congr 1
  exact Finset.sum_congr rfl (fun i _ => wt_rescale _ r r')

theorem sup_ne_top (sc : ι → EReal) (T : Finset ι) (hsc : ∀ i ∈ T, sc i ≠ ⊤) : T.sup sc ≠ ⊤ := by
  have h : T.sup sc < ⊤ := (Finset.sup_lt_iff (bot_lt_top)).mpr (fun i hi => lt_top_iff_ne_top.mpr (hsc i hi))
  exact ne_of_lt h

theorem exists_real (x : EReal) (h1 : x ≠ ⊤) (h2 : x ≠ ⊥) : ∃ r : ℝ, x = (r : EReal) :=
  ⟨x.toReal, (EReal.coe_toReal h1 h2).symm⟩

theorem inv_first (sc v : ι → EReal) (T : Finset ι) (hsc : ∀ i ∈ T, sc i ≠ ⊤) (hv : ∀ i ∈ T, ∃ r : ℝ, v i = (r : EReal))
    (hne : ∃ i ∈ T, sc i ≠ ⊥) :
    Inv sc v T (mNew sc T ⊥) (lNew sc T ⊥ 0) (accNew sc v T ⊥ 0) := by
  have hm : mNew sc T ⊥ = T.sup sc := by unfold mNew; exact max_eq_right bot_le
  have hbot : T.sup sc ≠ ⊥ := by
    obtain ⟨i, hi, hib⟩ := hne
    intro hb
    have : sc i ≤ ⊥ := hb ▸ Finset.le_sup hi
    exact hib (le_bot_iff.mp this)
  obtain ⟨r, hr⟩ := exists_real _ (sup_ne_top sc T hsc) hbot
  refine ⟨⟨r, hm.trans hr⟩, hm, ?_, ?_⟩
  · unfold lNew
    rw [hm, hr, EReal.bot_sub, Ideal.exp_bot, zero_mul, zero_add]
  · unfold accNew
    rw [hm, hr, EReal.bot_sub, Ideal.exp_bot, zero_mul, zero_add]

/-- More keys T: rescaling by exp (m - m') makes the state of K the state of K ∪ T. -/
theorem inv_step (sc v : ι → EReal) (K T : Finset ι) (hd : Disjoint K T) (hsc : ∀ i ∈ T, sc i ≠ ⊤)
    (hscK : ∀ i ∈ K, sc i ≠ ⊤) (hv : ∀ i ∈ K ∪ T, ∃ r : ℝ, v i = (r : EReal)) (m l acc : EReal) (h : Inv sc v K m l acc) :
    Inv sc v (K ∪ T) (mNew sc T m) (lNew sc T m l) (accNew sc v T m acc) := by
  obtain ⟨⟨r, hr⟩, hm, hl, hacc⟩ := h
  have hnt : mNew sc T m ≠ ⊤ := by
    unfold mNew
    rcases max_choice m (T.sup sc) with h | h <;> rw [h]
    · rw [hr]; exact EReal.coe_ne_top r
    · exact sup_ne_top sc T hsc
  have hnb : mNew sc T m ≠ ⊥ := by
    unfold mNew
    refine ne_of_gt (lt_of_lt_of_le ?_ (le_max_left _ _))
    rw [hr]; exact EReal.bot_lt_coe r
  obtain ⟨r', hr'⟩ := exists_real _ hnt hnb

  have hvr : ∀ i ∈ K ∪ T, v i = (((v i).toReal : ℝ) : EReal) := by
    intro i hi
    obtain ⟨a, ha⟩ := hv i hi
    rw [ha, EReal.toReal_coe]
  have hvK : ∀ i ∈ K, v i = (((v i).toReal : ℝ) : EReal) := fun i hi => hvr i (Finset.mem_union_left T hi)
  have hvT : ∀ i ∈ T, v i = (((v i).toReal : ℝ) : EReal) := fun i hi => hvr i (Finset.mem_union_right K hi)
  refine ⟨⟨r', hr'⟩, ?_, ?_, ?_⟩
  · unfold mNew
    rw [hm, Finset.sup_union]
  · unfold lNew
    rw [hr', hl, hr, rescale_sum sc K hscK r r', Finset.sum_union hd]
  · unfold accNew
    rw [hr', hacc, hr, Finset.sum_union hd]
    have e1 : ∀ (ρ : ℝ), ∑ i ∈ K, Ideal.exp (sc i - (ρ : EReal)) * v i
        = ∑ i ∈ K, Ideal.exp (sc i - (ρ : EReal)) * (((v i).toReal : ℝ) : EReal) :=
      fun ρ => Finset.sum_congr rfl (fun i hi => by rw [← hvK i hi])
    rw [e1 r, e1 r', rescale_wsum sc K hscK r r']

/-- Once every other key is masked out, acc / l is the softmax-weighted sum over all keys. -/
theorem inv_final [Fintype ι] (sc v : ι → EReal) (K : Finset ι) (hK : ∀ i, i ∉ K → sc i = ⊥) (hscK : ∀ i ∈ K, sc i ≠ ⊤)
    (hv : ∀ i ∈ K, ∃ r : ℝ, v i = (r : EReal)) (m l acc : EReal) (h : Inv sc v K m l acc) :
    acc * Ideal.div 1 l
      = ∑ i, Ideal.div (Ideal.exp (sc i - Finset.univ.sup sc)) (∑ i', Ideal.exp (sc i' - Finset.univ.sup sc)) * v i := by
  obtain ⟨⟨r, hr⟩, hm, hl, hacc⟩ := h

  have hsup : Finset.univ.sup sc = (r : EReal) := by
    rw [← hr, hm]
    apply le_antisymm
    · apply Finset.sup_le
      intro i _
      by_cases hi : i ∈ K
      · exact Finset.le_sup hi
      · rw [hK i hi]; exact bot_le
    · exact Finset.sup_mono (Finset.subset_univ K)

  have hatt : ∃ i ∈ K, sc i = (r : EReal) := by
    by_contra hcon
    have hlt : K.sup sc < (r : EReal) := by
      refine (Finset.sup_lt_iff (EReal.bot_lt_coe r)).mpr (fun i hi => ?_)
      refine lt_of_le_of_ne ?_ (fun heq => hcon ⟨i, hi, heq⟩)
      rw [← hr, hm]; exact Finset.le_sup hi
    rw [← hm, hr] at hlt
    exact lt_irrefl _ hlt

  obtain ⟨L, hLdef⟩ : ∃ L : ℝ, L = ∑ i ∈ K, wt (sc i) r := ⟨_, rfl⟩
  have hLpos : 0 < L := by
    obtain ⟨i0, hi0, hi0r⟩ := hatt
    have h1 : wt (sc i0) r ≤ ∑ i ∈ K, wt (sc i) r :=
      Finset.single_le_sum (f := fun i => wt (sc i) r) (fun i _ => wt_nonneg _ _) hi0
    rw [hi0r, wt_self, ← hLdef] at h1
    exact lt_of_lt_of_le one_pos h1
  have hLne : L ≠ 0 := ne_of_gt hLpos
  have hlL : l = (L : EReal) := by rw [hl, hr, sum_coe sc K hscK r, hLdef]

  have huniv : ∑ i', Ideal.exp (sc i' - (r : EReal)) = (L : EReal) := by
    rw [hLdef, ← sum_coe sc K hscK r]
    refine (Finset.sum_subset (Finset.subset_univ K) (fun i _ hi => ?_)).symm
    rw [hK i hi, EReal.bot_sub, Ideal.exp_bot]
  have hvK : ∀ i ∈ K, v i = (((v i).toReal : ℝ) : EReal) := by
    intro i hi
    obtain ⟨a, ha⟩ := hv i hi
    rw [ha, EReal.toReal_coe]
  rw [hsup, huniv, hlL, Ideal.div_coe hLne, one_mul]

  have hA : acc = ((∑ i ∈ K, wt (sc i) r * (v i).toReal : ℝ) : EReal) := by
    rw [hacc, hr, ← wsum_coe sc K hscK r]
    exact Finset.sum_congr rfl (fun i hi => by rw [← hvK i hi])

  have hR : ∑ i, Ideal.div (Ideal.exp (sc i - (r : EReal))) (L : EReal) * v i
      = ((∑ i ∈ K, wt (sc i) r * (1 / L) * (v i).toReal : ℝ) : EReal) := by
    rw [coe_sum]
    symm
    refine (Finset.sum_congr rfl (fun i hi => ?_)).trans
      (Finset.sum_subset (Finset.subset_univ K) (fun i _ hi => ?_))
    · rw [Ideal.div_coe hLne, exp_sub_coe _ (hscK i hi), EReal.coe_mul, EReal.coe_mul, ← hvK i hi]
    · rw [hK i hi, EReal.bot_sub, Ideal.exp_bot, Ideal.div_coe hLne, zero_mul, zero_mul]
  rw [hR, hA, ← EReal.coe_mul, Finset.sum_mul]
  congr 1
  exact Finset.sum_congr rfl (fun i _ => by ring)

end Cert.Softmax

end
-- ==== Proof.SpecG.lean ====
import proofs.«404193_j6768868458990_3_alg».proof.Proof.Spec

noncomputable section

open scoped BigOperators

namespace Cert.SpecG

open Idealize.ShloMosaic Idealize.ShloMosaic.ValueIdx

variable (q k v : Fin 4 → Fin 2048 → Fin 16 → Fin 64 → EReal)

def score (b : Fin 4) (h : Fin 16) (s s' : Fin 2048) : EReal :=
  (∑ j : Fin 64, q b s h j * k b s' h j) * ((1 / 8 : ℝ) : EReal)
def masked (b : Fin 4) (h : Fin 16) (s s' : Fin 2048) : EReal :=
  if s'.val ≤ s.val then score q k b h s s' else ⊥
def rowMax (b : Fin 4) (h : Fin 16) (s : Fin 2048) : EReal :=
  Finset.univ.sup fun s' : Fin 2048 => masked q k b h s s'
def expw (b : Fin 4) (h : Fin 16) (s s' : Fin 2048) : EReal :=
  Ideal.exp (masked q k b h s s' - rowMax q k b h s)
def rowSum (b : Fin 4) (h : Fin 16) (s : Fin 2048) : EReal :=
  ∑ s' : Fin 2048, expw q k b h s s'
def attn (b : Fin 4) (h : Fin 16) (s s' : Fin 2048) : EReal :=
  Ideal.div (expw q k b h s s') (rowSum q k b h s)
def ctx (b : Fin 4) (h : Fin 16) (s : Fin 2048) (j : Fin 64) : EReal :=
  ∑ s' : Fin 2048, attn q k b h s s' * v b s' h j
def out (wt : Fin 1024 → Fin 1024 → EReal) : Cert.Spec.Sx.Idx → EReal := fun i =>
  ∑ e : Fin 1024, ctx q k v (i 0) (Cert.Spec.headOf e) (i 1) (Cert.Spec.featOf e) * wt e (i 2)

theorem spec_out (x : Cert.Spec.Sx.Idx → EReal) (wa : Cert.Spec.Swa.Idx → EReal) (wp : Cert.Spec.Swp.Idx → EReal) :
    Cert.Spec.out x wa wp
      = out (Cert.Spec.qv x wa) (Cert.Spec.kv x wa) (Cert.Spec.vv x wa) (fun e e' => wp (ix2 e' e)) := rfl

end Cert.SpecG

end
-- ==== Proof.SpecReal.lean ====
import proofs.«404193_j6768868458990_3_alg».proof.Proof.Spec
import proofs.«404193_j6768868458990_3_alg».proof.Proof.Softmax

noncomputable section

open scoped BigOperators

namespace Cert.Spec

open Idealize.ShloMosaic Idealize.ShloMosaic.ValueIdx

theorem mul_real {a b : EReal} (ha : ∃ r : ℝ, a = (r : EReal)) (hb : ∃ r : ℝ, b = (r : EReal)) :
    ∃ r : ℝ, a * b = (r : EReal) := by
  obtain ⟨ra, hra⟩ := ha
  obtain ⟨rb, hrb⟩ := hb
  exact ⟨ra * rb, by rw [hra, hrb, EReal.coe_mul]⟩

theorem sum_real {α : Type} [DecidableEq α] (s : Finset α) (f : α → EReal) (h : ∀ i ∈ s, ∃ r : ℝ, f i = (r : EReal)) :
    ∃ r : ℝ, ∑ i ∈ s, f i = (r : EReal) := by
  refine ⟨∑ i ∈ s, (f i).toReal, ?_⟩
  rw [Cert.Softmax.coe_sum]
  refine Finset.sum_congr rfl (fun i hi => ?_)
  obtain ⟨r, hr⟩ := h i hi
  rw [hr, EReal.toReal_coe]

variable (x : Sx.Idx → EReal) (wa : Swa.Idx → EReal)

theorem proj_real (hx : ∀ i, ∃ r : ℝ, x i = (r : EReal)) (hwa : ∀ i, ∃ r : ℝ, wa i = (r : EReal))
    (b : Fin 4) (s : Fin 2048) (e : Fin 3072) : ∃ r : ℝ, proj x wa b s e = (r : EReal) := by
  unfold proj
  exact sum_real _ _ (fun d _ => mul_real (hx _) (hwa _))

theorem qv_real (hx : ∀ i, ∃ r : ℝ, x i = (r : EReal)) (hwa : ∀ i, ∃ r : ℝ, wa i = (r : EReal))
    (b : Fin 4) (s : Fin 2048) (h : Fin 16) (j : Fin 64) : ∃ r : ℝ, qv x wa b s h j = (r : EReal) :=
  proj_real x wa hx hwa b s _

theorem kv_real (hx : ∀ i, ∃ r : ℝ, x i = (r : EReal)) (hwa : ∀ i, ∃ r : ℝ, wa i = (r : EReal))
    (b : Fin 4) (s : Fin 2048) (h : Fin 16) (j : Fin 64) : ∃ r : ℝ, kv x wa b s h j = (r : EReal) :=
  proj_real x wa hx hwa b s _

theorem vv_real (hx : ∀ i, ∃ r : ℝ, x i = (r : EReal)) (hwa : ∀ i, ∃ r : ℝ, wa i = (r : EReal))
    (b : Fin 4) (s : Fin 2048) (h : Fin 16) (j : Fin 64) : ∃ r : ℝ, vv x wa b s h j = (r : EReal) :=
  proj_real x wa hx hwa b s _

theorem score_real (hx : ∀ i, ∃ r : ℝ, x i = (r : EReal)) (hwa : ∀ i, ∃ r : ℝ, wa i = (r : EReal))
    (b : Fin 4) (h : Fin 16) (s s' : Fin 2048) : ∃ r : ℝ, score x wa b h s s' = (r : EReal) := by
  unfold score
  exact mul_real (sum_real _ _ (fun j _ => mul_real (qv_real x wa hx hwa b s h j) (kv_real x wa hx hwa b s' h j)))
    ⟨_, rfl⟩

theorem masked_ne_top (hx : ∀ i, ∃ r : ℝ, x i = (r : EReal)) (hwa : ∀ i, ∃ r : ℝ, wa i = (r : EReal))
    (b : Fin 4) (h : Fin 16) (s s' : Fin 2048) : masked x wa b h s s' ≠ ⊤ := by
  unfold masked
  split_ifs
  · obtain ⟨r, hr⟩ := score_real x wa hx hwa b h s s'
    rw [hr]; exact EReal.coe_ne_top r
  · exact bot_ne_top

theorem masked_of_lt (b : Fin 4) (h : Fin 16) (s s' : Fin 2048) (hlt : s.val < s'.val) :
    masked x wa b h s s' = ⊥ := by
  unfold masked
  rw [if_neg (Nat.not_le.mpr hlt)]

end Cert.Spec

end
-- ==== Proof.R1Tile.lean ====
import proofs.«404193_j6768868458990_3_alg».proof.Proof.Att
import proofs.«404193_j6768868458990_3_alg».proof.Proof.Softmax
import proofs.«404193_j6768868458990_3_alg».proof.Proof.SpecG
import proofs.«404193_j6768868458990_3_alg».proof.Proof.SpecReal

noncomputable section

open scoped BigOperators

namespace Cert.SpecG

variable (q k : Fin 4 → Fin 2048 → Fin 16 → Fin 64 → EReal)

theorem score_real (hq : ∀ b s h j, ∃ x : ℝ, q b s h j = (x : EReal)) (hk : ∀ b s h j, ∃ x : ℝ, k b s h j = (x : EReal))
    (b : Fin 4) (h : Fin 16) (s s' : Fin 2048) : ∃ x : ℝ, score q k b h s s' = (x : EReal) := by
  unfold score
  exact Cert.Spec.mul_real
    (Cert.Spec.sum_real _ _ (fun j _ => Cert.Spec.mul_real (hq b s h j) (hk b s' h j))) ⟨_, rfl⟩

theorem masked_ne_top (hq : ∀ b s h j, ∃ x : ℝ, q b s h j = (x : EReal)) (hk : ∀ b s h j, ∃ x : ℝ, k b s h j = (x : EReal))
    (b : Fin 4) (h : Fin 16) (s s' : Fin 2048) : masked q k b h s s' ≠ ⊤ := by
  unfold masked
  split_ifs
  · obtain ⟨x, hx⟩ := score_real q k hq hk b h s s'
    rw [hx]; exact EReal.coe_ne_top x
  · exact bot_ne_top

theorem masked_ne_bot_of_le (hq : ∀ b s h j, ∃ x : ℝ, q b s h j = (x : EReal))
    (hk : ∀ b s h j, ∃ x : ℝ, k b s h j = (x : EReal)) (b : Fin 4) (h : Fin 16) (s s' : Fin 2048) (hle : s'.val ≤ s.val) :
    masked q k b h s s' ≠ ⊥ := by
  unfold masked
  rw [if_pos hle]
  obtain ⟨x, hx⟩ := score_real q k hq hk b h s s'
  rw [hx]; exact EReal.coe_ne_bot x

theorem masked_of_lt (b : Fin 4) (h : Fin 16) (s s' : Fin 2048) (hlt : s.val < s'.val) : masked q k b h s s' = ⊥ := by
  unfold masked
  rw [if_neg (Nat.not_le.mpr hlt)]

end Cert.SpecG

namespace Cert.Att

open Idealize.ShloMosaic Cert.Softmax

def pos (t : ℕ) (ht : t < 4) (c : Fin 512) : Fin 2048 := ⟨512 * t + c.val, by have := c.isLt; omega⟩

theorem pos_val (t : ℕ) (ht : t < 4) (c : Fin 512) : (pos t ht c).val = 512 * t + c.val := rfl

theorem pos_injective (t : ℕ) (ht : t < 4) : Function.Injective (pos t ht) := by
  intro a b hab
  have e := congrArg Fin.val hab
  rw [pos_val, pos_val] at e
  exact Fin.ext (by omega)

def posEmb (t : ℕ) (ht : t < 4) : Fin 512 ↪ Fin 2048 := ⟨pos t ht, pos_injective t ht⟩

def tile (t : ℕ) (ht : t < 4) : Finset (Fin 2048) := Finset.univ.map (posEmb t ht)

def below (n : ℕ) : Finset (Fin 2048) := Finset.univ.filter fun s' : Fin 2048 => s'.val < 512 * n

theorem mem_tile (t : ℕ) (ht : t < 4) (i : Fin 2048) : i ∈ tile t ht ↔ 512 * t ≤ i.val ∧ i.val < 512 * (t + 1) := by
  unfold tile
  rw [Finset.mem_map]
  constructor
  · rintro ⟨c, _, rfl⟩
    show 512 * t ≤ (pos t ht c).val ∧ (pos t ht c).val < 512 * (t + 1)
    rw [pos_val]; have := c.isLt; omega
  · rintro ⟨h1, h2⟩
    refine ⟨⟨i.val - 512 * t, by omega⟩, Finset.mem_univ _, Fin.ext ?_⟩
    show 512 * t + (i.val - 512 * t) = i.val
    omega

theorem mem_below (n : ℕ) (i : Fin 2048) : i ∈ below n ↔ i.val < 512 * n := by
  unfold below
  rw [Finset.mem_filter]
  exact ⟨fun h => h.2, fun h => ⟨Finset.mem_univ _, h⟩⟩

theorem below_succ (t : ℕ) (ht : t < 4) : below (t + 1) = below t ∪ tile t ht := by
  ext i
  rw [Finset.mem_union, mem_below, mem_below, mem_tile]
  omega

theorem below_one : below 1 = tile 0 (by norm_num) := by
  ext i
  rw [mem_below, mem_tile]
  omega

theorem disjoint_below_tile (t : ℕ) (ht : t < 4) : Disjoint (below t) (tile t ht) := by
  rw [Finset.disjoint_left]
  intro i h1 h2
  rw [mem_below] at h1
  rw [mem_tile] at h2
  omega

theorem sum_tile (t : ℕ) (ht : t < 4) (f : Fin 2048 → EReal) : ∑ i ∈ tile t ht, f i = ∑ c : Fin 512, f (pos t ht c) := by
  unfold tile
  rw [Finset.sum_map]
  rfl

theorem sup_tile (t : ℕ) (ht : t < 4) (f : Fin 2048 → EReal) :
    (tile t ht).sup f = Finset.univ.sup fun c : Fin 512 => f (pos t ht c) := by
  unfold tile
  rw [Finset.sup_map]
  rfl

theorem tileScore_eq (Q K : Fin 4 → Fin 2048 → Fin 16 → Fin 64 → EReal) (b : Fin 4) (qi ki : ℕ) (hqi : qi < 4) (hki : ki < 4)
    (qb kb : Fin 512 → Fin 16 → Fin 64 → EReal) (msk : Fin 512 → Fin 512 → Prop) [∀ r c, Decidable (msk r c)]
    (hq : ∀ r h j, qb r h j = Q b (pos qi hqi r) h j) (hk : ∀ c h j, kb c h j = K b (pos ki hki c) h j)
    (hm : ∀ r c, msk r c ↔ 512 * ki + c.val ≤ 512 * qi + r.val) (h : Fin 16) (r c : Fin 512) :
    tileScore qb kb msk h r c = Cert.SpecG.masked Q K b h (pos qi hqi r) (pos ki hki c) := by
  unfold tileScore Cert.SpecG.masked Cert.SpecG.score
  simp only [hq, hk]
  exact if_congr (hm r c) rfl rfl

section Step

variable (S : Fin 16 → Fin 512 → Fin 512 → EReal) (vb : Fin 512 → Fin 16 → Fin 64 → EReal)
  (m l : Fin 16 → Fin 512 → EReal) (acc : Fin 16 → Fin 512 → Fin 64 → EReal)
  (sc v : Fin 2048 → EReal) (t : ℕ) (ht : t < 4) (h : Fin 16) (r : Fin 512) (j : Fin 64)

theorem stepM_eq (hS : ∀ c, S h r c = sc (pos t ht c)) : stepM S m h r = mNew sc (tile t ht) (m h r) := by
  unfold stepM mNew
  rw [sup_tile]
  simp only [hS]

theorem stepL_eq (hS : ∀ c, S h r c = sc (pos t ht c)) : stepL S m l h r = lNew sc (tile t ht) (m h r) (l h r) := by
  unfold stepL lNew
  rw [stepM_eq S m sc t ht h r hS, sum_tile]
  simp only [hS]

theorem stepAcc_eq (hS : ∀ c, S h r c = sc (pos t ht c)) (hvb : ∀ c, vb c h j = v (pos t ht c)) :
    stepAcc S vb m acc h r j = accNew sc v (tile t ht) (m h r) (acc h r j) := by
  unfold stepAcc accNew
  rw [stepM_eq S m sc t ht h r hS, sum_tile]
  simp only [hS, hvb]

theorem inv_tile_step (hsc : ∀ i, sc i ≠ ⊤) (hv : ∀ i, ∃ x : ℝ, v i = (x : EReal))
    (hS : ∀ c, S h r c = sc (pos t ht c)) (hvb : ∀ c, vb c h j = v (pos t ht c))
    (hinv : Inv sc v (below t) (m h r) (l h r) (acc h r j)) :
    Inv sc v (below (t + 1)) (stepM S m h r) (stepL S m l h r) (stepAcc S vb m acc h r j) := by
  rw [below_succ t ht, stepM_eq S m sc t ht h r hS, stepL_eq S m l sc t ht h r hS,
    stepAcc_eq S vb m acc sc v t ht h r j hS hvb]
  exact inv_step sc v (below t) (tile t ht) (disjoint_below_tile t ht) (fun i _ => hsc i) (fun i _ => hsc i)
    (fun i _ => hv i) _ _ _ hinv

end Step

theorem inv_tile_first (S : Fin 16 → Fin 512 → Fin 512 → EReal) (vb : Fin 512 → Fin 16 → Fin 64 → EReal)
    (sc v : Fin 2048 → EReal) (h : Fin 16) (r : Fin 512) (j : Fin 64)
    (hsc : ∀ i, sc i ≠ ⊤) (hv : ∀ i, ∃ x : ℝ, v i = (x : EReal)) (hne : ∃ c : Fin 512, sc (pos 0 (by norm_num) c) ≠ ⊥)
    (hS : ∀ c, S h r c = sc (pos 0 (by norm_num) c)) (hvb : ∀ c, vb c h j = v (pos 0 (by norm_num) c)) :
    Inv sc v (below 1) (stepM S m0 h r) (stepL S m0 l0 h r) (stepAcc S vb m0 acc0 h r j) := by
  rw [below_one, stepM_eq S m0 sc 0 (by norm_num) h r hS, stepL_eq S m0 l0 sc 0 (by norm_num) h r hS,
    stepAcc_eq S vb m0 acc0 sc v 0 (by norm_num) h r j hS hvb]
  obtain ⟨c0, hc0⟩ := hne
  exact inv_first sc v (tile 0 (by norm_num)) (fun i _ => hsc i) (fun i _ => hv i)
    ⟨pos 0 (by norm_num) c0, (mem_tile 0 (by norm_num) _).mpr (by rw [pos_val]; have := c0.isLt; omega), hc0⟩

section Points

variable (Q K Vv : Fin 4 → Fin 2048 → Fin 16 → Fin 64 → EReal)
  (M L : (n : ℕ) → n < 64 → Fin 16 → Fin 512 → EReal)
  (A : (n : ℕ) → n < 64 → Fin 16 → Fin 512 → Fin 64 → EReal)
  (St : (n : ℕ) → n < 64 → Fin 16 → Fin 512 → Fin 512 → EReal)
  (Vb : (n : ℕ) → n < 64 → Fin 512 → Fin 16 → Fin 64 → EReal)

/-- Along the key blocks of a query block the scratch carries the running state of the keys up to the current block, or to the diagonal block once past it. -/
theorem inv_points
    (hQ : ∀ b s h j, ∃ x : ℝ, Q b s h j = (x : EReal)) (hK : ∀ b s h j, ∃ x : ℝ, K b s h j = (x : EReal))
    (hV : ∀ b s h j, ∃ x : ℝ, Vv b s h j = (x : EReal))
    (hSt : ∀ (n : ℕ) (hn : n < 64) (b : Fin 4) (qi : ℕ) (hqi : qi < 4) (ki : ℕ) (hki : ki < 4),
      n = 16 * b.val + 4 * qi + ki → ki ≤ qi → ∀ h r c,
        St n hn h r c = Cert.SpecG.masked Q K b h (pos qi hqi r) (pos ki hki c))
    (hVb : ∀ (n : ℕ) (hn : n < 64) (b : Fin 4) (qi : ℕ) (hqi : qi < 4) (ki : ℕ) (hki : ki < 4),
      n = 16 * b.val + 4 * qi + ki → ki ≤ qi → ∀ c h j, Vb n hn c h j = Vv b (pos ki hki c) h j)
    (hA : ∀ (n : ℕ) (hn : n < 64), n % 4 = 0 → ∀ h r,
      M n hn h r = stepM (St n hn) m0 h r ∧ L n hn h r = stepL (St n hn) m0 l0 h r
        ∧ ∀ j, A n hn h r j = stepAcc (St n hn) (Vb n hn) m0 acc0 h r j)
    (hB : ∀ (n : ℕ) (hn : n < 64), ¬n % 4 = 0 → n % 4 ≤ n / 4 % 4 → ∀ h r,
      M n hn h r = stepM (St n hn) (M (n - 1) (Nat.lt_of_le_of_lt (Nat.sub_le n 1) hn)) h r
        ∧ L n hn h r = stepL (St n hn) (M (n - 1) (Nat.lt_of_le_of_lt (Nat.sub_le n 1) hn))
            (L (n - 1) (Nat.lt_of_le_of_lt (Nat.sub_le n 1) hn)) h r
        ∧ ∀ j, A n hn h r j = stepAcc (St n hn) (Vb n hn) (M (n - 1) (Nat.lt_of_le_of_lt (Nat.sub_le n 1) hn))
            (A (n - 1) (Nat.lt_of_le_of_lt (Nat.sub_le n 1) hn)) h r j)
    (hC : ∀ (n : ℕ) (hn : n < 64), ¬n % 4 = 0 → ¬n % 4 ≤ n / 4 % 4 → ∀ h r,
      M n hn h r = M (n - 1) (Nat.lt_of_le_of_lt (Nat.sub_le n 1) hn) h r
        ∧ L n hn h r = L (n - 1) (Nat.lt_of_le_of_lt (Nat.sub_le n 1) hn) h r
        ∧ ∀ j, A n hn h r j = A (n - 1) (Nat.lt_of_le_of_lt (Nat.sub_le n 1) hn) h r j)
    (n : ℕ) (hn : n < 64) :
    ∀ (b : Fin 4) (qi : ℕ) (hqi : qi < 4) (ki : ℕ) (_ : ki < 4), n = 16 * b.val + 4 * qi + ki →
      ∀ (h : Fin 16) (r : Fin 512) (j : Fin 64),
        Inv (fun s' : Fin 2048 => Cert.SpecG.masked Q K b h (pos qi hqi r) s') (fun s' : Fin 2048 => Vv b s' h j)
          (below (min ki qi + 1)) (M n hn h r) (L n hn h r) (A n hn h r j) := by
  induction n using Nat.strong_induction_on with
  | _ n ih =>
    intro b qi hqi ki hki hnb h r j
    have hsc : ∀ i, Cert.SpecG.masked Q K b h (pos qi hqi r) i ≠ ⊤ :=
      fun i => Cert.SpecG.masked_ne_top Q K hQ hK b h _ i
    have hv : ∀ i : Fin 2048, ∃ x : ℝ, Vv b i h j = (x : EReal) := fun i => hV b i h j
    by_cases hk0 : ki = 0
    ·
      subst hk0
      have h0 : n % 4 = 0 := by omega
      obtain ⟨eM, eL, eA⟩ := hA n hn h0 h r
      have e1 : min 0 qi + 1 = 1 := by omega
      rw [eM, eL, eA j, e1]
      refine inv_tile_first (St n hn) (Vb n hn) _ _ h r j hsc hv ⟨⟨0, by norm_num⟩, ?_⟩ ?_ ?_
      · exact Cert.SpecG.masked_ne_bot_of_le Q K hQ hK b h _ _ (by rw [pos_val, pos_val]; show 512 * 0 + 0 ≤ _; omega)
      · exact fun c => hSt n hn b qi hqi 0 (by norm_num) hnb (Nat.zero_le _) h r c
      · exact fun c => hVb n hn b qi hqi 0 (by norm_num) hnb (Nat.zero_le _) c h j
    · have h0 : ¬n % 4 = 0 := by omega
      have hp : n - 1 < n := by omega
      have hnb' : n - 1 = 16 * b.val + 4 * qi + (ki - 1) := by omega
      have hprev := ih (n - 1) hp (Nat.lt_of_le_of_lt (Nat.sub_le n 1) hn) b qi hqi (ki - 1) (by omega) hnb' h r j
      by_cases hle : ki ≤ qi
      ·
        have h1 : n % 4 ≤ n / 4 % 4 := by omega
        obtain ⟨eM, eL, eA⟩ := hB n hn h0 h1 h r
        have e1 : min ki qi + 1 = ki + 1 := by omega
        have e2 : min (ki - 1) qi + 1 = ki := by omega
        rw [e2] at hprev
        rw [eM, eL, eA j, e1]
        exact inv_tile_step (St n hn) (Vb n hn) _ _ _ _ _ ki hki h r j hsc hv
          (fun c => hSt n hn b qi hqi ki hki hnb hle h r c) (fun c => hVb n hn b qi hqi ki hki hnb hle c h j) hprev
      ·
        have h1 : ¬n % 4 ≤ n / 4 % 4 := by omega
        obtain ⟨eM, eL, eA⟩ := hC n hn h0 h1 h r
        have e1 : min ki qi + 1 = min (ki - 1) qi + 1 := by omega
        rw [eM, eL, eA j, e1]
        exact hprev

end Points

end Cert.Att

end
-- ==== Proof.R1Inv.lean ====
import proofs.«404193_j6768868458990_3_alg».proof.Proof.R1Dat
import proofs.«404193_j6768868458990_3_alg».proof.Proof.R1Vals
import proofs.«404193_j6768868458990_3_alg».proof.Proof.R1Blk
import proofs.«404193_j6768868458990_3_alg».proof.Proof.R1Tile

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 ix3 ix4)
open scoped BigOperators

section Invariant

variable (V : (c : Dev nD) → (b : Ref sig .tc) → Buf (Elt Ideal) ((c : Thread nD τ).loc b))

def Qf (c : Dev nD) : Fin 4 → Fin 2048 → Fin 16 → Fin 64 → EReal := fun b s h j => qArr V c (ix4 b s h j)
def Kf (c : Dev nD) : Fin 4 → Fin 2048 → Fin 16 → Fin 64 → EReal := fun b s h j => kArr V c (ix4 b s h j)
def Vf (c : Dev nD) : Fin 4 → Fin 2048 → Fin 16 → Fin 64 → EReal := fun b s h j => vArr V c (ix4 b s h j)

def St1 (c : Dev nD) (t : Fin cfg1.N) : Fin 16 → Fin 512 → Fin 512 → EReal :=
  Cert.Att.tileScore (qOf (iblk1 V c 0 t)) (qOf (iblk1 V c 1 t)) (mskOf (grid1.coords t))

theorem pred_lt1 (t : Fin cfg1.N) : t.val - 1 < cfg1.N := Nat.lt_of_le_of_lt (Nat.sub_le _ _) t.isLt

theorem coords1_facts : ∀ t : Fin cfg1.N,
    ((grid1.coords t) 1).val = t.val / 4 % 4 ∧ ((grid1.coords t) 2).val = t.val % 4 :=
  (by decide +kernel : ∀ t : Fin grid1.N, ((grid1.coords t) 1).val = t.val / 4 % 4 ∧ ((grid1.coords t) 2).val = t.val % 4)

theorem ix4_congr {n0 n1 n2 n3 : ℕ} {a a' : Fin n0} {b b' : Fin n1} (ha : a.val = a'.val) (hb : b.val = b'.val)
    (x : Fin n2) (y : Fin n3) : ix4 a b x y = ix4 a' b' x y := by
  rw [Fin.ext ha, Fin.ext hb]

theorem state1_A (c : Dev nD) (t : Fin cfg1.N) (h0 : t.val % 4 = 0) (h : Fin 16) (r : Fin 512) :
    sOf (outsAt1 V c t.val t.isLt).2.1 h r = Cert.Att.stepM (St1 V c t) Cert.Att.m0 h r
    ∧ sOf (outsAt1 V c t.val t.isLt).2.2.1 h r = Cert.Att.stepL (St1 V c t) Cert.Att.m0 Cert.Att.l0 h r
    ∧ ∀ j, aOf (outsAt1 V c t.val t.isLt).2.2.2 h r j
        = Cert.Att.stepAcc (St1 V c t) (qOf (iblk1 V c 2 t)) Cert.Att.m0 Cert.Att.acc0 h r j := by
  rw [outsAt1_A V c t h0]
  unfold sOf aOf St1
  dsimp only
  refine ⟨?_, ?_, fun j => ?_⟩
  · unfold sout1_A_0
    rw [View.read_writes_eq_canon _ _ _ (scover1_A_0 (F := Ideal) _ _ _ _ _ _ _ _ _ _ _ _ _ _ _ _ _ _ _ _ _ _ _ _ _)]
    exact valA_m _ _ _ _ _ _ _ _ _ _ _ _ _ _ _ _ _ _ _ _ _ _ _ _ _ h r
  · unfold sout1_A_1
    rw [View.read_writes_eq_canon _ _ _ (scover1_A_1 (F := Ideal) _ _ _ _ _ _ _ _ _ _ _ _ _ _ _ _ _ _ _ _ _ _ _ _ _)]
    exact valA_l _ _ _ _ _ _ _ _ _ _ _ _ _ _ _ _ _ _ _ _ _ _ _ _ _ h r
  · unfold sout1_A_2
    rw [View.read_writes_eq_canon _ _ _ (scover1_A_2 (F := Ideal) _ _ _ _ _ _ _ _ _ _ _ _ _ _ _ _ _ _ _ _ _ _ _ _ _)]
    exact valA_acc _ _ _ _ _ _ _ _ _ _ _ _ _ _ _ _ _ _ _ _ _ _ _ _ _ h r j

theorem state1_B (c : Dev nD) (t : Fin cfg1.N) (h0 : ¬t.val % 4 = 0) (h1 : t.val % 4 ≤ t.val / 4 % 4) (h2 : ¬t.val % 4 = 3) (h : Fin 16) (r : Fin 512) :
    sOf (outsAt1 V c t.val t.isLt).2.1 h r = Cert.Att.stepM (St1 V c t) (sOf (outsAt1 V c (t.val - 1) (pred_lt1 t)).2.1) h r
    ∧ sOf (outsAt1 V c t.val t.isLt).2.2.1 h r
        = Cert.Att.stepL (St1 V c t) (sOf (outsAt1 V c (t.val - 1) (pred_lt1 t)).2.1) (sOf (outsAt1 V c (t.val - 1) (pred_lt1 t)).2.2.1) h r
    ∧ ∀ j, aOf (outsAt1 V c t.val t.isLt).2.2.2 h r j
        = Cert.Att.stepAcc (St1 V c t) (qOf (iblk1 V c 2 t)) (sOf (outsAt1 V c (t.val - 1) (pred_lt1 t)).2.1) (aOf (outsAt1 V c (t.val - 1) (pred_lt1 t)).2.2.2) h r j := by
  rw [outsAt1_B V c t h0 h1 h2]
  unfold sOf aOf St1
  dsimp only
  refine ⟨?_, ?_, fun j => ?_⟩
  · unfold sout1_B_0
    rw [View.read_writes_eq_canon _ _ _ (scover1_B_0 (F := Ideal) _ _ _ _ _ _ _ _ _ _ _ _ _ _ _ _ _ _ _ _ _ _ _ _ _ _ _ _)]
    exact valB_m _ _ _ _ _ _ _ _ _ _ _ _ _ _ _ _ _ _ _ _ _ _ _ _ _ _ _ _ h r
  · unfold sout1_B_1
    rw [View.read_writes_eq_canon _ _ _ (scover1_B_1 (F := Ideal) _ _ _ _ _ _ _ _ _ _ _ _ _ _ _ _ _ _ _ _ _ _ _ _ _ _ _ _)]
    exact valB_l _ _ _ _ _ _ _ _ _ _ _ _ _ _ _ _ _ _ _ _ _ _ _ _ _ _ _ _ h r
  · unfold sout1_B_2
    rw [View.read_writes_eq_canon _ _ _ (scover1_B_2 (F := Ideal) _ _ _ _ _ _ _ _ _ _ _ _ _ _ _ _ _ _ _ _ _ _ _ _ _ _ _ _)]
    exact valB_acc _ _ _ _ _ _ _ _ _ _ _ _ _ _ _ _ _ _ _ _ _ _ _ _ _ _ _ _ h r j

theorem state1_E (c : Dev nD) (t : Fin cfg1.N) (h0 : ¬t.val % 4 = 0) (h1 : t.val % 4 ≤ t.val / 4 % 4) (h2 : t.val % 4 = 3) (h : Fin 16) (r : Fin 512) :
    sOf (outsAt1 V c t.val t.isLt).2.1 h r = Cert.Att.stepM (St1 V c t) (sOf (outsAt1 V c (t.val - 1) (pred_lt1 t)).2.1) h r
    ∧ sOf (outsAt1 V c t.val t.isLt).2.2.1 h r
        = Cert.Att.stepL (St1 V c t) (sOf (outsAt1 V c (t.val - 1) (pred_lt1 t)).2.1) (sOf (outsAt1 V c (t.val - 1) (pred_lt1 t)).2.2.1) h r
    ∧ ∀ j, aOf (outsAt1 V c t.val t.isLt).2.2.2 h r j
        = Cert.Att.stepAcc (St1 V c t) (qOf (iblk1 V c 2 t)) (sOf (outsAt1 V c (t.val - 1) (pred_lt1 t)).2.1) (aOf (outsAt1 V c (t.val - 1) (pred_lt1 t)).2.2.2) h r j := by
  rw [outsAt1_E V c t h0 h1 h2]
  unfold sOf aOf St1
  dsimp only
  refine ⟨?_, ?_, fun j => ?_⟩
  · unfold sout1_E_0
    rw [View.read_writes_eq_canon _ _ _ (scover1_E_0 (F := Ideal) _ _ _ _ _ _ _ _ _ _ _ _ _ _ _ _ _ _ _ _ _ _ _ _ _ _ _ _)]
    exact valE_m _ _ _ _ _ _ _ _ _ _ _ _ _ _ _ _ _ _ _ _ _ _ _ _ _ _ _ _ h r
  · unfold sout1_E_1
    rw [View.read_writes_eq_canon _ _ _ (scover1_E_1 (F := Ideal) _ _ _ _ _ _ _ _ _ _ _ _ _ _ _ _ _ _ _ _ _ _ _ _ _ _ _ _)]
    exact valE_l _ _ _ _ _ _ _ _ _ _ _ _ _ _ _ _ _ _ _ _ _ _ _ _ _ _ _ _ h r
  · unfold sout1_E_2
    rw [View.read_writes_eq_canon _ _ _ (scover1_E_2 (F := Ideal) _ _ _ _ _ _ _ _ _ _ _ _ _ _ _ _ _ _ _ _ _ _ _ _ _ _ _ _)]
    exact valE_acc _ _ _ _ _ _ _ _ _ _ _ _ _ _ _ _ _ _ _ _ _ _ _ _ _ _ _ _ h r j

theorem state1_CD (c : Dev nD) (t : Fin cfg1.N) (h0 : ¬t.val % 4 = 0) (h1 : ¬t.val % 4 ≤ t.val / 4 % 4) :
    (outsAt1 V c t.val t.isLt).2.1 = (outsAt1 V c (t.val - 1) (pred_lt1 t)).2.1
    ∧ (outsAt1 V c t.val t.isLt).2.2.1 = (outsAt1 V c (t.val - 1) (pred_lt1 t)).2.2.1
    ∧ (outsAt1 V c t.val t.isLt).2.2.2 = (outsAt1 V c (t.val - 1) (pred_lt1 t)).2.2.2 := by
  by_cases h2 : t.val % 4 = 3
  · rw [outsAt1_D V c t h0 h1 h2]
    exact ⟨rfl, rfl, rfl⟩
  · rw [outsAt1_C V c t h0 h1 h2]
    exact ⟨rfl, rfl, rfl⟩

theorem state1_BE (c : Dev nD) (t : Fin cfg1.N) (h0 : ¬t.val % 4 = 0) (h1 : t.val % 4 ≤ t.val / 4 % 4) (h : Fin 16) (r : Fin 512) :
    sOf (outsAt1 V c t.val t.isLt).2.1 h r = Cert.Att.stepM (St1 V c t) (sOf (outsAt1 V c (t.val - 1) (pred_lt1 t)).2.1) h r
    ∧ sOf (outsAt1 V c t.val t.isLt).2.2.1 h r
        = Cert.Att.stepL (St1 V c t) (sOf (outsAt1 V c (t.val - 1) (pred_lt1 t)).2.1) (sOf (outsAt1 V c (t.val - 1) (pred_lt1 t)).2.2.1) h r
    ∧ ∀ j, aOf (outsAt1 V c t.val t.isLt).2.2.2 h r j
        = Cert.Att.stepAcc (St1 V c t) (qOf (iblk1 V c 2 t)) (sOf (outsAt1 V c (t.val - 1) (pred_lt1 t)).2.1) (aOf (outsAt1 V c (t.val - 1) (pred_lt1 t)).2.2.2) h r j := by
  by_cases h2 : t.val % 4 = 3
  · exact state1_E V c t h0 h1 h2 h r
  · exact state1_B V c t h0 h1 h2 h r

theorem St1_eq (c : Dev nD) (t : Fin cfg1.N) (b : Fin 4) (qi : ℕ) (hqi : qi < 4) (ki : ℕ) (hki : ki < 4)
    (ht : t.val = 16 * b.val + 4 * qi + ki) (hle : ki ≤ qi) (h : Fin 16) (r c' : Fin 512) :
    St1 V c t h r c' = Cert.SpecG.masked (Qf V c) (Kf V c) b h (Cert.Att.pos qi hqi r) (Cert.Att.pos ki hki c') := by
  have hb := b.isLt
  obtain ⟨e1, e2⟩ := coords1_facts t
  refine Cert.Att.tileScore_eq (Qf V c) (Kf V c) b qi ki hqi hki _ _ _ (fun r h j => ?_) (fun c' h j => ?_)
    (fun r c' => ?_) h r c'
  · rw [qblk_apply]
    exact congrArg (qArr V c) (ix4_congr (by show t.val / 16 = b.val; omega)
      (by show 512 * (t.val / 4 % 4) + r.val = 512 * qi + r.val; omega) h j)
  · rw [kblk_apply]
    exact congrArg (kArr V c) (ix4_congr (by show t.val / 16 = b.val; omega)
      (by show 512 * min (t.val % 4) (t.val / 4 % 4) + c'.val = 512 * ki + c'.val; omega) h j)
  · unfold mskOf
    rw [e1, e2]
    omega

theorem Vb1_eq (c : Dev nD) (t : Fin cfg1.N) (b : Fin 4) (qi : ℕ) (hqi : qi < 4) (ki : ℕ) (hki : ki < 4)
    (ht : t.val = 16 * b.val + 4 * qi + ki) (hle : ki ≤ qi) (c' : Fin 512) (h : Fin 16) (j : Fin 64) :
    qOf (iblk1 V c 2 t) c' h j = Vf V c b (Cert.Att.pos ki hki c') h j := by
  have hb := b.isLt
  rw [vblk_apply]
  exact congrArg (vArr V c) (ix4_congr (by show t.val / 16 = b.val; omega)
    (by show 512 * min (t.val % 4) (t.val / 4 % 4) + c'.val = 512 * ki + c'.val; omega) h j)

theorem lt_N1 {n : ℕ} (hn : n < 64) : n < cfg1.N := lt_of_lt_of_eq hn N_1.symm

theorem inv_point_at (c : Dev nD) (hq : ∀ i, ∃ x : ℝ, qArr V c i = (x : EReal)) (hk : ∀ i, ∃ x : ℝ, kArr V c i = (x : EReal))
    (hv : ∀ i, ∃ x : ℝ, vArr V c i = (x : EReal))
    (n : ℕ) (hn : n < 64) (b : Fin 4) (qi : ℕ) (hqi : qi < 4) (ki : ℕ) (hki : ki < 4) (hnb : n = 16 * b.val + 4 * qi + ki)
    (h : Fin 16) (r : Fin 512) (j : Fin 64) :
    Cert.Softmax.Inv (fun s' : Fin 2048 => Cert.SpecG.masked (Qf V c) (Kf V c) b h (Cert.Att.pos qi hqi r) s')
      (fun s' : Fin 2048 => Vf V c b s' h j) (Cert.Att.below (min ki qi + 1))
      (sOf (outsAt1 V c n (lt_N1 hn)).2.1 h r) (sOf (outsAt1 V c n (lt_N1 hn)).2.2.1 h r)
      (aOf (outsAt1 V c n (lt_N1 hn)).2.2.2 h r j) := by
  refine Cert.Att.inv_points (Qf V c) (Kf V c) (Vf V c)
    (fun n hn => sOf (outsAt1 V c n (lt_N1 hn)).2.1) (fun n hn => sOf (outsAt1 V c n (lt_N1 hn)).2.2.1)
    (fun n hn => aOf (outsAt1 V c n (lt_N1 hn)).2.2.2) (fun n hn => St1 V c ⟨n, lt_N1 hn⟩)
    (fun n hn => qOf (iblk1 V c 2 ⟨n, lt_N1 hn⟩))
    (fun b s h j => hq (ix4 b s h j)) (fun b s h j => hk (ix4 b s h j)) (fun b s h j => hv (ix4 b s h j))
    ?_ ?_ ?_ ?_ ?_ n hn b qi hqi ki hki hnb h r j
  · intro n hn b qi hqi ki hki hnb hle h r c'
    exact St1_eq V c ⟨n, lt_N1 hn⟩ b qi hqi ki hki hnb hle h r c'
  · intro n hn b qi hqi ki hki hnb hle c' h j
    exact Vb1_eq V c ⟨n, lt_N1 hn⟩ b qi hqi ki hki hnb hle c' h j
  · intro n hn h0 h r
    exact state1_A V c ⟨n, lt_N1 hn⟩ h0 h r
  · intro n hn h0 h1 h r
    exact state1_BE V c ⟨n, lt_N1 hn⟩ h0 h1 h r
  · intro n hn h0 h1 h r
    obtain ⟨e0, e1, e2⟩ := state1_CD V c ⟨n, lt_N1 hn⟩ h0 h1
    exact ⟨congrArg (fun x => sOf x h r) e0, congrArg (fun x => sOf x h r) e1, fun j => congrArg (fun x => aOf x h r j) e2⟩

theorem ctx_point (c : Dev nD) (hq : ∀ i, ∃ x : ℝ, qArr V c i = (x : EReal)) (hk : ∀ i, ∃ x : ℝ, kArr V c i = (x : EReal))
    (hv : ∀ i, ∃ x : ℝ, vArr V c i = (x : EReal)) (t : Fin cfg1.N) (b : Fin 4) (qi : ℕ) (hqi : qi < 4)
    (ht : t.val = 16 * b.val + 4 * qi + 3) (h : Fin 16) (r : Fin 512) (j : Fin 64) :
    aOf (outsAt1 V c t.val t.isLt).2.2.2 h r j * Ideal.div 1 (sOf (outsAt1 V c t.val t.isLt).2.2.1 h r)
      = Cert.SpecG.ctx (Qf V c) (Kf V c) (Vf V c) b h (Cert.Att.pos qi hqi r) j := by
  have hinv := inv_point_at V c hq hk hv t.val (pt1_lt t) b qi hqi 3 (by norm_num) ht h r j
  have e : min 3 qi + 1 = qi + 1 := by omega
  rw [e] at hinv
  unfold Cert.SpecG.ctx Cert.SpecG.attn Cert.SpecG.rowSum Cert.SpecG.expw Cert.SpecG.rowMax
  refine Cert.Softmax.inv_final _ _ (Cert.Att.below (qi + 1)) (fun i hi => ?_) (fun i _ => ?_) (fun i _ => hv _) _ _ _ hinv
  · refine Cert.SpecG.masked_of_lt _ _ b h _ i ?_
    rw [Cert.Att.mem_below] at hi
    rw [Cert.Att.pos_val]
    have := r.isLt
    omega
  · exact Cert.SpecG.masked_ne_top _ _ (fun b s h j => hq (ix4 b s h j)) (fun b s h j => hk (ix4 b s h j)) b h _ i

end Invariant

end Cert.KernelIdeal.Hand

end
-- ==== Proof.R1FinMath.lean ====
import proofs.«404193_j6768868458990_3_alg».proof.Proof.Att
import proofs.«404193_j6768868458990_3_alg».proof.Proof.Softmax
import proofs.«404193_j6768868458990_3_alg».proof.Proof.SpecG
import proofs.«404193_j6768868458990_3_alg».proof.Proof.R1Tile

noncomputable section

open scoped BigOperators

namespace Cert.FinMath

open Idealize.ShloMosaic Idealize.ShloMosaic.ValueIdx

variable (q k v : Fin 4 → Fin 2048 → Fin 16 → Fin 64 → EReal)

theorem out_of_ctx (wt : Fin 1024 → Fin 1024 → EReal) (b : Fin 4) (s : Fin 2048) (e' : Fin 1024)
    (lf : Fin 16 → EReal) (accf : Fin 16 → Fin 64 → EReal)
    (hctx : ∀ h j, accf h j * Ideal.div 1 (lf h) = Cert.SpecG.ctx q k v b h s j) :
    ∑ e : Fin 1024, (accf (Cert.Att.headOf e) (Cert.Att.featOf e) * Ideal.div 1 (lf (Cert.Att.headOf e))) * wt e e'
      = Cert.SpecG.out q k v wt (ix3 b s e') := by
  unfold Cert.SpecG.out
  refine Finset.sum_congr rfl fun e _ => ?_
  rw [hctx]
  rfl

end Cert.FinMath

end
-- ==== Proof.R1Final.lean ====
import proofs.«404193_j6768868458990_3_alg».proof.Proof.R1Dat
import proofs.«404193_j6768868458990_3_alg».proof.Proof.R1Vals
import proofs.«404193_j6768868458990_3_alg».proof.Proof.R1Blk
import proofs.«404193_j6768868458990_3_alg».proof.Proof.R1Inv
import proofs.«404193_j6768868458990_3_alg».proof.Proof.R1FinMath
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx (ix2 ix3 ix4)
open scoped BigOperators

section CaseE
variable (c : Dev nD) (i : grid1.Coords) (arg3 : Memref sig .tc .vmem S1x512x16x64 .bf16) (harg3 : arg3.IsWhole) (arg4 : Memref sig .tc .vmem S1x512x16x64 .bf16) (harg4 : arg4.IsWhole) (arg5 : Memref sig .tc .vmem S1x512x16x64 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond1_0 i) (hc1 : cond1_1 i) (hc2 : cond1_2 i) (x0 x1 x2 : Vec Ideal S1x512x16x64 .bf16) (x3 : Vec Ideal S1024x1024 .bf16) (xs0 xs1 : Vec Ideal S16x512x1 .f32) (xs2 : Vec Ideal S16x512x64 .f32)

theorem soutE_1_apply (h : Fin 16) (r : Fin 512) :
    sOf (sout1_E_1 (F := Ideal) c i arg3 harg3 arg4 harg4 arg5 harg5 arg6 harg6 arg7 harg7 arg8 harg8 arg9 harg9 arg10 harg10 hc0 hc1 hc2 x0 x1 x2 x3 xs0 xs1 xs2) h r
      = Cert.Att.stepL (Cert.Att.tileScore (qOf x0) (qOf x1) (mskOf i)) (sOf xs0) (sOf xs1) h r := by
  unfold sOf sout1_E_1
  rw [View.read_writes_eq_canon _ _ _ (scover1_E_1 (F := Ideal) c i arg3 harg3 arg4 harg4 arg5 harg5 arg6 harg6 arg7 harg7 arg8 harg8 arg9 harg9 arg10 harg10 hc0 hc1 hc2 x0 x1 x2 x3 xs0 xs1 xs2)]
  exact valE_l c i arg3 harg3 arg4 harg4 arg5 harg5 arg6 harg6 arg7 harg7 arg8 harg8 arg9 harg9 arg10 harg10 hc0 hc1 hc2 x0 x1 x2 x3 xs0 xs1 xs2 h r

theorem soutE_2_apply (h : Fin 16) (r : Fin 512) (j : Fin 64) :
    aOf (sout1_E_2 (F := Ideal) c i arg3 harg3 arg4 harg4 arg5 harg5 arg6 harg6 arg7 harg7 arg8 harg8 arg9 harg9 arg10 harg10 hc0 hc1 hc2 x0 x1 x2 x3 xs0 xs1 xs2) h r j
      = Cert.Att.stepAcc (Cert.Att.tileScore (qOf x0) (qOf x1) (mskOf i)) (qOf x2) (sOf xs0) (aOf xs2) h r j := by
  unfold aOf sout1_E_2
  rw [View.read_writes_eq_canon _ _ _ (scover1_E_2 (F := Ideal) c i arg3 harg3 arg4 harg4 arg5 harg5 arg6 harg6 arg7 harg7 arg8 harg8 arg9 harg9 arg10 harg10 hc0 hc1 hc2 x0 x1 x2 x3 xs0 xs1 xs2)]
  exact valE_acc c i arg3 harg3 arg4 harg4 arg5 harg5 arg6 harg6 arg7 harg7 arg8 harg8 arg9 harg9 arg10 harg10 hc0 hc1 hc2 x0 x1 x2 x3 xs0 xs1 xs2 h r j

theorem outE_4_apply (r : Fin 512) (e' : Fin 1024) :
    out1_E_4 (F := Ideal) c i arg3 harg3 arg4 harg4 arg5 harg5 arg6 harg6 arg7 harg7 arg8 harg8 arg9 harg9 arg10 harg10 hc0 hc1 hc2 x0 x1 x2 x3 xs0 xs1 xs2 (ix3 0 r e')
      = Cert.Att.finOut (sOf (sout1_E_1 (F := Ideal) c i arg3 harg3 arg4 harg4 arg5 harg5 arg6 harg6 arg7 harg7 arg8 harg8 arg9 harg9 arg10 harg10 hc0 hc1 hc2 x0 x1 x2 x3 xs0 xs1 xs2)) (aOf (sout1_E_2 (F := Ideal) c i arg3 harg3 arg4 harg4 arg5 harg5 arg6 harg6 arg7 harg7 arg8 harg8 arg9 harg9 arg10 harg10 hc0 hc1 hc2 x0 x1 x2 x3 xs0 xs1 xs2)) (wOf x3) r e' := by
  have hl : sOf (sout1_E_1 (F := Ideal) c i arg3 harg3 arg4 harg4 arg5 harg5 arg6 harg6 arg7 harg7 arg8 harg8 arg9 harg9 arg10 harg10 hc0 hc1 hc2 x0 x1 x2 x3 xs0 xs1 xs2)
      = Cert.Att.stepL (Cert.Att.tileScore (qOf x0) (qOf x1) (mskOf i)) (sOf xs0) (sOf xs1) :=
    funext fun h => funext fun r => soutE_1_apply c i arg3 harg3 arg4 harg4 arg5 harg5 arg6 harg6 arg7 harg7 arg8 harg8 arg9 harg9 arg10 harg10 hc0 hc1 hc2 x0 x1 x2 x3 xs0 xs1 xs2 h r
  have ha : aOf (sout1_E_2 (F := Ideal) c i arg3 harg3 arg4 harg4 arg5 harg5 arg6 harg6 arg7 harg7 arg8 harg8 arg9 harg9 arg10 harg10 hc0 hc1 hc2 x0 x1 x2 x3 xs0 xs1 xs2)
      = Cert.Att.stepAcc (Cert.Att.tileScore (qOf x0) (qOf x1) (mskOf i)) (qOf x2) (sOf xs0) (aOf xs2) :=
    funext fun h => funext fun r => funext fun j => soutE_2_apply c i arg3 harg3 arg4 harg4 arg5 harg5 arg6 harg6 arg7 harg7 arg8 harg8 arg9 harg9 arg10 harg10 hc0 hc1 hc2 x0 x1 x2 x3 xs0 xs1 xs2 h r j
  rw [hl, ha]
  unfold out1_E_4
  rw [View.read_writes_eq_canon _ _ _ (cover1_E_4 (F := Ideal) c i arg3 harg3 arg4 harg4 arg5 harg5 arg6 harg6 arg7 harg7 arg8 harg8 arg9 harg9 arg10 harg10 hc0 hc1 hc2 x0 x1 x2 x3 xs0 xs1 xs2)]
  exact valE_out c i arg3 harg3 arg4 harg4 arg5 harg5 arg6 harg6 arg7 harg7 arg8 harg8 arg9 harg9 arg10 harg10 hc0 hc1 hc2 x0 x1 x2 x3 xs0 xs1 xs2 r e'

end CaseE

section CaseD
variable (c : Dev nD) (i : grid1.Coords) (arg3 : Memref sig .tc .vmem S1x512x16x64 .bf16) (harg3 : arg3.IsWhole) (arg4 : Memref sig .tc .vmem S1x512x16x64 .bf16) (harg4 : arg4.IsWhole) (arg5 : Memref sig .tc .vmem S1x512x16x64 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond1_0 i) (hc1 : ¬cond1_1 i) (hc2 : cond1_2 i) (x0 x1 x2 : Vec Ideal S1x512x16x64 .bf16) (x3 : Vec Ideal S1024x1024 .bf16) (xs0 xs1 : Vec Ideal S16x512x1 .f32) (xs2 : Vec Ideal S16x512x64 .f32)

theorem outD_4_apply (r : Fin 512) (e' : Fin 1024) :
    out1_D_4 (F := Ideal) c i arg3 harg3 arg4 harg4 arg5 harg5 arg6 harg6 arg7 harg7 arg8 harg8 arg9 harg9 arg10 harg10 hc0 hc1 hc2 x0 x1 x2 x3 xs0 xs1 xs2 (ix3 0 r e') = Cert.Att.finOut (sOf xs1) (aOf xs2) (wOf x3) r e' := by
  unfold out1_D_4
  rw [View.read_writes_eq_canon _ _ _ (cover1_D_4 (F := Ideal) c i arg3 harg3 arg4 harg4 arg5 harg5 arg6 harg6 arg7 harg7 arg8 harg8 arg9 harg9 arg10 harg10 hc0 hc1 hc2 x0 x1 x2 x3 xs0 xs1 xs2)]
  exact valD_out c i arg3 harg3 arg4 harg4 arg5 harg5 arg6 harg6 arg7 harg7 arg8 harg8 arg9 harg9 arg10 harg10 hc0 hc1 hc2 x0 x1 x2 x3 xs0 xs1 xs2 r e'

end CaseD

section Final

variable (V : (c : Dev nD) → (b : Ref sig .tc) → Buf (Elt Ideal) ((c : Thread nD τ).loc b))

abbrev Wf (c : Dev nD) : Fin 1024 → Fin 1024 → EReal := fun e e' => wArr V c (ix2 e e')

abbrev bAt (t : Fin cfg1.N) : Fin 4 := ⟨t.val / 16, by have := pt1_lt t; omega⟩
abbrev sAt (t : Fin cfg1.N) (r : Fin 512) : Fin 2048 := ⟨512 * (t.val / 4 % 4) + r.val, by have := r.isLt; omega⟩

theorem out_at_last (c : Dev nD) (t : Fin cfg1.N) (h2 : t.val % 4 = 3) (r : Fin 512) (e' : Fin 1024) :
    (outsAt1 V c t.val t.isLt).1 (ix3 0 r e')
      = Cert.Att.finOut (sOf (outsAt1 V c t.val t.isLt).2.2.1) (aOf (outsAt1 V c t.val t.isLt).2.2.2)
          (wOf (iblk1 V c 3 t)) r e' := by
  have h0 : ¬t.val % 4 = 0 := by omega
  by_cases h1 : t.val % 4 ≤ t.val / 4 % 4
  · rw [outsAt1_E V c t h0 h1 h2]
    dsimp only
    exact outE_4_apply _ _ _ _ _ _ _ _ _ _ _ _ _ _ _ _ _ _ _ _ _ _ _ _ _ _ _ _ r e'
  · rw [outsAt1_D V c t h0 h1 h2]
    dsimp only
    exact outD_4_apply _ _ _ _ _ _ _ _ _ _ _ _ _ _ _ _ _ _ _ _ _ _ _ _ _ _ _ _ r e'

theorem flushed1_4_eq (c : Dev nD)
    (hq : ∀ i, ∃ x : ℝ, qArr V c i = (x : EReal)) (hk : ∀ i, ∃ x : ℝ, kArr V c i = (x : EReal))
    (hv : ∀ i, ∃ x : ℝ, vArr V c i = (x : EReal))
    (t : Fin cfg1.N) (h2 : t.val % 4 = 3) :
    (dat1 (F := Ideal) V c).flushed 4 t
      = ((cfg1.win 4).blk t).view.read (Elt Ideal) (Cert.SpecG.out (Qf V c) (Kf V c) (Vf V c) (Wf V c)) := by
  show (cfg1.win 4).cut (grid1.coords t) ((dat1 (F := Ideal) V c).after 4 t) = _
  rw [after1_4]
  obtain ⟨-, -, -, -, -, -, -, -, -, -, -, -, -, -, e40, e41, e42⟩ := idx_facts1 t
  funext y
  obtain ⟨a, r, e', rfl⟩ : ∃ (a : Fin 1) (r : Fin 512) (e' : Fin 1024), y = ix3 a r e' :=
    ⟨_, _, _, ValueIdx.eq_ix3 (y : S1x512x1024.Idx)⟩
  obtain rfl : a = 0 := Subsingleton.elim _ _
  show (outsAt1 V c t.val t.isLt).1 (ix3 0 r e')
    = Cert.SpecG.out (Qf V c) (Kf V c) (Vf V c) (Wf V c) (((cfg1.win 4).blk t).view.emb (ix3 0 r e'))
  have hemb : ((cfg1.win 4).blk t).view.emb (ix3 0 r e') = ix3 (bAt t) (sAt t r) e' := by
    funext d
    apply Fin.ext
    match d with
    | ⟨0, _⟩ => show win1_4.index t (0 : Fin 3) * 1 + 1 * 0 = t.val / 16; omega
    | ⟨1, _⟩ => show win1_4.index t (1 : Fin 3) * 512 + 1 * r.val = 512 * (t.val / 4 % 4) + r.val; omega
    | ⟨2, _⟩ => show win1_4.index t (2 : Fin 3) * 1024 + 1 * e'.val = e'.val; omega
  rw [hemb, out_at_last V c t h2 r e']
  have hw : wOf (iblk1 V c 3 t) = Wf V c := funext fun e => funext fun e' => wblk_apply V c t e e'
  rw [hw]
  refine Cert.FinMath.out_of_ctx (Qf V c) (Kf V c) (Vf V c) (Wf V c) (bAt t) (sAt t r) e'
    (fun h => sOf (outsAt1 V c t.val t.isLt).2.2.1 h r) (fun h j => aOf (outsAt1 V c t.val t.isLt).2.2.2 h r j) ?_
  intro h j
  exact ctx_point V c hq hk hv t (bAt t) (t.val / 4 % 4) (Nat.mod_lt _ (by norm_num))
    (by show t.val = 16 * (t.val / 16) + 4 * (t.val / 4 % 4) + 3; omega) h r j

theorem covered1_4 (i : S4x2048x1024.Idx) :
    ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 1024 := (i 2).isLt
  let t : Fin cfg1.N := ⟨16 * (i 0).val + 4 * ((i 1).val / 512) + 3, by rw [show cfg1.N = 64 from N_1]; omega⟩
  obtain ⟨-, -, -, -, -, -, -, -, -, -, -, -, -, -, e40, e41, e42⟩ := idx_facts1 t
  have ht : t.val = 16 * (i 0).val + 4 * ((i 1).val / 512) + 3 := rfl
  refine ⟨t, (flush1_4 t).mpr (by omega), ?_⟩
  show i ∈ ((View.whole main_v13).slice (win1_4.rect t)).set
  rw [View.set_slice_whole, Rect.mem_set_unit]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 1024 ≤ (i 2).val ∧ (i 2).val < win1_4.index t (2 : Fin 3) * 1024 + 1024; omega

theorem final1 (c : Dev nD)
    (hq : ∀ i, ∃ x : ℝ, qArr V c i = (x : EReal)) (hk : ∀ i, ∃ x : ℝ, kArr V c i = (x : EReal))
    (hv : ∀ i, ∃ x : ℝ, vArr V c i = (x : EReal)) :
    (dat1 (F := Ideal) V c).arrAt 4 cfg1.N
      = Cert.SpecG.out (fun b s h j => qArr V c (ix4 b s h j)) (fun b s h j => kArr V c (ix4 b s h j))
          (fun b s h j => vArr V c (ix4 b s h j)) (fun e e' => wArr V c (ix2 e e')) :=
  (dat1 (F := Ideal) V c).arrAt_eq_of_cover 4 (Cert.SpecG.out (Qf V c) (Kf V c) (Vf V c) (Wf V c))
    (fun t hf => flushed1_4_eq V c hq hk hv t ((flush1_4 t).mp hf)) covered1_4

end Final

end Cert.KernelIdeal.Hand

end
-- ==== Proof.KernelValue.lean ====
import proofs.«404193_j6768868458990_3_alg».proof.Proof.HostSide
import proofs.«404193_j6768868458990_3_alg».proof.Proof.R1Final
import proofs.«404193_j6768868458990_3_alg».proof.Proof.SpecReal
import proofs.«404193_j6768868458990_3_alg».proof.Proof.SpecG

noncomputable section

namespace Cert.KernelIdeal.Hand

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- What region 1 leaves in the result is causal attention of the arguments, when these are real. -/
theorem kernel_value (c : Dev nD) (hx : ∀ i, ∃ r : ℝ, xA m c i = (r : EReal)) (hwa : ∀ i, ∃ r : ℝ, waA m c i = (r : EReal)) :
    (Gen.V4 m (outsH m) c main_v13 : S4x2048x1024.Idx → EReal) = Cert.Spec.out (xA m c) (waA m c) (wpA m c) := by
  have hq : ∀ i, ∃ r : ℝ, qArr (Vr3 m) c i = (r : EReal) := fun i => by
    obtain ⟨b, s, h, j, rfl⟩ : ∃ (b : Fin 4) (s : Fin 2048) (h : Fin 16) (j : Fin 64), i = ix4 b s h j := ⟨i 0, i 1, i 2, i 3, eq_ix4 i⟩
    obtain ⟨r, hr⟩ := Cert.Spec.qv_real (xA m c) (waA m c) hx hwa b s h j
    exact ⟨r, (q_ix m c b s h j).trans hr⟩
  have hk : ∀ i, ∃ r : ℝ, kArr (Vr3 m) c i = (r : EReal) := fun i => by
    obtain ⟨b, s, h, j, rfl⟩ : ∃ (b : Fin 4) (s : Fin 2048) (h : Fin 16) (j : Fin 64), i = ix4 b s h j := ⟨i 0, i 1, i 2, i 3, eq_ix4 i⟩
    obtain ⟨r, hr⟩ := Cert.Spec.kv_real (xA m c) (waA m c) hx hwa b s h j
    exact ⟨r, (k_ix m c b s h j).trans hr⟩
  have hv : ∀ i, ∃ r : ℝ, vArr (Vr3 m) c i = (r : EReal) := fun i => by
    obtain ⟨b, s, h, j, rfl⟩ : ∃ (b : Fin 4) (s : Fin 2048) (h : Fin 16) (j : Fin 64), i = ix4 b s h j := ⟨i 0, i 1, i 2, i 3, eq_ix4 i⟩
    obtain ⟨r, hr⟩ := Cert.Spec.vv_real (xA m c) (waA m c) hx hwa b s h j
    exact ⟨r, (v_ix m c b s h j).trans hr⟩
  refine ((hF1 m c 4).symm.trans (final1 (Vr3 m) c hq hk hv)).trans ?_
  rw [Cert.SpecG.spec_out]
  have e1 : (fun b s h j => qArr (Vr3 m) c (ix4 b s h j)) = Cert.Spec.qv (xA m c) (waA m c) := by
    funext b s h j; exact q_ix m c b s h j
  have e2 : (fun b s h j => kArr (Vr3 m) c (ix4 b s h j)) = Cert.Spec.kv (xA m c) (waA m c) := by
    funext b s h j; exact k_ix m c b s h j
  have e3 : (fun b s h j => vArr (Vr3 m) c (ix4 b s h j)) = Cert.Spec.vv (xA m c) (waA m c) := by
    funext b s h j; exact v_ix m c b s h j
  have e4 : (fun e e' => wArr (Vr3 m) c (ix2 e e')) = fun e e' => wpA m c (ix2 e' e) := by
    funext e e'
    show v8B m c (ix2 e e') = _
    rw [v8B_eq]; exact v8_ix m c e e'
  rw [e1, e2, e3, e4]

end Cert.KernelIdeal.Hand

end
-- ==== Proof.RefValueA.lean ====
import proofs.«404193_j6768868458990_3_alg».proof.Proof.Gen.ReferenceIdeal.Read
import proofs.«404193_j6768868458990_3_alg».proof.Proof.Spec

noncomputable section

open scoped BigOperators

namespace Cert.ReferenceIdeal.RefValue

open Cert.ReferenceIdeal Cert.ReferenceIdeal.Read Idealize.ShloMosaic Idealize.ShloMosaic.ValueIdx

abbrev XT := (⟨S4x2048x1024, .f32⟩ : BufTy).Contents (Elt Ideal)
abbrev WaT := (⟨S3072x1024, .f32⟩ : BufTy).Contents (Elt Ideal)
abbrev WpT := (⟨S1024x1024, .f32⟩ : BufTy).Contents (Elt Ideal)

variable (x0 : XT) (x1 : WaT)

theorem v0_ix (b : Fin 4) (s : Fin 2048) (e : Fin 3072) :
    val_main_v0 (F := Ideal) x0 x1 (ix3 b s e) = Cert.Spec.proj x0 x1 b s e := by
  rw [val_main_v0_apply]
  unfold Cert.Spec.proj
  refine Finset.sum_congr rfl fun k _ => ?_
  have el : lidx_main_v0 (ix3 b s e) k = ix3 b s k := funext fun a => Fin.ext (by
    match a with
    | ⟨0, _⟩ => rfl
    | ⟨1, _⟩ => rfl
    | ⟨2, _⟩ => rfl)
  have er : ridx_main_v0 (ix3 b s e) k = ix2 e k := funext fun a => Fin.ext (by
    match a with
    | ⟨0, _⟩ => rfl
    | ⟨1, _⟩ => rfl)
  rw [el, er]

def packed (part : Fin 3) (e : Fin 1024) : Fin 3072 :=
  ⟨1024 * part.val + e.val, by have := part.isLt; have := e.isLt; omega⟩

theorem v1_ix (b : Fin 4) (s : Fin 2048) (e : Fin 1024) :
    val_main_v1 (F := Ideal) x0 x1 (ix3 b s e) = Cert.Spec.proj x0 x1 b s (packed 0 e) := by
  rw [val_main_v1_apply]
  have ei : idx_main_v1 (ix3 b s e) = ix3 b s (packed 0 e) := funext fun a => Fin.ext (by
    match a with
    | ⟨0, _⟩ => rfl
    | ⟨1, _⟩ => rfl
    | ⟨2, _⟩ => show e.val = 1024 * 0 + e.val; omega)
  rw [ei, v0_ix]

theorem v2_ix (b : Fin 4) (s : Fin 2048) (e : Fin 1024) :
    val_main_v2 (F := Ideal) x0 x1 (ix3 b s e) = Cert.Spec.proj x0 x1 b s (packed 1 e) := by
  rw [val_main_v2_apply]
  have ei : idx_main_v2 (ix3 b s e) = ix3 b s (packed 1 e) := funext fun a => Fin.ext (by
    match a with
    | ⟨0, _⟩ => rfl
    | ⟨1, _⟩ => rfl
    | ⟨2, _⟩ => show 1024 + e.val = 1024 * 1 + e.val; omega)
  rw [ei, v0_ix]

theorem v3_ix (b : Fin 4) (s : Fin 2048) (e : Fin 1024) :
    val_main_v3 (F := Ideal) x0 x1 (ix3 b s e) = Cert.Spec.proj x0 x1 b s (packed 2 e) := by
  rw [val_main_v3_apply]
  have ei : idx_main_v3 (ix3 b s e) = ix3 b s (packed 2 e) := funext fun a => Fin.ext (by
    match a with
    | ⟨0, _⟩ => rfl
    | ⟨1, _⟩ => rfl
    | ⟨2, _⟩ => show 2048 + e.val = 1024 * 2 + e.val; omega)
  rw [ei, v0_ix]

def wide (h : Fin 16) (j : Fin 64) : Fin 1024 :=
  ⟨64 * h.val + j.val, by have := h.isLt; have := j.isLt; omega⟩

theorem packed_wide (part : Fin 3) (h : Fin 16) (j : Fin 64) :
    packed part (wide h j) = Cert.Spec.feat part h j := rfl

theorem split_ix (b : Fin 4) (s : Fin 2048) (h : Fin 16) (j : Fin 64) :
    idx_main_v4 (ix4 b s h j) = ix3 b s (wide h j) := funext fun a => Fin.ext (by
  have hb := b.isLt; have hs := s.isLt; have hh := h.isLt; have hj := j.isLt
  match a with
  | ⟨0, _⟩ => show (((b.val * 2048 + s.val) * 16 + h.val) * 64 + j.val) / 2097152 = b.val; omega
  | ⟨1, _⟩ => show (((b.val * 2048 + s.val) * 16 + h.val) * 64 + j.val) / 1024 % 2048 = s.val; omega
  | ⟨2, _⟩ => show (((b.val * 2048 + s.val) * 16 + h.val) * 64 + j.val) % 1024 = 64 * h.val + j.val; omega)

theorem swap_ix (b : Fin 4) (h : Fin 16) (s : Fin 2048) (j : Fin 64) :
    idx_main_v5 (ix4 b h s j) = ix4 b s h j := funext fun a => Fin.ext (by
  match a with
  | ⟨0, _⟩ => rfl
  | ⟨1, _⟩ => rfl
  | ⟨2, _⟩ => rfl
  | ⟨3, _⟩ => rfl)

theorem v5_ix (b : Fin 4) (h : Fin 16) (s : Fin 2048) (j : Fin 64) :
    val_main_v5 (F := Ideal) x0 x1 (ix4 b h s j) = Cert.Spec.qv x0 x1 b s h j := by
  rw [val_main_v5_apply, swap_ix, val_main_v4_apply, split_ix, v1_ix, packed_wide]
  rfl

theorem v7_ix (b : Fin 4) (h : Fin 16) (s : Fin 2048) (j : Fin 64) :
    val_main_v7 (F := Ideal) x0 x1 (ix4 b h s j) = Cert.Spec.kv x0 x1 b s h j := by
  rw [val_main_v7_apply]
  show val_main_v6 (F := Ideal) x0 x1 (idx_main_v5 (ix4 b h s j)) = _
  rw [swap_ix, val_main_v6_apply]
  show val_main_v2 (F := Ideal) x0 x1 (idx_main_v4 (ix4 b s h j)) = _
  rw [split_ix, v2_ix, packed_wide]
  rfl

theorem v9_ix (b : Fin 4) (h : Fin 16) (s : Fin 2048) (j : Fin 64) :
    val_main_v9 (F := Ideal) x0 x1 (ix4 b h s j) = Cert.Spec.vv x0 x1 b s h j := by
  rw [val_main_v9_apply]
  show val_main_v8 (F := Ideal) x0 x1 (idx_main_v5 (ix4 b h s j)) = _
  rw [swap_ix, val_main_v8_apply]
  show val_main_v3 (F := Ideal) x0 x1 (idx_main_v4 (ix4 b s h j)) = _
  rw [split_ix, v3_ix, packed_wide]
  rfl

end Cert.ReferenceIdeal.RefValue

end
-- ==== Proof.RefValueB.lean ====
import proofs.«404193_j6768868458990_3_alg».proof.Proof.Gen.ReferenceIdeal.Read
import Idealize.ShloMosaic.Lib.IdealHost
import Idealize.ShloMosaic.Lib.StableHlo.Predicate

noncomputable section

open scoped BigOperators

namespace Cert.ReferenceIdeal.RefValue

open Cert.ReferenceIdeal Cert.ReferenceIdeal.Read Idealize.ShloMosaic Idealize.ShloMosaic.ValueIdx

theorem ofBits_64 : Ideal.ofBits .f32 0x42800000#32 = ((64 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

theorem sqrt_64 : Real.sqrt 64 = 8 := by
  rw [show (64 : ℝ) = 8 ^ 2 by norm_num]
  exact Real.sqrt_sq (by norm_num)

theorem scale_eq (i : S_.Idx) : val_main_v11 (F := Ideal) i = ((1 / 8 : ℝ) : EReal) := by
  rw [val_main_v11_apply, val_main_cst_0_apply, val_main_v10_apply, val_main_cst_apply]
  rw [Ideal.hostDivf_def, Ideal.hostUnary_sqrt_def, Ideal.ofBits_def, Ideal.ofBits_def, Ideal.ofBits_one_f32, ofBits_64,
    Ideal.sqrt_coe, if_neg (by norm_num), sqrt_64, Ideal.div_coe (by norm_num), one_mul]

theorem scale_bcast (i : S4x16x2048x2048.Idx) : val_main_v13 (F := Ideal) i = ((1 / 8 : ℝ) : EReal) := by
  rw [val_main_v13_apply, scale_eq]

theorem fill_eq (i : S4x16x2048x2048.Idx) : val_main_call1_v2 (F := Ideal) i = (⊥ : EReal) := by
  rw [val_main_call1_v2_apply, val_main_call1_v0_apply, val_main_cst_1_apply, Ideal.ofBits_def, ofBits_neg_inf]

theorem init_max_eq (i : S_.Idx) : val_main_cst_2 (F := Ideal) i = (⊥ : EReal) := by
  rw [val_main_cst_2_apply, Ideal.ofBits_def, ofBits_neg_inf]

theorem floor_max_eq (i : S4x16x2048.Idx) : val_main_v20 (F := Ideal) i = (⊥ : EReal) := by
  rw [val_main_v20_apply, val_main_cst_3_apply, Ideal.ofBits_def, ofBits_neg_inf]

theorem init_sum_eq (i : S_.Idx) : val_main_cst_4 (F := Ideal) i = (0 : EReal) := by
  rw [val_main_cst_4_apply, Ideal.ofBits_def, Ideal.ofBits_zero_f32]

theorem toNat_word (s : Fin 2048) : (BitVec.ofNat 32 s.val).toNat = s.val := by
  rw [BitVec.toNat_ofNat]
  exact Nat.mod_eq_of_lt (by have := s.isLt; omega)

theorem tril_ix (s s' : Fin 2048) :
    val_main_v16 (F := Ideal) (ix2 s s') = if s'.val ≤ s.val then 1#1 else 0#1 := by
  rw [val_main_v16_apply, val_main_call0_v4_apply, val_main_call0_v2_apply, val_main_call0_v0_apply,
    val_main_call0_v1_apply, val_main_call0_c_apply, val_main_call0_v3_apply, val_main_v15_apply, val_main_c_apply,
    val_main_call0_v5_apply, val_main_call0_c_0_apply]
  show Scalar.select (IntOp.cmpi .sge (IntOp.addi (BitVec.ofNat 32 s.val) 0#32) (BitVec.ofNat 32 s'.val)) 1#1 0#1 = _
  have e0 : IntOp.addi (BitVec.ofNat 32 s.val) 0#32 = BitVec.ofNat 32 s.val := by
    unfold IntOp.addi; exact BitVec.add_zero _
  rw [e0]
  have hs : (BitVec.ofNat 32 s.val).toNat < 2 ^ 31 := by rw [toNat_word]; have := s.isLt; omega
  have hs' : (BitVec.ofNat 32 s'.val).toNat < 2 ^ 31 := by rw [toNat_word]; have := s'.isLt; omega
  have hiff := StableHlo.Predicate.sge_iff_toNat hs hs'
  rw [toNat_word, toNat_word] at hiff
  by_cases h : s'.val ≤ s.val
  · rw [if_pos h, hiff.mpr h, select_one]
  · rw [if_neg h]
    have hne : ¬ IntOp.cmpi .sge (BitVec.ofNat 32 s.val) (BitVec.ofNat 32 s'.val) = 1#1 := fun hc => h (hiff.mp hc)
    rw [eq_zero_of_ne_one hne, select_zero]

theorem mask_ix (b : Fin 4) (h : Fin 16) (s s' : Fin 2048) :
    val_main_call1_v1 (F := Ideal) (ix4 b h s s') = if s'.val ≤ s.val then 1#1 else 0#1 := by
  rw [val_main_call1_v1_apply, val_main_v17_apply]
  have ei : idx_main_v17 (idx_main_call1_v1 (ix4 b h s s')) = ix2 s s' := funext fun a => Fin.ext (by
    match a with
    | ⟨0, _⟩ => rfl
    | ⟨1, _⟩ => rfl)
  rw [ei, tril_ix]

end Cert.ReferenceIdeal.RefValue

end
-- ==== Proof.RefValueC.lean ====
import proofs.«404193_j6768868458990_3_alg».proof.Proof.RefValueA
import proofs.«404193_j6768868458990_3_alg».proof.Proof.RefValueB

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : XT) (x1 : WaT)

theorem v14_ix (b : Fin 4) (h : Fin 16) (s s' : Fin 2048) :
    val_main_v14 (F := Ideal) x0 x1 (ix4 b h s s') = Cert.Spec.score x0 x1 b h s s' := by
  rw [val_main_v14_apply, Ideal.mulf_def, scale_bcast, val_main_v12_apply]
  unfold Cert.Spec.score
  refine congrArg (· * ((1 / 8 : ℝ) : EReal)) (Finset.sum_congr rfl fun k _ => ?_)
  have el : lidx_main_v12 (ix4 b h s s') k = ix4 b h s k := funext fun a => Fin.ext (by
    match a with
    | ⟨0, _⟩ => rfl
    | ⟨1, _⟩ => rfl
    | ⟨2, _⟩ => rfl
    | ⟨3, _⟩ => rfl)
  have er : ridx_main_v12 (ix4 b h s s') k = ix4 b h s' k := funext fun a => Fin.ext (by
    match a with
    | ⟨0, _⟩ => rfl
    | ⟨1, _⟩ => rfl
    | ⟨2, _⟩ => rfl
    | ⟨3, _⟩ => rfl)
  rw [el, er, v5_ix, v7_ix]

theorem v18_ix (b : Fin 4) (h : Fin 16) (s s' : Fin 2048) :
    val_main_v18 (F := Ideal) x0 x1 (ix4 b h s s') = Cert.Spec.masked x0 x1 b h s s' := by
  rw [val_main_v18_apply, mask_ix, fill_eq, v14_ix]
  unfold Cert.Spec.masked
  by_cases hc : s'.val ≤ s.val
  · rw [if_pos hc, if_pos hc, select_one]
  · rw [if_neg hc, if_neg hc, select_zero]

theorem fold_max_bot_eq_sup {n : Nat} (f : Fin n → EReal) :
    (Finset.univ : Finset (Fin n)).fold max (⊥ : EReal) f = Finset.univ.sup f := rfl

theorem reduces3 : S4x16x2048x2048.Reduces [3] S4x16x2048 := by decide

theorem lift_ix (b : Fin 4) (h : Fin 16) (s : Fin 2048) (k : Fin (S4x16x2048x2048.size 3)) :
    reduces3.lift (ix3 b h s) k = ix4 b h s (⟨k.val, k.isLt⟩ : Fin 2048) := funext fun c => Fin.ext (by
  match c with
  | ⟨0, _⟩ => rfl
  | ⟨1, _⟩ => rfl
  | ⟨2, _⟩ => rfl
  | ⟨3, _⟩ => rfl)

theorem v19_ix (b : Fin 4) (h : Fin 16) (s : Fin 2048) :
    val_main_v19 (F := Ideal) x0 x1 (ix3 b h s) = Cert.Spec.rowMax x0 x1 b h s := by
  unfold val_main_v19
  rw [Host.reduce_eq_fold_single FloatOps.maximumf _ _ reducesTo_S4x16x2048x2048_S4x16x2048_d3 reduces3 h_S_]
  have hf : (val_main_v18 (F := Ideal) x0 x1 ∘ reduces3.lift (ix3 b h s))
      = fun k : Fin 2048 => Cert.Spec.masked x0 x1 b h s k :=
    funext fun k => (congrArg (val_main_v18 (F := Ideal) x0 x1) (lift_ix b h s k)).trans (v18_ix x0 x1 b h s _)
  rw [hf, init_max_eq]
  exact fold_max_bot_eq_sup _

theorem v21_ix (b : Fin 4) (h : Fin 16) (s : Fin 2048) :
    val_main_v21 (F := Ideal) x0 x1 (ix3 b h s) = Cert.Spec.rowMax x0 x1 b h s := by
  rw [val_main_v21_apply, Ideal.maximumf_def, floor_max_eq, v19_ix]
  exact max_eq_right bot_le

theorem v23_ix (b : Fin 4) (h : Fin 16) (s s' : Fin 2048) :
    val_main_v23 (F := Ideal) x0 x1 (ix4 b h s s') = Cert.Spec.rowMax x0 x1 b h s := by
  rw [val_main_v23_apply, val_main_v22_apply]
  have ei : idx_main_v22 (idx_main_v23 (ix4 b h s s')) = ix3 b h s := funext fun a => Fin.ext (by
    match a with
    | ⟨0, _⟩ => rfl
    | ⟨1, _⟩ => rfl
    | ⟨2, _⟩ => rfl)
  rw [ei, v21_ix]

theorem v25_ix (b : Fin 4) (h : Fin 16) (s s' : Fin 2048) :
    val_main_v25 (F := Ideal) x0 x1 (ix4 b h s s') = Cert.Spec.expw x0 x1 b h s s' := by
  rw [val_main_v25_apply, Ideal.hostUnary_exp_def, val_main_v24_apply, Ideal.subf_def, v18_ix, v23_ix]
  rfl

theorem v26_ix (b : Fin 4) (h : Fin 16) (s : Fin 2048) :
    val_main_v26 (F := Ideal) x0 x1 (ix3 b h s) = Cert.Spec.rowSum x0 x1 b h s := by
  rw [val_main_v26_apply, init_sum_eq, zero_add]
  unfold Cert.Spec.rowSum
  refine Finset.sum_congr rfl fun k _ => ?_
  have ei : idx_main_v26 (ix3 b h s) k = ix4 b h s k := funext fun a => Fin.ext (by
    match a with
    | ⟨0, _⟩ => rfl
    | ⟨1, _⟩ => rfl
    | ⟨2, _⟩ => rfl
    | ⟨3, _⟩ => rfl)
  rw [ei, v25_ix]

theorem v28_ix (b : Fin 4) (h : Fin 16) (s s' : Fin 2048) :
    val_main_v28 (F := Ideal) x0 x1 (ix4 b h s s') = Cert.Spec.rowSum x0 x1 b h s := by
  rw [val_main_v28_apply, val_main_v27_apply]
  have ei : idx_main_v27 (idx_main_v28 (ix4 b h s s')) = ix3 b h s := funext fun a => Fin.ext (by
    match a with
    | ⟨0, _⟩ => rfl
    | ⟨1, _⟩ => rfl
    | ⟨2, _⟩ => rfl)
  rw [ei, v26_ix]

theorem v29_ix (b : Fin 4) (h : Fin 16) (s s' : Fin 2048) :
    val_main_v29 (F := Ideal) x0 x1 (ix4 b h s s') = Cert.Spec.attn x0 x1 b h s s' := by
  rw [val_main_v29_apply, Ideal.hostDivf_def, v25_ix, v28_ix]
  rfl

end Cert.ReferenceIdeal.RefValue

end
-- ==== Proof.RefValue.lean ====
import proofs.«404193_j6768868458990_3_alg».proof.Proof.RefValueC

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : XT) (x1 : WaT) (x2 : WpT)

theorem v30_ix (b : Fin 4) (h : Fin 16) (s : Fin 2048) (j : Fin 64) :
    val_main_v30 (F := Ideal) x0 x1 (ix4 b h s j) = Cert.Spec.ctx x0 x1 b h s j := by
  rw [val_main_v30_apply]
  unfold Cert.Spec.ctx
  refine Finset.sum_congr rfl fun k _ => ?_
  have el : lidx_main_v30 (ix4 b h s j) k = ix4 b h s k := funext fun a => Fin.ext (by
    match a with
    | ⟨0, _⟩ => rfl
    | ⟨1, _⟩ => rfl
    | ⟨2, _⟩ => rfl
    | ⟨3, _⟩ => rfl)
  have er : ridx_main_v30 (ix4 b h s j) k = ix4 b h k j := funext fun a => Fin.ext (by
    match a with
    | ⟨0, _⟩ => rfl
    | ⟨1, _⟩ => rfl
    | ⟨2, _⟩ => rfl
    | ⟨3, _⟩ => rfl)
  rw [el, er, v29_ix, v9_ix]

theorem join_ix (b : Fin 4) (s : Fin 2048) (e : Fin 1024) :
    idx_main_v31 (idx_main_v32 (ix3 b s e)) = ix4 b (Cert.Spec.headOf e) s (Cert.Spec.featOf e) :=
  funext fun a => Fin.ext (by
    have hb := b.isLt; have hs := s.isLt; have he := e.isLt
    match a with
    | ⟨0, _⟩ => show ((b.val * 2048 + s.val) * 1024 + e.val) / 2097152 = b.val; omega
    | ⟨1, _⟩ => show ((b.val * 2048 + s.val) * 1024 + e.val) / 64 % 16 = e.val / 64; omega
    | ⟨2, _⟩ => show ((b.val * 2048 + s.val) * 1024 + e.val) / 1024 % 2048 = s.val; omega
    | ⟨3, _⟩ => show ((b.val * 2048 + s.val) * 1024 + e.val) % 64 = e.val % 64; omega)

theorem v32_ix (b : Fin 4) (s : Fin 2048) (e : Fin 1024) :
    val_main_v32 (F := Ideal) x0 x1 (ix3 b s e)
      = Cert.Spec.ctx x0 x1 b (Cert.Spec.headOf e) s (Cert.Spec.featOf e) := by
  rw [val_main_v32_apply, val_main_v31_apply, join_ix, v30_ix]

theorem out_ix (b : Fin 4) (s : Fin 2048) (e : Fin 1024) :
    Cert.Spec.out x0 x1 x2 (ix3 b s e)
      = ∑ e' : Fin 1024, Cert.Spec.ctx x0 x1 b (Cert.Spec.headOf e') s (Cert.Spec.featOf e') * x2 (ix2 e e') := rfl

theorem v33_ix (b : Fin 4) (s : Fin 2048) (e : Fin 1024) :
    val_main_v33 (F := Ideal) x0 x1 x2 (ix3 b s e) = Cert.Spec.out x0 x1 x2 (ix3 b s e) := by
  rw [val_main_v33_apply, out_ix]
  refine Finset.sum_congr rfl fun k _ => ?_
  have el : lidx_main_v33 (ix3 b s e) k = ix3 b s k := funext fun a => Fin.ext (by
    match a with
    | ⟨0, _⟩ => rfl
    | ⟨1, _⟩ => rfl
    | ⟨2, _⟩ => rfl)
  have er : ridx_main_v33 (ix3 b s e) k = ix2 e k := funext fun a => Fin.ext (by
    match a with
    | ⟨0, _⟩ => rfl
    | ⟨1, _⟩ => rfl)
  rw [el, er, v32_ix]

/-- The reference's last stage, read one operation at a time, is the same function of the arguments. -/
theorem ref_out : val_main_v33 (F := Ideal) x0 x1 x2 = Cert.Spec.out x0 x1 x2 := by
  funext i
  obtain ⟨b, s, e, rfl⟩ : ∃ (b : Fin 4) (s : Fin 2048) (e : Fin 1024), i = ix3 b s e :=
    ⟨i 0, i 1, i 2, eq_ix3 i⟩
  exact v33_ix x0 x1 x2 b s e

end Cert.ReferenceIdeal.RefValue

end
-- ==== Proof.Finite.lean ====
import proofs.«404193_j6768868458990_3_alg».proof.Pre_finite_inputs
import proofs.«404193_j6768868458990_3_alg».proof.Proof.Gen.Pre_finite_inputs
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

theorem inf_pattern : Ideal.ofBits .f32 0x7F800000#32 = ⊤ := by simp [Ideal.ofBits, Ideal.ieee]

theorem real_of_abs_lt (x : EReal) (h : Ideal.cmp .olt (max x (-x)) (Ideal.ofBits .f32 0x7F800000#32) = 1#1) :
    ∃ r : ℝ, x = (r : EReal) := by
  rw [inf_pattern] at h
  induction x using EReal.rec with
  | bot => simp [Ideal.cmp] at h
  | coe r => exact ⟨r, rfl⟩
  | top => simp [Ideal.cmp] at h

/-- Under the precondition every entry of the three arguments is a real. -/
theorem real_of_pre [Cert.Pre_finite_inputs.Facts] (x0 : FVec Ideal S4x2048x1024 .f32) (x1 : FVec Ideal S3072x1024 .f32)
    (x2 : FVec Ideal S1024x1024 .f32) (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h ValueIdx.ix0
  dsimp only [Cert.Pre_finite_inputs.fn, andi] at e
  rw [IntOp.andi_eq_one, IntOp.andi_eq_one] at e
  obtain ⟨⟨e0, e1⟩, e2⟩ := e
  refine ⟨fun i => ?_, fun i => ?_, fun i => ?_⟩
  · exact real_of_abs_lt _ (Host.reduce_andi_all _ _ _ _ _ e0 i)
  · exact real_of_abs_lt _ (Host.reduce_andi_all _ _ _ _ _ e1 i)
  · exact real_of_abs_lt _ (Host.reduce_andi_all _ _ _ _ _ e2 i)

end Cert.Finite

end
-- ==== Proof.lean ====
import proofs.«404193_j6768868458990_3_alg».proof.Defs
import proofs.«404193_j6768868458990_3_alg».proof.Proof.Gen.Kernel
import proofs.«404193_j6768868458990_3_alg».proof.Proof.Gen.KernelIdeal
import proofs.«404193_j6768868458990_3_alg».proof.Proof.Gen.ReferenceIdeal
import proofs.«404193_j6768868458990_3_alg».proof.Proof.Gen.ReferenceIdeal.Run
import proofs.«404193_j6768868458990_3_alg».proof.Proof.Gen.Pre_finite_inputs
import proofs.«404193_j6768868458990_3_alg».proof.Proof.KernelValue
import proofs.«404193_j6768868458990_3_alg».proof.Proof.RefValue
import proofs.«404193_j6768868458990_3_alg».proof.Proof.Finite
import Idealize.ShloMosaic.Adequacy
import Idealize.ShloMosaic.Init

noncomputable section

namespace Cert.Proof

open Idealize.ShloMosaic Idealize.SL.Sem

/-- A named constant read as the word it was printed from. -/
instance : Named Bits := ⟨fun _ _ {φ} b => Scalar.ofBits φ b⟩

/-- The two printed programs differ only in how sixteen constants are spelt, so with a name read as its word
    they are one program: label by label the bodies agree. -/
theorem defs_eq : Cert.KernelIdeal.defs (F := Bits) = Cert.Kernel.defs (F := Bits) :=
  congrArg (Pipeline.defs Cert.Kernel.pcfgs) <| congrArg Defs.onTc <| funext fun ℓ => funext fun a =>
    match ℓ, a with
    | 0, (_, _) => rfl
    | 1, (_, _) => rfl
    | ⟨_ + 2, h⟩, _ => absurd h (Nat.not_lt.2 (Nat.le_add_left _ _))

/-- The run is proved once, for any reading of the floats; read at words it is the printed kernel's. -/
theorem frame_k : @Cert.frame_Kernel Cert.Kernel.Gen.facts Cert.Pre_finite_inputs.Gen.facts := fun m ρ _ =>
  (θ_run Cert.Kernel.defs _ _).mono (fun _ h c => (h c).2)
    (defs_eq ▸ Cert.KernelIdeal.Hand.run_main (F := Bits) m ρ)

theorem frame_ki : @Cert.frame_KernelIdeal Cert.KernelIdeal.Gen.facts Cert.Pre_finite_inputs.Gen.facts := fun m ρ _ =>
  (θ_run Cert.KernelIdeal.defs _ _).mono (fun _ h c => (h c).2) (Cert.KernelIdeal.Hand.run_main (F := Ideal) m ρ)

theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- All sixteen ledger entries (one per head) name the same constant. -/
theorem preserves : Cert.preserves_Kernel_KernelIdeal :=
  have h := IdealRules.named_const.statement Cert.KernelIdeal.κ "neg_big" .f32 0xFF333332#32 ⊥ rfl
  ⟨h, h, h, h, h, h, h, h, h, h, h, h, h, h, h, h⟩

/-- Both idealized programs end at causal multi-head attention of the (real) arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  have hreal := fun c => Cert.Finite.real_of_pre _ _ _ (hpre c)
  refine ⟨fun c => Cert.Spec.out (Cert.KernelIdeal.Hand.xA m c) (Cert.KernelIdeal.Hand.waA m c) (Cert.KernelIdeal.Hand.wpA m c), ?_, ?_⟩
  · exact (θ_run Cert.KernelIdeal.defs _ _).mono
      (fun _ h c => ⟨(h c).1.trans (Cert.KernelIdeal.Hand.kernel_value m c (hreal c).1 (hreal c).2.1), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, Cert.ReferenceIdeal.RefValue.ref_out, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
